-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x100x65536 : Shape := ⟨3, ![1, 100, 65536]⟩
abbrev S2x2000 : Shape := ⟨2, ![2, 2000]⟩
abbrev S1 : Shape := ⟨1, ![1]⟩
abbrev S3x65536x60 : Shape := ⟨3, ![3, 65536, 60]⟩
abbrev S60 : Shape := ⟨1, ![60]⟩
abbrev S6003x100 : Shape := ⟨2, ![6003, 100]⟩
abbrev S100 : Shape := ⟨1, ![100]⟩
abbrev S6003x1 : Shape := ⟨2, ![6003, 1]⟩
abbrev S_ : Shape := ⟨0, ![]⟩

class Facts : Prop where
  bcast_S_S1x100x65536 : S_.BroadcastsInDim S1x100x65536 (![] : Fin 0 → Fin S1x100x65536.rank)
  reducesTo_S1x100x65536_S_d0_1_2 : S1x100x65536.ReducesTo [0, 1, 2] S_
  h_S_ : 0 < S_.numel
  bcast_S_S1 : S_.BroadcastsInDim S1 (![] : Fin 0 → Fin S1.rank)
  reducesTo_S1_S_d0 : S1.ReducesTo [0] S_
  bcast_S_S3x65536x60 : S_.BroadcastsInDim S3x65536x60 (![] : Fin 0 → Fin S3x65536x60.rank)
  reducesTo_S3x65536x60_S_d0_1_2 : S3x65536x60.ReducesTo [0, 1, 2] S_
  bcast_S_S60 : S_.BroadcastsInDim S60 (![] : Fin 0 → Fin S60.rank)
  reducesTo_S60_S_d0 : S60.ReducesTo [0] S_
  bcast_S_S6003x100 : S_.BroadcastsInDim S6003x100 (![] : Fin 0 → Fin S6003x100.rank)
  reducesTo_S6003x100_S_d0_1 : S6003x100.ReducesTo [0, 1] S_
  bcast_S_S100 : S_.BroadcastsInDim S100 (![] : Fin 0 → Fin S100.rank)
  reducesTo_S100_S_d0 : S100.ReducesTo [0] S_
  bcast_S_S6003x1 : S_.BroadcastsInDim S6003x1 (![] : Fin 0 → Fin S6003x1.rank)
  reducesTo_S6003x1_S_d0_1 : S6003x1.ReducesTo [0, 1] S_
  bcast_S_S2x2000 : S_.BroadcastsInDim S2x2000 (![] : Fin 0 → Fin S2x2000.rank)
  reducesTo_S2x2000_S_d0_1 : S2x2000.ReducesTo [0, 1] S_

variable [Facts]

def fn_part3 {F : FTy → Type} [FloatOps F] (main_arg1 : IVec S2x2000 32) (main_arg12 : FVec F S1 .f32) (main_v48 : IVec S_ 1) (main_v49 : FVec F S6003x1 .f32) (main_v50 : FVec F S6003x1 .f32) : IVec S_ 1 :=
  let main_v51 : IVec S6003x1 1 := cmpf .olt main_v49 main_v50
  let main_c_19 : IVec S_ 1 := constantI S_ 1 1#1
  let main_v52 : IVec S_ 1 := (fun x v => Host.reduce IntOp.andi x v reducesTo_S6003x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S2x2000 32 := broadcastInDim S2x2000 ![] bcast_S_S2x2000 main_c_22
  let main_v60 : IVec S2x2000 1 := cmpi .sge main_arg1 main_v59
  let main_c_23 : IVec S_ 32 := constantI S_ 32 100#32
  let main_v61 : IVec S2x2000 32 := broadcastInDim S2x2000 ![] bcast_S_S2x2000 main_c_23
  let main_v62 : IVec S2x2000 1 := cmpi .slt main_arg1 main_v61
  let main_v63 : IVec S2x2000 1 := andi main_v60 main_v62
  let main_c_24 : IVec S_ 1 := constantI S_ 1 1#1
  let main_v64 : IVec S_ 1 := (fun x v => Host.reduce IntOp.andi x v reducesTo_S2x2000_S_d0_1 h_S_) main_v63 main_c_24
  let main_v65 : IVec S_ 1 := andi main_v58 main_v64
  main_v65

def fn_part2 {F : FTy → Type} [FloatOps F] (main_arg1 : IVec S2x2000 32) (main_arg8 : FVec F S60 .f32) (main_arg9 : FVec F S6003x100 .f32) (main_arg10 : FVec F S100 .f32) (main_arg11 : FVec F S6003x1 .f32) (main_arg12 : FVec F S1 .f32) (main_v33 : IVec S_ 1) : IVec S_ 1 :=
  let main_v34 : FVec F S60 .f32 := Host.absf main_arg8
  let main_cst_12 : FVec F S_ .f32 := constant S_ .f32 0x7F800000#32
  let main_v35 : FVec F S60 .f32 := broadcastInDim S60 ![] bcast_S_S60 main_cst_12
  let main_v36 : IVec S60 1 := cmpf .olt main_v34 main_v35
  let main_c_13 : IVec S_ 1 := constantI S_ 1 1#1
  let main_v37 : IVec S_ 1 := (fun x v => Host.reduce IntOp.andi x v reducesTo_S60_S_d0 h_S_) main_v36 main_c_13
  let main_v38 : IVec S_ 1 := andi main_v33 main_v37
  let main_v39 : FVec F S6003x100 .f32 := Host.absf main_arg9
  let main_cst_14 : FVec F S_ .f32 := constant S_ .f32 0x7F800000#32
  let main_v40 : FVec F S6003x100 .f32 := broadcastInDim S6003x100 ![] bcast_S_S6003x100 main_cst_14
  let main_v41 : IVec S6003x100 1 := cmpf .olt main_v39 main_v40
  let main_c_15 : IVec S_ 1 := constantI S_ 1 1#1
  let main_v42 : IVec S_ 1 := (fun x v => Host.reduce IntOp.andi x v reducesTo_S6003x100_S_d0_1 h_S_) main_v41 main_c_15
  let main_v43 : IVec S_ 1 := andi main_v38 main_v42
  let main_v44 : FVec F S100 .f32 := Host.absf main_arg10
  let main_cst_16 : FVec F S_ .f32 := constant S_ .f32 0x7F800000#32
  let main_v45 : FVec F S100 .f32 := broadcastInDim S100 ![] bcast_S_S100 main_cst_16
  let main_v46 : IVec S100 1 := cmpf .olt main_v44 main_v45
  let main_c_17 : IVec S_ 1 := constantI S_ 1 1#1
  let main_v47 : IVec S_ 1 := (fun x v => Host.reduce IntOp.andi x v reducesTo_S100_S_d0 h_S_) main_v46 main_c_17
  let main_v48 : IVec S_ 1 := andi main_v43 main_v47
  let main_v49 : FVec F S6003x1 .f32 := Host.absf main_arg11
  let main_cst_18 : FVec F S_ .f32 := constant S_ .f32 0x7F800000#32
  let main_v50 : FVec F S6003x1 .f32 := broadcastInDim S6003x1 ![] bcast_S_S6003x1 main_cst_18
  fn_part3 (F := F) main_arg1 main_arg12 main_v48 main_v49 main_v50

def fn_part1 {F : FTy → Type} [FloatOps F] (main_arg1 : IVec S2x2000 32) (main_arg5 : FVec F S3x65536x60 .f32) (main_arg6 : FVec F S60 .f32) (main_arg7 : FVec F S3x65536x60 .f32) (main_arg8 : FVec F S60 .f32) (main_arg9 : FVec F S6003x100 .f32) (main_arg10 : FVec F S100 .f32) (main_arg11 : FVec F S6003x1 .f32) (main_arg12 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S3x65536x60 .f32 := Host.absf main_arg5
  let main_cst_6 : FVec F S_ .f32 := constant S_ .f32 0x7F800000#32
  let main_v20 : FVec F S3x65536x60 .f32 := broadcastInDim S3x65536x60 ![] bcast_S_S3x65536x60 main_cst_6
  let main_v21 : IVec S3x65536x60 1 := cmpf .olt main_v19 main_v20
  let main_c_7 : IVec S_ 1 := constantI S_ 1 1#1
  let main_v22 : IVec S_ 1 := (fun x v => Host.reduce IntOp.andi x v reducesTo_S3x65536x60_S_d0_1_2 h_S_) main_v21 main_c_7
  let main_v23 : IVec S_ 1 := andi main_v18 main_v22
  let main_v24 : FVec F S60 .f32 := Host.absf main_arg6
  let main_cst_8 : FVec F S_ .f32 := constant S_ .f32 0x7F800000#32
  let main_v25 : FVec F S60 .f32 := broadcastInDim S60 ![] bcast_S_S60 main_cst_8
  let main_v26 : IVec S60 1 := cmpf .olt main_v24 main_v25
  let main_c_9 : IVec S_ 1 := constantI S_ 1 1#1
  let main_v27 : IVec S_ 1 := (fun x v => Host.reduce IntOp.andi x v reducesTo_S60_S_d0 h_S_) main_v26 main_c_9
  let main_v28 : IVec S_ 1 := andi main_v23 main_v27
  let main_v29 : FVec F S3x65536x60 .f32 := Host.absf main_arg7
  let main_cst_10 : FVec F S_ .f32 := constant S_ .f32 0x7F800000#32
  let main_v30 : FVec F S3x65536x60 .f32 := broadcastInDim S3x65536x60 ![] bcast_S_S3x65536x60 main_cst_10
  let main_v31 : IVec S3x65536x60 1 := cmpf .olt main_v29 main_v30
  let main_c_11 : IVec S_ 1 := constantI S_ 1 1#1
  let main_v32 : IVec S_ 1 := (fun x v => Host.reduce IntOp.andi x v reducesTo_S3x65536x60_S_d0_1_2 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S1x100x65536 .f32) (main_arg1 : IVec S2x2000 32) (main_arg2 : FVec F S1 .f32) (main_arg3 : FVec F S1 .f32) (main_arg4 : FVec F S1 .f32) (main_arg5 : FVec F S3x65536x60 .f32) (main_arg6 : FVec F S60 .f32) (main_arg7 : FVec F S3x65536x60 .f32) (main_arg8 : FVec F S60 .f32) (main_arg9 : FVec F S6003x100 .f32) (main_arg10 : FVec F S100 .f32) (main_arg11 : FVec F S6003x1 .f32) (main_arg12 : FVec F S1 .f32) : IVec S_ 1 :=
  let main_v0 : FVec F S1x100x65536 .f32 := Host.absf main_arg0
  let main_cst : FVec F S_ .f32 := constant S_ .f32 0x7F800000#32
  let main_v1 : FVec F S1x100x65536 .f32 := broadcastInDim S1x100x65536 ![] bcast_S_S1x100x65536 main_cst
  let main_v2 : IVec S1x100x65536 1 := cmpf .olt main_v0 main_v1
  let main_c : IVec S_ 1 := constantI S_ 1 1#1
  let main_v3 : IVec S_ 1 := (fun x v => Host.reduce IntOp.andi x v reducesTo_S1x100x65536_S_d0_1_2 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg1 main_arg5 main_arg6 main_arg7 main_arg8 main_arg9 main_arg10 main_arg11 main_arg12 main_v13 main_v16
-- ==== Kernel.lean ====
abbrev S1x100x65536 : Shape := ⟨3, ![1, 100, 65536]⟩
abbrev S2x2000 : Shape := ⟨2, ![2, 2000]⟩
abbrev S1 : Shape := ⟨1, ![1]⟩
abbrev S3x65536x60 : Shape := ⟨3, ![3, 65536, 60]⟩
abbrev S60 : Shape := ⟨1, ![60]⟩
abbrev S6003x100 : Shape := ⟨2, ![6003, 100]⟩
abbrev S100 : Shape := ⟨1, ![100]⟩
abbrev S6003x1 : Shape := ⟨2, ![6003, 1]⟩
abbrev S1x2000 : Shape := ⟨2, ![1, 2000]⟩
abbrev S2000 : Shape := ⟨1, ![2000]⟩
abbrev S_ : Shape := ⟨0, ![]⟩
abbrev S2000x1 : Shape := ⟨2, ![2000, 1]⟩
abbrev S100x100 : Shape := ⟨2, ![100, 100]⟩
abbrev S2000x2 : Shape := ⟨2, ![2000, 2]⟩
abbrev S100x60 : Shape := ⟨2, ![100, 60]⟩
abbrev S1x100x4096 : Shape := ⟨3, ![1, 100, 4096]⟩
abbrev S3x4096x60 : Shape := ⟨3, ![3, 4096, 60]⟩
abbrev S100x4096 : Shape := ⟨2, ![100, 4096]⟩
abbrev S1x4096x60 : Shape := ⟨3, ![1, 4096, 60]⟩
abbrev S4096x60 : Shape := ⟨2, ![4096, 60]⟩
abbrev S1x60 : Shape := ⟨2, ![1, 60]⟩
abbrev S1x6000 : Shape := ⟨2, ![1, 6000]⟩
abbrev S1x1 : Shape := ⟨2, ![1, 1]⟩
abbrev S1x6003 : Shape := ⟨2, ![1, 6003]⟩
abbrev S1x100 : Shape := ⟨2, ![1, 100]⟩

abbrev nBuf : Space → Nat
  | .hbm => 93
  | .vmem => 13
  | .smem => 0
  | _ => 0

abbrev bufTy : (tb : Table) → Fin (tcTables nBuf tb) → BufTy
  | .hbm, ⟨0, _⟩ => ⟨S1x100x65536, .f32⟩
  | .hbm, ⟨1, _⟩ => ⟨S2x2000, .i32⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S3x65536x60, .f32⟩
  | .hbm, ⟨6, _⟩ => ⟨S60, .f32⟩
  | .hbm, ⟨7, _⟩ => ⟨S3x65536x60, .f32⟩
  | .hbm, ⟨8, _⟩ => ⟨S60, .f32⟩
  | .hbm, ⟨9, _⟩ => ⟨S6003x100, .f32⟩
  | .hbm, ⟨10, _⟩ => ⟨S100, .f32⟩
  | .hbm, ⟨11, _⟩ => ⟨S6003x1, .f32⟩
  | .hbm, ⟨12, _⟩ => ⟨S1, .f32⟩
  | .hbm, ⟨13, _⟩ => ⟨S1x2000, .i32⟩
  | .hbm, ⟨14, _⟩ => ⟨S2000, .i32⟩
  | .hbm, ⟨15, _⟩ => ⟨S1x2000, .i32⟩
  | .hbm, ⟨16, _⟩ => ⟨S2000, .i32⟩
  | .hbm, ⟨17, _⟩ => ⟨S_, .f32⟩
  | .hbm, ⟨18, _⟩ => ⟨S2000, .f32⟩
  | .hbm, ⟨19, _⟩ => ⟨S_, .f32⟩
  | .hbm, ⟨20, _⟩ => ⟨S100, .f32⟩
  | .hbm, ⟨21, _⟩ => ⟨S2000x1, .i32⟩
  | .hbm, ⟨22, _⟩ => ⟨S100, .f32⟩
  | .hbm, ⟨23, _⟩ => ⟨S_, .f32⟩
  | .hbm, ⟨24, _⟩ => ⟨S100, .f32⟩
  | .hbm, ⟨25, _⟩ => ⟨S100, .i1⟩
  | .hbm, ⟨26, _⟩ => ⟨S_, .f32⟩
  | .hbm, ⟨27, _⟩ => ⟨S100, .f32⟩
  | .hbm, ⟨28, _⟩ => ⟨S100, .i1⟩
  | .hbm, ⟨29, _⟩ => ⟨S_, .f32⟩
  | .hbm, ⟨30, _⟩ => ⟨S_, .f32⟩
  | .hbm, ⟨31, _⟩ => ⟨S100, .f32⟩
  | .hbm, ⟨32, _⟩ => ⟨S100, .f32⟩
  | .hbm, ⟨33, _⟩ => ⟨S100, .f32⟩
  | .hbm, ⟨34, _⟩ => ⟨S_, .f32⟩
  | .hbm, ⟨35, _⟩ => ⟨S_, .f32⟩
  | .hbm, ⟨36, _⟩ => ⟨S100, .f32⟩
  | .hbm, ⟨37, _⟩ => ⟨S100, .f32⟩
  | .hbm, ⟨38, _⟩ => ⟨S_, .i32⟩
  | .hbm, ⟨39, _⟩ => ⟨S2000, .i32⟩
  | .hbm, ⟨40, _⟩ => ⟨S2000, .i1⟩
  | .hbm, ⟨41, _⟩ => ⟨S_, .i32⟩
  | .hbm, ⟨42, _⟩ => ⟨S2000, .i32⟩
  | .hbm, ⟨43, _⟩ => ⟨S2000, .i32⟩
  | .hbm, ⟨44, _⟩ => ⟨S2000, .i32⟩
  | .hbm, ⟨45, _⟩ => ⟨S2000x1, .i32⟩
  | .hbm, ⟨46, _⟩ => ⟨S2000, .f32⟩
  | .hbm, ⟨47, _⟩ => ⟨S_, .i32⟩
  | .hbm, ⟨48, _⟩ => ⟨S2000, .i32⟩
  | .hbm, ⟨49, _⟩ => ⟨S2000, .i1⟩
  | .hbm, ⟨50, _⟩ => ⟨S_, .i32⟩
  | .hbm, ⟨51, _⟩ => ⟨S2000, .i32⟩
  | .hbm, ⟨52, _⟩ => ⟨S2000, .i32⟩
  | .hbm, ⟨53, _⟩ => ⟨S2000, .i32⟩
  | .hbm, ⟨54, _⟩ => ⟨S2000x1, .i32⟩
  | .hbm, ⟨55, _⟩ => ⟨S2000, .f32⟩
  | .hbm, ⟨56, _⟩ => ⟨S2000, .f32⟩
  | .hbm, ⟨57, _⟩ => ⟨S2000, .f32⟩
  | .hbm, ⟨58, _⟩ => ⟨S_, .f32⟩
  | .hbm, ⟨59, _⟩ => ⟨S100x100, .f32⟩
  | .hbm, ⟨60, _⟩ => ⟨S_, .i32⟩
  | .hbm, ⟨61, _⟩ => ⟨S2000, .i32⟩
  | .hbm, ⟨62, _⟩ => ⟨S2000, .i1⟩
  | .hbm, ⟨63, _⟩ => ⟨S_, .i32⟩
  | .hbm, ⟨64, _⟩ => ⟨S2000, .i32⟩
  | .hbm, ⟨65, _⟩ => ⟨S2000, .i32⟩
  | .hbm, ⟨66, _⟩ => ⟨S2000, .i32⟩
  | .hbm, ⟨67, _⟩ => ⟨S_, .i32⟩
  | .hbm, ⟨68, _⟩ => ⟨S2000, .i32⟩
  | .hbm, ⟨69, _⟩ => ⟨S2000, .i1⟩
  | .hbm, ⟨70, _⟩ => ⟨S_, .i32⟩
  | .hbm, ⟨71, _⟩ => ⟨S2000, .i32⟩
  | .hbm, ⟨72, _⟩ => ⟨S2000, .i32⟩
  | .hbm, ⟨73, _⟩ => ⟨S2000, .i32⟩
  | .hbm, ⟨74, _⟩ => ⟨S2000x1, .i32⟩
  | .hbm, ⟨75, _⟩ => ⟨S2000x1, .i32⟩
  | .hbm, ⟨76, _⟩ => ⟨S2000x2, .i32⟩
  | .hbm, ⟨77, _⟩ => ⟨S100x100, .f32⟩
  | .hbm, ⟨78, _⟩ => ⟨S100x60, .f32⟩
  | .hbm, ⟨79, _⟩ => ⟨S100x60, .f32⟩
  | .hbm, ⟨80, _⟩ => ⟨S1x6000, .f32⟩
  | .hbm, ⟨81, _⟩ => ⟨S1x6000, .f32⟩
  | .hbm, ⟨82, _⟩ => ⟨S1x1, .f32⟩
  | .hbm, ⟨83, _⟩ => ⟨S1x1, .f32⟩
  | .hbm, ⟨84, _⟩ => ⟨S1x1, .f32⟩
  | .hbm, ⟨85, _⟩ => ⟨S1x6003, .f32⟩
  | .hbm, ⟨86, _⟩ => ⟨S1x6003, .f32⟩
  | .hbm, ⟨87, _⟩ => ⟨S1x100, .f32⟩
  | .hbm, ⟨88, _⟩ => ⟨S1x100, .f32⟩
  | .hbm, ⟨89, _⟩ => ⟨S1x100, .f32⟩
  | .hbm, ⟨90, _⟩ => ⟨S1x1, .f32⟩
  | .hbm, ⟨91, _⟩ => ⟨S1x1, .f32⟩
  | .hbm, ⟨92, _⟩ => ⟨S1x1, .f32⟩
  | .local _ .vmem, ⟨0, _⟩ => ⟨S100x100, .f32⟩
  | .local _ .vmem, ⟨1, _⟩ => ⟨S1x100x4096, .f32⟩
  | .local _ .vmem, ⟨2, _⟩ => ⟨S1x100x4096, .f32⟩
  | .local _ .vmem, ⟨3, _⟩ => ⟨S3x4096x60, .f32⟩
  | .local _ .vmem, ⟨4, _⟩ => ⟨S3x4096x60, .f32⟩
  | .local _ .vmem, ⟨5, _⟩ => ⟨S3x4096x60, .f32⟩
  | .local _ .vmem, ⟨6, _⟩ => ⟨S3x4096x60, .f32⟩
  | .local _ .vmem, ⟨7, _⟩ => ⟨S60, .f32⟩
  | .local _ .vmem, ⟨8, _⟩ => ⟨S60, .f32⟩
  | .local _ .vmem, ⟨9, _⟩ => ⟨S100x60, .f32⟩
  | .local _ .vmem, ⟨10, _⟩ => ⟨S100x60, .f32⟩
  | .local _ .vmem, ⟨11, _⟩ => ⟨S100x60, .f32⟩
  | .local _ .vmem, ⟨12, _⟩ => ⟨S100x60, .f32⟩
  | _, _ => ⟨S1x100x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v12 : Ref sig .tc := ⟨.hbm, 32, rfl⟩
abbrev main_v13 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_5 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_6 : Ref sig .tc := ⟨.hbm, 47, rfl⟩
abbrev main_v22 : Ref sig .tc := ⟨.hbm, 48, rfl⟩
abbrev main_v23 : Ref sig .tc := ⟨.hbm, 49, rfl⟩
abbrev main_c_7 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_8 : Ref sig .tc := ⟨.hbm, 58, rfl⟩
abbrev main_v31 : Ref sig .tc := ⟨.hbm, 59, rfl⟩
abbrev main_c_9 : Ref sig .tc := ⟨.hbm, 60, rfl⟩
abbrev main_v32 : Ref sig .tc := ⟨.hbm, 61, rfl⟩
abbrev main_v33 : Ref sig .tc := ⟨.hbm, 62, rfl⟩
abbrev main_c_10 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_11 : Ref sig .tc := ⟨.hbm, 67, rfl⟩
abbrev main_v37 : Ref sig .tc := ⟨.hbm, 68, rfl⟩
abbrev main_v38 : Ref sig .tc := ⟨.hbm, 69, rfl⟩
abbrev main_c_12 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46_0 : Ref sig .tc := ⟨.hbm, 78, rfl⟩
abbrev main_v46_1 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v56 : BitVec 1 := Scalar.cmpi .eq arg0 c15_i32
  let v57 : BitVec 32 := Scalar.extui v56
  let c0_i32_27 : BitVec 32 := 0#32
  let v58 : BitVec 1 := Scalar.cmpi .ne v57 c0_i32_27
  v58

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S100x100 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x100x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x4096x60 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x4096x60 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S60 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S60 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S100x60 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S100x60 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  slices_S2x2000_S1x2000_0_0 : S2x2000.Slices ![0, 0] S1x2000
  shapeCasts_S1x2000_S2000 : S1x2000.ShapeCasts S2000
  slices_S2x2000_S1x2000_1_0 : S2x2000.Slices ![1, 0] S1x2000
  bcast_S_S2000 : S_.BroadcastsInDim S2000 (![] : Fin 0 → Fin S2000.rank)
  bcast_S_S100 : S_.BroadcastsInDim S100 (![] : Fin 0 → Fin S100.rank)
  bcast_S2000_S2000x1_0 : S2000.BroadcastsInDim S2000x1 (![0] : Fin 1 → Fin S2000x1.rank)
  bcast_S_S100x100 : S_.BroadcastsInDim S100x100 (![] : Fin 0 → Fin S100x100.rank)
  concatenates_S2000x1_S2000x1_S2000x2_d1 : Shape.Concatenates [S2000x1, S2000x1] S2000x2 1
  inb_S100x60_S100x60_0_0 : ∀ a, (![0, 0] : Fin 2 → Nat) a + S100x60.size a ≤ S100x60.size a
  h_S100x60 : 0 < S100x60.numel
  shapeCasts_S100x60_S100x60 : S100x60.ShapeCasts S100x60
  inb_S100x100_S100x100_0_0 : ∀ a, (![0, 0] : Fin 2 → Nat) a + S100x100.size a ≤ S100x100.size a
  h_S100x100 : 0 < S100x100.numel
  shapeCasts_S100x100_S100x100 : S100x100.ShapeCasts S100x100
  bitsLt_bf16_f32 : FTy.bits .bf16 < FTy.bits .f32
  inb_S1x100x4096_S1x100x4096_0_0_0 : ∀ a, (![0, 0, 0] : Fin 3 → Nat) a + S1x100x4096.size a ≤ S1x100x4096.size a
  h_S1x100x4096 : 0 < S1x100x4096.numel
  shapeCasts_S1x100x4096_S100x4096 : S1x100x4096.ShapeCasts S100x4096
  inb_S3x4096x60_S3x4096x60_0_0_0 : ∀ a, (![0, 0, 0] : Fin 3 → Nat) a + S3x4096x60.size a ≤ S3x4096x60.size a
  h_S3x4096x60 : 0 < S3x4096x60.numel
  slices_S3x4096x60_o0_0_0_S1x4096x60 : S3x4096x60.Slices ![0, 0, 0] S1x4096x60
  shapeCasts_S1x4096x60_S4096x60 : S1x4096x60.ShapeCasts S4096x60
  slices_S3x4096x60_o1_0_0_S1x4096x60 : S3x4096x60.Slices ![1, 0, 0] S1x4096x60
  slices_S3x4096x60_o2_0_0_S1x4096x60 : S3x4096x60.Slices ![2, 0, 0] S1x4096x60
  inb_S60_S60_0 : ∀ a, (![0] : Fin 1 → Nat) a + S60.size a ≤ S60.size a
  h_S60 : 0 < S60.numel
  shapeCasts_S60_S1x60 : S60.ShapeCasts S1x60
  broadcasts_S1x60_S100x60 : S1x60.Broadcasts S100x60
  shapeCasts_S100x60_S1x6000 : S100x60.ShapeCasts S1x6000
  bcast_S1_S1x1_1 : S1.BroadcastsInDim S1x1 (![1] : Fin 1 → Fin S1x1.rank)
  concatenates_S1x6000_S1x1_S1x1_S1x1_S1x6003_d1 : Shape.Concatenates [S1x6000, S1x1, S1x1, S1x1] S1x6003 1
  bcast_S100_S1x100_1 : S100.BroadcastsInDim S1x100 (![1] : Fin 1 → Fin S1x100.rank)
  scatter_S100_S2000x1_S2000_n_0_0_1_wf : ScatterDims.WF S100 S2000x1 S2000 [] [0] [0] 1
  gather_S100_S2000x1_S2000_n_0_n_n_0_1_1_wf : GatherDims.WF S100 S2000x1 S2000 [] [0] [] [0] [] 1 ![1]
  scatter_S100x100_S2000x2_S2000_n_01_01_1_wf : ScatterDims.WF S100x100 S2000x2 S2000 [] [0, 1] [0, 1] 1
  dot_S100x100_S100x4096_S100x4096_1_0_0_1_n_n_wf : DotDims.WF S100x100 S100x4096 S100x4096 [1] [0] [0] [1] [] []
  dot_S100x4096_S4096x60_S100x60_1_0_0_1_n_n_wf : DotDims.WF S100x4096 S4096x60 S100x60 [1] [0] [0] [1] [] []
  dot_S1x6003_S6003x100_S1x100_1_0_0_1_n_n_wf : DotDims.WF S1x6003 S6003x100 S1x100 [1] [0] [0] [1] [] []
  dot_S1x6003_S6003x1_S1x1_1_0_0_1_n_n_wf : DotDims.WF S1x6003 S6003x1 S1x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S100x100.size a ≤ S100x100.size a
  hwx0_0 : ∀ i : grid0.Coords, EltTy.bits .f32 = 32 ∨ (Rect.block (s := S100x100) S100x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x100x4096.size a ≤ S1x100x65536.size a
  hwx0_1 : ∀ i : grid0.Coords, EltTy.bits .f32 = 32 ∨ (Rect.block (s := S1x100x65536) S1x100x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x4096x60.size a ≤ S3x65536x60.size a
  hwx0_2 : ∀ i : grid0.Coords, EltTy.bits .f32 = 32 ∨ (Rect.block (s := S3x65536x60) S3x4096x60.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x4096x60.size a ≤ S3x65536x60.size a
  hwx0_3 : ∀ i : grid0.Coords, EltTy.bits .f32 = 32 ∨ (Rect.block (s := S3x65536x60) S3x4096x60.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S60.size a ≤ S60.size a
  hwx0_4 : ∀ i : grid0.Coords, EltTy.bits .f32 = 32 ∨ (Rect.block (s := S60) S60.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S60.size a ≤ S60.size a
  hwx0_5 : ∀ i : grid0.Coords, EltTy.bits .f32 = 32 ∨ (Rect.block (s := S60) S60.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S100x60.size a ≤ S100x60.size a
  hwx0_6 : ∀ i : grid0.Coords, EltTy.bits .f32 = 32 ∨ (Rect.block (s := S100x60) S100x60.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S100x60.size a ≤ S100x60.size a
  hwx0_7 : ∀ i : grid0.Coords, EltTy.bits .f32 = 32 ∨ (Rect.block (s := S100x60) S100x60.size (cc0_transform_7 i) (hinb0_7 i)).WholeWords (EltTy.packing .f32)

variable [Facts₀]

def scatter_S100_S2000x1_S2000_n_0_0_1 : ScatterDims S100 S2000x1 S2000 where
  updateWindowDims := []
  insertedWindowDims := [0]
  scatterDimsToOperandDims := [0]
  indexVectorDim := 1
  wf := scatter_S100_S2000x1_S2000_n_0_0_1_wf
def gather_S100_S2000x1_S2000_n_0_n_n_0_1_1 : GatherDims S100 S2000x1 S2000 where
  offsetDims := []
  collapsedSliceDims := [0]
  operandBatchingDims := []
  startIndicesBatchingDims := []
  startIndexMap := [0]
  indexVectorDim := 1
  sliceSizes := ![1]
  wf := gather_S100_S2000x1_S2000_n_0_n_n_0_1_1_wf
def scatter_S100x100_S2000x2_S2000_n_01_01_1 : ScatterDims S100x100 S2000x2 S2000 where
  updateWindowDims := []
  insertedWindowDims := [0, 1]
  scatterDimsToOperandDims := [0, 1]
  indexVectorDim := 1
  wf := scatter_S100x100_S2000x2_S2000_n_01_01_1_wf
def dot_S100x100_S100x4096_S100x4096_1_0_0_1_n_n : DotDims S100x100 S100x4096 S100x4096 where
  lhsContracting := [1]
  rhsContracting := [0]
  lhsNonContracting := [0]
  rhsNonContracting := [1]
  lhsBatch := []
  rhsBatch := []
  wf := dot_S100x100_S100x4096_S100x4096_1_0_0_1_n_n_wf
def dot_S100x4096_S4096x60_S100x60_1_0_0_1_n_n : DotDims S100x4096 S4096x60 S100x60 where
  lhsContracting := [1]
  rhsContracting := [0]
  lhsNonContracting := [0]
  rhsNonContracting := [1]
  lhsBatch := []
  rhsBatch := []
  wf := dot_S100x4096_S4096x60_S100x60_1_0_0_1_n_n_wf
def dot_S1x6003_S6003x100_S1x100_1_0_0_1_n_n : DotDims S1x6003 S6003x100 S1x100 where
  lhsContracting := [1]
  rhsContracting := [0]
  lhsNonContracting := [0]
  rhsNonContracting := [1]
  lhsBatch := []
  rhsBatch := []
  wf := dot_S1x6003_S6003x100_S1x100_1_0_0_1_n_n_wf
def dot_S1x6003_S6003x1_S1x1_1_0_0_1_n_n : DotDims S1x6003 S6003x1 S1x1 where
  lhsContracting := [1]
  rhsContracting := [0]
  lhsNonContracting := [0]
  rhsNonContracting := [1]
  lhsBatch := []
  rhsBatch := []
  wf := dot_S1x6003_S6003x1_S1x1_1_0_0_1_n_n_wf

abbrev win0_0 : Pipeline.Window sig grid0 :=
  Pipeline.Window.ofSpec (Memref.whole main_v45) S100x100.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x100x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S3x4096x60.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S3x4096x60.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S60.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S60.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v46_0) S100x60.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v46_1) S100x60.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S1x100x65536 : Shape := ⟨3, ![1, 100, 65536]⟩
abbrev S2x2000 : Shape := ⟨2, ![2, 2000]⟩
abbrev S1 : Shape := ⟨1, ![1]⟩
abbrev S3x65536x60 : Shape := ⟨3, ![3, 65536, 60]⟩
abbrev S60 : Shape := ⟨1, ![60]⟩
abbrev S6003x100 : Shape := ⟨2, ![6003, 100]⟩
abbrev S100 : Shape := ⟨1, ![100]⟩
abbrev S6003x1 : Shape := ⟨2, ![6003, 1]⟩
abbrev S1x2000 : Shape := ⟨2, ![1, 2000]⟩
abbrev S2000 : Shape := ⟨1, ![2000]⟩
abbrev S_ : Shape := ⟨0, ![]⟩
abbrev S2000x1 : Shape := ⟨2, ![2000, 1]⟩
abbrev S100x65536 : Shape := ⟨2, ![100, 65536]⟩
abbrev S2000x65536 : Shape := ⟨2, ![2000, 65536]⟩
abbrev S1x65536x60 : Shape := ⟨3, ![1, 65536, 60]⟩
abbrev S65536x60 : Shape := ⟨2, ![65536, 60]⟩
abbrev S100x60 : Shape := ⟨2, ![100, 60]⟩
abbrev S1x60 : Shape := ⟨2, ![1, 60]⟩
abbrev S1x100x60 : Shape := ⟨3, ![1, 100, 60]⟩
abbrev S1x6000 : Shape := ⟨2, ![1, 6000]⟩
abbrev S1x1 : Shape := ⟨2, ![1, 1]⟩
abbrev S1x6003 : Shape := ⟨2, ![1, 6003]⟩
abbrev S1x100 : Shape := ⟨2, ![1, 100]⟩

abbrev nBuf : Space → Nat
  | .hbm => 222
  | .vmem => 0
  | .smem => 0
  | _ => 0

abbrev hbmTy0_0 (i : Nat) : BufTy := match i % 128 with
  | 0 => ⟨S1x100x65536, .f32⟩
  | 1 => ⟨S2x2000, .i32⟩
  | 2 => ⟨S1, .f32⟩
  | 3 => ⟨S1, .f32⟩
  | 4 => ⟨S1, .f32⟩
  | 5 => ⟨S3x65536x60, .f32⟩
  | 6 => ⟨S60, .f32⟩
  | 7 => ⟨S3x65536x60, .f32⟩
  | 8 => ⟨S60, .f32⟩
  | 9 => ⟨S6003x100, .f32⟩
  | 10 => ⟨S100, .f32⟩
  | 11 => ⟨S6003x1, .f32⟩
  | 12 => ⟨S1, .f32⟩
  | 13 => ⟨S1x2000, .i32⟩
  | 14 => ⟨S2000, .i32⟩
  | 15 => ⟨S1x2000, .i32⟩
  | 16 => ⟨S2000, .i32⟩
  | 17 => ⟨S_, .f32⟩
  | 18 => ⟨S2000, .f32⟩
  | 19 => ⟨S_, .f32⟩
  | 20 => ⟨S100, .f32⟩
  | 21 => ⟨S2000x1, .i32⟩
  | 22 => ⟨S100, .f32⟩
  | 23 => ⟨S_, .f32⟩
  | 24 => ⟨S100, .f32⟩
  | 25 => ⟨S100, .i1⟩
  | 26 => ⟨S_, .f32⟩
  | 27 => ⟨S100, .f32⟩
  | 28 => ⟨S100, .i1⟩
  | 29 => ⟨S_, .f32⟩
  | 30 => ⟨S_, .f32⟩
  | 31 => ⟨S100, .f32⟩
  | 32 => ⟨S100, .f32⟩
  | 33 => ⟨S100, .f32⟩
  | 34 => ⟨S_, .f32⟩
  | 35 => ⟨S_, .f32⟩
  | 36 => ⟨S100, .f32⟩
  | 37 => ⟨S100, .f32⟩
  | 38 => ⟨S_, .i32⟩
  | 39 => ⟨S2000, .i32⟩
  | 40 => ⟨S2000, .i1⟩
  | 41 => ⟨S_, .i32⟩
  | 42 => ⟨S2000, .i32⟩
  | 43 => ⟨S2000, .i32⟩
  | 44 => ⟨S2000, .i32⟩
  | 45 => ⟨S2000x1, .i32⟩
  | 46 => ⟨S2000, .f32⟩
  | 47 => ⟨S_, .i32⟩
  | 48 => ⟨S2000, .i32⟩
  | 49 => ⟨S2000, .i1⟩
  | 50 => ⟨S_, .i32⟩
  | 51 => ⟨S2000, .i32⟩
  | 52 => ⟨S2000, .i32⟩
  | 53 => ⟨S2000, .i32⟩
  | 54 => ⟨S2000x1, .i32⟩
  | 55 => ⟨S2000, .f32⟩
  | 56 => ⟨S2000, .f32⟩
  | 57 => ⟨S2000, .f32⟩
  | 58 => ⟨S100x65536, .f32⟩
  | 59 => ⟨S_, .i32⟩
  | 60 => ⟨S2000, .i32⟩
  | 61 => ⟨S2000, .i1⟩
  | 62 => ⟨S_, .i32⟩
  | 63 => ⟨S2000, .i32⟩
  | 64 => ⟨S2000, .i32⟩
  | 65 => ⟨S2000, .i32⟩
  | 66 => ⟨S2000x1, .i32⟩
  | 67 => ⟨S2000x65536, .f32⟩
  | 68 => ⟨S2000x1, .f32⟩
  | 69 => ⟨S2000x65536, .f32⟩
  | 70 => ⟨S2000x65536, .f32⟩
  | 71 => ⟨S_, .f32⟩
  | 72 => ⟨S100x65536, .f32⟩
  | 73 => ⟨S2000x1, .i32⟩
  | 74 => ⟨S100x65536, .f32⟩
  | 75 => ⟨S_, .i32⟩
  | 76 => ⟨S2000, .i32⟩
  | 77 => ⟨S2000, .i1⟩
  | 78 => ⟨S_, .i32⟩
  | 79 => ⟨S2000, .i32⟩
  | 80 => ⟨S2000, .i32⟩
  | 81 => ⟨S2000, .i32⟩
  | 82 => ⟨S2000x1, .i32⟩
  | 83 => ⟨S2000x65536, .f32⟩
  | 84 => ⟨S2000x1, .f32⟩
  | 85 => ⟨S2000x65536, .f32⟩
  | 86 => ⟨S2000x65536, .f32⟩
  | 87 => ⟨S_, .f32⟩
  | 88 => ⟨S100x65536, .f32⟩
  | 89 => ⟨S2000x1, .i32⟩
  | 90 => ⟨S100x65536, .f32⟩
  | 91 => ⟨S_, .f32⟩
  | 92 => ⟨S100x65536, .f32⟩
  | 93 => ⟨S100x65536, .f32⟩
  | 94 => ⟨S100x65536, .f32⟩
  | 95 => ⟨S1x65536x60, .f32⟩
  | 96 => ⟨S65536x60, .f32⟩
  | 97 => ⟨S100x60, .f32⟩
  | 98 => ⟨S1x65536x60, .f32⟩
  | 99 => ⟨S65536x60, .f32⟩
  | 100 => ⟨S100x60, .f32⟩
  | 101 => ⟨S100x60, .f32⟩
  | 102 => ⟨S1x65536x60, .f32⟩
  | 103 => ⟨S65536x60, .f32⟩
  | 104 => ⟨S100x60, .f32⟩
  | 105 => ⟨S100x60, .f32⟩
  | 106 => ⟨S1x60, .f32⟩
  | 107 => ⟨S100x60, .f32⟩
  | 108 => ⟨S100x60, .f32⟩
  | 109 => ⟨S1x100x60, .f32⟩
  | 110 => ⟨S1x100x60, .f32⟩
  | 111 => ⟨S1x6000, .f32⟩
  | 112 => ⟨S1x2000, .i32⟩
  | 113 => ⟨S2000, .i32⟩
  | 114 => ⟨S1x2000, .i32⟩
  | 115 => ⟨S2000, .i32⟩
  | 116 => ⟨S_, .f32⟩
  | 117 => ⟨S2000, .f32⟩
  | 118 => ⟨S_, .f32⟩
  | 119 => ⟨S100, .f32⟩
  | 120 => ⟨S2000x1, .i32⟩
  | 121 => ⟨S100, .f32⟩
  | 122 => ⟨S_, .f32⟩
  | 123 => ⟨S100, .f32⟩
  | 124 => ⟨S100, .i1⟩
  | 125 => ⟨S_, .f32⟩
  | 126 => ⟨S100, .f32⟩
  | 127 => ⟨S100, .i1⟩
  | _ => ⟨S1x100x65536, .f32⟩

abbrev hbmTy0_1 (i : Nat) : BufTy := match i % 128 with
  | 0 => ⟨S_, .f32⟩
  | 1 => ⟨S_, .f32⟩
  | 2 => ⟨S100, .f32⟩
  | 3 => ⟨S100, .f32⟩
  | 4 => ⟨S100, .f32⟩
  | 5 => ⟨S_, .f32⟩
  | 6 => ⟨S_, .f32⟩
  | 7 => ⟨S100, .f32⟩
  | 8 => ⟨S100, .f32⟩
  | 9 => ⟨S_, .i32⟩
  | 10 => ⟨S2000, .i32⟩
  | 11 => ⟨S2000, .i1⟩
  | 12 => ⟨S_, .i32⟩
  | 13 => ⟨S2000, .i32⟩
  | 14 => ⟨S2000, .i32⟩
  | 15 => ⟨S2000, .i32⟩
  | 16 => ⟨S2000x1, .i32⟩
  | 17 => ⟨S2000, .f32⟩
  | 18 => ⟨S_, .i32⟩
  | 19 => ⟨S2000, .i32⟩
  | 20 => ⟨S2000, .i1⟩
  | 21 => ⟨S_, .i32⟩
  | 22 => ⟨S2000, .i32⟩
  | 23 => ⟨S2000, .i32⟩
  | 24 => ⟨S2000, .i32⟩
  | 25 => ⟨S2000x1, .i32⟩
  | 26 => ⟨S2000, .f32⟩
  | 27 => ⟨S2000, .f32⟩
  | 28 => ⟨S2000, .f32⟩
  | 29 => ⟨S100x65536, .f32⟩
  | 30 => ⟨S_, .i32⟩
  | 31 => ⟨S2000, .i32⟩
  | 32 => ⟨S2000, .i1⟩
  | 33 => ⟨S_, .i32⟩
  | 34 => ⟨S2000, .i32⟩
  | 35 => ⟨S2000, .i32⟩
  | 36 => ⟨S2000, .i32⟩
  | 37 => ⟨S2000x1, .i32⟩
  | 38 => ⟨S2000x65536, .f32⟩
  | 39 => ⟨S2000x1, .f32⟩
  | 40 => ⟨S2000x65536, .f32⟩
  | 41 => ⟨S2000x65536, .f32⟩
  | 42 => ⟨S_, .f32⟩
  | 43 => ⟨S100x65536, .f32⟩
  | 44 => ⟨S2000x1, .i32⟩
  | 45 => ⟨S100x65536, .f32⟩
  | 46 => ⟨S_, .i32⟩
  | 47 => ⟨S2000, .i32⟩
  | 48 => ⟨S2000, .i1⟩
  | 49 => ⟨S_, .i32⟩
  | 50 => ⟨S2000, .i32⟩
  | 51 => ⟨S2000, .i32⟩
  | 52 => ⟨S2000, .i32⟩
  | 53 => ⟨S2000x1, .i32⟩
  | 54 => ⟨S2000x65536, .f32⟩
  | 55 => ⟨S2000x1, .f32⟩
  | 56 => ⟨S2000x65536, .f32⟩
  | 57 => ⟨S2000x65536, .f32⟩
  | 58 => ⟨S_, .f32⟩
  | 59 => ⟨S100x65536, .f32⟩
  | 60 => ⟨S2000x1, .i32⟩
  | 61 => ⟨S100x65536, .f32⟩
  | 62 => ⟨S_, .f32⟩
  | 63 => ⟨S100x65536, .f32⟩
  | 64 => ⟨S100x65536, .f32⟩
  | 65 => ⟨S100x65536, .f32⟩
  | 66 => ⟨S1x65536x60, .f32⟩
  | 67 => ⟨S65536x60, .f32⟩
  | 68 => ⟨S100x60, .f32⟩
  | 69 => ⟨S1x65536x60, .f32⟩
  | 70 => ⟨S65536x60, .f32⟩
  | 71 => ⟨S100x60, .f32⟩
  | 72 => ⟨S100x60, .f32⟩
  | 73 => ⟨S1x65536x60, .f32⟩
  | 74 => ⟨S65536x60, .f32⟩
  | 75 => ⟨S100x60, .f32⟩
  | 76 => ⟨S100x60, .f32⟩
  | 77 => ⟨S1x60, .f32⟩
  | 78 => ⟨S100x60, .f32⟩
  | 79 => ⟨S100x60, .f32⟩
  | 80 => ⟨S1x100x60, .f32⟩
  | 81 => ⟨S1x100x60, .f32⟩
  | 82 => ⟨S1x6000, .f32⟩
  | 83 => ⟨S1x1, .f32⟩
  | 84 => ⟨S1x1, .f32⟩
  | 85 => ⟨S1x1, .f32⟩
  | 86 => ⟨S1x6003, .f32⟩
  | 87 => ⟨S1x6003, .f32⟩
  | 88 => ⟨S1x100, .f32⟩
  | 89 => ⟨S1x100, .f32⟩
  | 90 => ⟨S1x100, .f32⟩
  | 91 => ⟨S1x1, .f32⟩
  | 92 => ⟨S1x1, .f32⟩
  | 93 => ⟨S1x1, .f32⟩
  | _ => ⟨S1x100x65536, .f32⟩

abbrev hbmTy (i : Nat) : BufTy := match i / 128 with
  | 0 => hbmTy0_0 i
  | 1 => hbmTy0_1 i
  | _ => ⟨S1x100x65536, .f32⟩

abbrev bufTy : (tb : Table) → Fin (tcTables nBuf tb) → BufTy
  | .hbm, ⟨i, _⟩ => hbmTy i
  | _, _ => ⟨S1x100x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v12 : Ref sig .tc := ⟨.hbm, 32, rfl⟩
abbrev main_v13 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_5 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_6 : Ref sig .tc := ⟨.hbm, 47, rfl⟩
abbrev main_v22 : Ref sig .tc := ⟨.hbm, 48, rfl⟩
abbrev main_v23 : Ref sig .tc := ⟨.hbm, 49, rfl⟩
abbrev main_c_7 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_8 : Ref sig .tc := ⟨.hbm, 59, rfl⟩
abbrev main_v32 : Ref sig .tc := ⟨.hbm, 60, rfl⟩
abbrev main_v33 : Ref sig .tc := ⟨.hbm, 61, rfl⟩
abbrev main_c_9 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_10 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_11 : Ref sig .tc := ⟨.hbm, 75, rfl⟩
abbrev main_v45 : Ref sig .tc := ⟨.hbm, 76, rfl⟩
abbrev main_v46 : Ref sig .tc := ⟨.hbm, 77, rfl⟩
abbrev main_c_12 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_13 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_14 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_15 : Ref sig .tc := ⟨.hbm, 116, rfl⟩
abbrev main_v82 : Ref sig .tc := ⟨.hbm, 117, rfl⟩
abbrev main_cst_16 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_17 : Ref sig .tc := ⟨.hbm, 122, rfl⟩
abbrev main_v86 : Ref sig .tc := ⟨.hbm, 123, rfl⟩
abbrev main_v87 : Ref sig .tc := ⟨.hbm, 124, rfl⟩
abbrev main_cst_18 : Ref sig .tc := ⟨.hbm, 125, rfl⟩
abbrev main_v88 : Ref sig .tc := ⟨.hbm, 126, rfl⟩
abbrev main_v89 : Ref sig .tc := ⟨.hbm, 127, rfl⟩
abbrev main_cst_19 : Ref sig .tc := ⟨.hbm, 128, rfl⟩
abbrev main_call2_v0 : Ref sig .tc := ⟨.hbm, 129, rfl⟩
abbrev main_call2_v1 : Ref sig .tc := ⟨.hbm, 130, rfl⟩
abbrev main_v90 : Ref sig .tc := ⟨.hbm, 131, rfl⟩
abbrev main_v91 : Ref sig .tc := ⟨.hbm, 132, rfl⟩
abbrev main_cst_20 : Ref sig .tc := ⟨.hbm, 133, rfl⟩
abbrev main_call3_v0 : Ref sig .tc := ⟨.hbm, 134, rfl⟩
abbrev main_call3_v1 : Ref sig .tc := ⟨.hbm, 135, rfl⟩
abbrev main_v92 : Ref sig .tc := ⟨.hbm, 136, rfl⟩
abbrev main_c_21 : Ref sig .tc := ⟨.hbm, 137, rfl⟩
abbrev main_v93 : Ref sig .tc := ⟨.hbm, 138, rfl⟩
abbrev main_v94 : Ref sig .tc := ⟨.hbm, 139, rfl⟩
abbrev main_c_22 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_c_23 : Ref sig .tc := ⟨.hbm, 146, rfl⟩
abbrev main_v100 : Ref sig .tc := ⟨.hbm, 147, rfl⟩
abbrev main_v101 : Ref sig .tc := ⟨.hbm, 148, rfl⟩
abbrev main_c_24 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_c_25 : Ref sig .tc := ⟨.hbm, 158, rfl⟩
abbrev main_v110 : Ref sig .tc := ⟨.hbm, 159, rfl⟩
abbrev main_v111 : Ref sig .tc := ⟨.hbm, 160, rfl⟩
abbrev main_c_26 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_27 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_c_28 : Ref sig .tc := ⟨.hbm, 174, rfl⟩
abbrev main_v123 : Ref sig .tc := ⟨.hbm, 175, rfl⟩
abbrev main_v124 : Ref sig .tc := ⟨.hbm, 176, rfl⟩
abbrev main_c_29 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_cst_30 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_31 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩

abbrev nD : Nat := 1
abbrev τ : Topo := Topo.v7x

variable {F : FTy → Type} [FloatOps F]

class Facts₀ : Prop where
  slices_S2x2000_S1x2000_0_0 : S2x2000.Slices ![0, 0] S1x2000
  shapeCasts_S1x2000_S2000 : S1x2000.ShapeCasts S2000
  slices_S2x2000_S1x2000_1_0 : S2x2000.Slices ![1, 0] S1x2000
  bcast_S_S2000 : S_.BroadcastsInDim S2000 (![] : Fin 0 → Fin S2000.rank)
  bcast_S_S100 : S_.BroadcastsInDim S100 (![] : Fin 0 → Fin S100.rank)
  bcast_S2000_S2000x1_0 : S2000.BroadcastsInDim S2000x1 (![0] : Fin 1 → Fin S2000x1.rank)
  shapeCasts_S1x100x65536_S100x65536 : S1x100x65536.ShapeCasts S100x65536
  bcast_S2000x1_S2000x65536_0_1 : S2000x1.BroadcastsInDim S2000x65536 (![0, 1] : Fin 2 → Fin S2000x65536.rank)
  bcast_S_S100x65536 : S_.BroadcastsInDim S100x65536 (![] : Fin 0 → Fin S100x65536.rank)
  slices_S3x65536x60_S1x65536x60_0_0_0 : S3x65536x60.Slices ![0, 0, 0] S1x65536x60
  shapeCasts_S1x65536x60_S65536x60 : S1x65536x60.ShapeCasts S65536x60
  slices_S3x65536x60_S1x65536x60_1_0_0 : S3x65536x60.Slices ![1, 0, 0] S1x65536x60
  slices_S3x65536x60_S1x65536x60_2_0_0 : S3x65536x60.Slices ![2, 0, 0] S1x65536x60
  bcast_S60_S1x60_1 : S60.BroadcastsInDim S1x60 (![1] : Fin 1 → Fin S1x60.rank)
  bcast_S1x60_S100x60_0_1 : S1x60.BroadcastsInDim S100x60 (![0, 1] : Fin 2 → Fin S100x60.rank)
  bcast_S100x60_S1x100x60_1_2 : S100x60.BroadcastsInDim S1x100x60 (![1, 2] : Fin 2 → Fin S1x100x60.rank)
  shapeCasts_S1x100x60_S1x6000 : S1x100x60.ShapeCasts S1x6000
  bcast_S1_S1x1_1 : S1.BroadcastsInDim S1x1 (![1] : Fin 1 → Fin S1x1.rank)
  concatenates_S1x6000_S1x1_S1x1_S1x1_S1x6003_d1 : Shape.Concatenates [S1x6000, S1x1, S1x1, S1x1] S1x6003 1
  bcast_S100_S1x100_1 : S100.BroadcastsInDim S1x100 (![1] : Fin 1 → Fin S1x100.rank)
  scatter_S100_S2000x1_S2000_n_0_0_1_wf : ScatterDims.WF S100 S2000x1 S2000 [] [0] [0] 1
  gather_S100_S2000x1_S2000_n_0_n_n_0_1_1_wf : GatherDims.WF S100 S2000x1 S2000 [] [0] [] [0] [] 1 ![1]
  gather_S100x65536_S2000x1_S2000x65536_1_0_n_n_0_1_165536_wf : GatherDims.WF S100x65536 S2000x1 S2000x65536 [1] [0] [] [0] [] 1 ![1, 65536]
  scatter_S100x65536_S2000x1_S2000x65536_1_0_0_1_wf : ScatterDims.WF S100x65536 S2000x1 S2000x65536 [1] [0] [0] 1
  dot_S100x65536_S65536x60_S100x60_1_0_0_1_n_n_wf : DotDims.WF S100x65536 S65536x60 S100x60 [1] [0] [0] [1] [] []
  dot_S1x6003_S6003x100_S1x100_1_0_0_1_n_n_wf : DotDims.WF S1x6003 S6003x100 S1x100 [1] [0] [0] [1] [] []
  dot_S1x6003_S6003x1_S1x1_1_0_0_1_n_n_wf : DotDims.WF S1x6003 S6003x1 S1x1 [1] [0] [0] [1] [] []

variable [Facts₀]

def scatter_S100_S2000x1_S2000_n_0_0_1 : ScatterDims S100 S2000x1 S2000 where
  updateWindowDims := []
  insertedWindowDims := [0]
  scatterDimsToOperandDims := [0]
  indexVectorDim := 1
  wf := scatter_S100_S2000x1_S2000_n_0_0_1_wf
def gather_S100_S2000x1_S2000_n_0_n_n_0_1_1 : GatherDims S100 S2000x1 S2000 where
  offsetDims := []
  collapsedSliceDims := [0]
  operandBatchingDims := []
  startIndicesBatchingDims := []
  startIndexMap := [0]
  indexVectorDim := 1
  sliceSizes := ![1]
  wf := gather_S100_S2000x1_S2000_n_0_n_n_0_1_1_wf
def gather_S100x65536_S2000x1_S2000x65536_1_0_n_n_0_1_165536 : GatherDims S100x65536 S2000x1 S2000x65536 where
  offsetDims := [1]
  collapsedSliceDims := [0]
  operandBatchingDims := []
  startIndicesBatchingDims := []
  startIndexMap := [0]
  indexVectorDim := 1
  sliceSizes := ![1, 65536]
  wf := gather_S100x65536_S2000x1_S2000x65536_1_0_n_n_0_1_165536_wf
def scatter_S100x65536_S2000x1_S2000x65536_1_0_0_1 : ScatterDims S100x65536 S2000x1 S2000x65536 where
  updateWindowDims := [1]
  insertedWindowDims := [0]
  scatterDimsToOperandDims := [0]
  indexVectorDim := 1
  wf := scatter_S100x65536_S2000x1_S2000x65536_1_0_0_1_wf
def dot_S100x65536_S65536x60_S100x60_1_0_0_1_n_n : DotDims S100x65536 S65536x60 S100x60 where
  lhsContracting := [1]
  rhsContracting := [0]
  lhsNonContracting := [0]
  rhsNonContracting := [1]
  lhsBatch := []
  rhsBatch := []
  wf := dot_S100x65536_S65536x60_S100x60_1_0_0_1_n_n_wf
def dot_S1x6003_S6003x100_S1x100_1_0_0_1_n_n : DotDims S1x6003 S6003x100 S1x100 where
  lhsContracting := [1]
  rhsContracting := [0]
  lhsNonContracting := [0]
  rhsNonContracting := [1]
  lhsBatch := []
  rhsBatch := []
  wf := dot_S1x6003_S6003x100_S1x100_1_0_0_1_n_n_wf
def dot_S1x6003_S6003x1_S1x1_1_0_0_1_n_n : DotDims S1x6003 S6003x1 S1x1 where
  lhsContracting := [1]
  rhsContracting := [0]
  lhsNonContracting := [0]
  rhsNonContracting := [1]
  lhsBatch := []
  rhsBatch := []
  wf := dot_S1x6003_S6003x1_S1x1_1_0_0_1_n_n_wf

class Facts : Prop extends Facts₀ where

variable [Facts]
-- ==== Proof.FrameKI.Base.lean ====
import proofs.«171431_j27848567947758_1_alg».proof.Proof.Gen.KernelIdeal.Launch
import proofs.«171431_j27848567947758_1_alg».proof.Proof.Gen.KernelIdeal.Skeleton
import proofs.«171431_j27848567947758_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) :=
  StableHlo.after (List.flatten [hostOps0, hostOps0_1, hostOps0_2, hostOps0_3, hostOps0_4]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No operation before the grid writes one of the thirteen arguments: the written buffers are read off the list once, for a general argument. -/
theorem pre_keeps : ∀ b ∈ ([main_arg0, main_arg1, main_arg2, main_arg3, main_arg4, main_arg5, main_arg6, main_arg7, main_arg8, main_arg9, main_arg10, main_arg11, main_arg12] : List (Ref sig .tc)),
    ∀ op ∈ List.flatten ([hostOps0, hostOps0_1, hostOps0_2, hostOps0_3, hostOps0_4] : List (List (HloOp τ sig (Elt F)))), Proc.devRef .tc b ∉ op.writes := by
  intro b hb
  refine List.forall_iff_forall_mem.mp ?_
  simp only [hostOps0, hostOps0_1, hostOps0_2, hostOps0_3, hostOps0_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  simp only [List.mem_cons, List.mem_nil_iff, _root_.or_false] at hb
  rcases hb with rfl | rfl | rfl | rfl | rfl | rfl | rfl | rfl | rfl | rfl | rfl | rfl | rfl
  all_goals
    repeat' apply And.intro
    all_goals exact StableHlo.devRef_ne_of_ne (by decide)

/-- So each argument is as launched when the grid starts. -/
theorem V_arg (c : Dev nD) (b : Ref sig .tc) (hb : b ∈ ([main_arg0, main_arg1, main_arg2, main_arg3, main_arg4, main_arg5, main_arg6, main_arg7, main_arg8, main_arg9, main_arg10, main_arg11, main_arg12] : List (Ref sig .tc))) : V m c b = m ((c : Thread nD τ).loc b) :=
  StableHlo.after_of_forall_not_mem _ _ (pre_keeps b hb)

theorem V_main_arg0 (c : Dev nD) : V m c main_arg0 = m ((c : Thread nD τ).loc main_arg0) := V_arg m c _ (by decide)
theorem V_main_arg1 (c : Dev nD) : V m c main_arg1 = m ((c : Thread nD τ).loc main_arg1) := V_arg m c _ (by decide)
theorem V_main_arg2 (c : Dev nD) : V m c main_arg2 = m ((c : Thread nD τ).loc main_arg2) := V_arg m c _ (by decide)
theorem V_main_arg3 (c : Dev nD) : V m c main_arg3 = m ((c : Thread nD τ).loc main_arg3) := V_arg m c _ (by decide)
theorem V_main_arg4 (c : Dev nD) : V m c main_arg4 = m ((c : Thread nD τ).loc main_arg4) := V_arg m c _ (by decide)
theorem V_main_arg5 (c : Dev nD) : V m c main_arg5 = m ((c : Thread nD τ).loc main_arg5) := V_arg m c _ (by decide)
theorem V_main_arg6 (c : Dev nD) : V m c main_arg6 = m ((c : Thread nD τ).loc main_arg6) := V_arg m c _ (by decide)
theorem V_main_arg7 (c : Dev nD) : V m c main_arg7 = m ((c : Thread nD τ).loc main_arg7) := V_arg m c _ (by decide)
theorem V_main_arg8 (c : Dev nD) : V m c main_arg8 = m ((c : Thread nD τ).loc main_arg8) := V_arg m c _ (by decide)
theorem V_main_arg9 (c : Dev nD) : V m c main_arg9 = m ((c : Thread nD τ).loc main_arg9) := V_arg m c _ (by decide)
theorem V_main_arg10 (c : Dev nD) : V m c main_arg10 = m ((c : Thread nD τ).loc main_arg10) := V_arg m c _ (by decide)
theorem V_main_arg11 (c : Dev nD) : V m c main_arg11 = m ((c : Thread nD τ).loc main_arg11) := V_arg m c _ (by decide)
theorem V_main_arg12 (c : Dev nD) : V m c main_arg12 = m ((c : Thread nD τ).loc main_arg12) := V_arg m c _ (by decide)

/-- The same for the operations after the grid; none of these eight arguments is an array of the grid, and each is one of the thirteen. -/
theorem post_keeps : ∀ b ∈ ([main_arg1, main_arg2, main_arg3, main_arg4, main_arg9, main_arg10, main_arg11, main_arg12] : List (Ref sig .tc)),
    (∀ op ∈ List.flatten ([hostOps1] : List (List (HloOp τ sig (Elt F)))), Proc.devRef .tc b ∉ op.writes) ∧ (∀ w, Pipeline.arrRef spec0 w ≠ b) ∧ b ∈ ([main_arg0, main_arg1, main_arg2, main_arg3, main_arg4, main_arg5, main_arg6, main_arg7, main_arg8, main_arg9, main_arg10, main_arg11, main_arg12] : List (Ref sig .tc)) := by
  intro b hb
  refine ⟨List.forall_iff_forall_mem.mp ?_, ?_, ?_⟩
  · simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    simp only [List.mem_cons, List.mem_nil_iff, _root_.or_false] at hb
    rcases hb with rfl | rfl | rfl | rfl | rfl | rfl | rfl | rfl
    all_goals
      repeat' apply And.intro
      all_goals exact StableHlo.devRef_ne_of_ne (by decide)
  all_goals
    simp only [List.mem_cons, List.mem_nil_iff, _root_.or_false] at hb
    rcases hb with rfl | rfl | rfl | rfl | rfl | rfl | rfl | rfl
    all_goals decide

/-- So each of them ends as launched. -/
theorem W_arg (dats : (p : Fin _) → (c : Dev nD) → Dat τ (Elt F) Unit ℕ (UR sig nD τ) ℕ (cfgs p) c) (c : Dev nD) (b : Ref sig .tc) (hb : b ∈ ([main_arg1, main_arg2, main_arg3, main_arg4, main_arg9, main_arg10, main_arg11, main_arg12] : List (Ref sig .tc))) :
    Pipeline.afterTail₀ cfgs dats 0 (V0 m) [hostOps1] c b = m ((c : Thread nD τ).loc b) := by
  obtain ⟨h1, h2, h3⟩ := post_keeps (F := F) b hb
  unfold Pipeline.afterTail₀
  exact (StableHlo.after_of_forall_not_mem _ _ h1).trans ((Pipeline.withArrays_of_ne _ c (V0 m c) _ b h2).trans (V_arg m c b h3))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := W_arg m dats c _ (by decide)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := W_arg m dats c _ (by decide)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := W_arg m dats c _ (by decide)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := W_arg m dats c _ (by decide)
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := W_arg m dats c _ (by decide)
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := W_arg m dats c _ (by decide)
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := W_arg m dats c _ (by decide)
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := W_arg m dats c _ (by decide)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Every argument array holds what it was launched with. -/
abbrev Kept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)

/-- The frame's post gives it: an array the grid reads is returned unchanged, the others are written by no operation. -/
theorem kept_of_post (dats : (p : Fin 1) → (c : Dev nD) → Dat τ (Elt F) Unit ℕ (UR sig nD τ) ℕ (cfgs p) c)
    (hA : ∀ c w, (dats 0 c).A w = V m c (Pipeline.arrRef spec0 w)) {r}
    (h : Pipeline.FramePost cfgs dats 0 (Pipeline.afterTail₀ cfgs dats 0 (V0 m) [hostOps1]) r) (c : Dev nD) : Kept m r.2.mem c :=
  ⟨((h c).1 1).trans (((dats 0 c).arrAt_in 1 rfl _).trans ((hA c 1).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).1 2).trans (((dats 0 c).arrAt_in 2 rfl _).trans ((hA c 2).trans (V_main_arg5 m c))),
    ((h c).1 4).trans (((dats 0 c).arrAt_in 4 rfl _).trans ((hA c 4).trans (V_main_arg6 m c))),
    ((h c).1 3).trans (((dats 0 c).arrAt_in 3 rfl _).trans ((hA c 3).trans (V_main_arg7 m c))),
    ((h c).1 5).trans (((dats 0 c).arrAt_in 5 rfl _).trans ((hA c 5).trans (V_main_arg8 m c))),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c)⟩

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD, Kept m r.2.mem c) :=
  (θ_run defs _ _).mono (fun _ h c => kept_of_post m dats hA h c) h

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

abbrev VO0_6 : View sig .tc .vmem S100x60 .f32 := (Memref.whole cc0_stg6_0 : Memref sig .tc .vmem S100x60 .f32).view
abbrev VO0_7 : View sig .tc .vmem S100x60 .f32 := (Memref.whole cc0_stg7_0 : Memref sig .tc .vmem S100x60 .f32).view
abbrev ms0_0 (t : Fin cfg0.N) : Memref sig .tc .vmem S100x100 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x100x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x4096x60 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x4096x60 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S60 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S60 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S100x60 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S100x60 .f32 := win0_7.stage (cfg0.slots t 7)
abbrev hs0_7 (t : Fin cfg0.N) : (ms0_7 t).IsWhole := hstage0_7 ((cfg0.slots t 7).cast nbuf0_7)

abbrev scM0_0 : Memref sig .tc .vmem S100x60 .f32 := Memref.whole cc0_scratch0
abbrev scM0_1 : Memref sig .tc .vmem S100x60 .f32 := Memref.whole cc0_scratch1
abbrev VS0_0 : View sig .tc .vmem S100x60 .f32 := scM0_0.view
abbrev VS0_1 : View sig .tc .vmem S100x60 .f32 := scM0_1.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Fr

end
-- ==== Proof.FrameKI.RunA.lean ====
import proofs.«171431_j27848567947758_1_alg».proof.Proof.FrameKI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_A (c : Dev nD) (i : grid0.Coords) (arg1 : Memref sig .tc .vmem S100x100 .f32) (harg1 : arg1.IsWhole) (arg2 : Memref sig .tc .vmem S1x100x4096 .f32) (harg2 : arg2.IsWhole) (arg3 : Memref sig .tc .vmem S3x4096x60 .f32) (harg3 : arg3.IsWhole) (arg4 : Memref sig .tc .vmem S3x4096x60 .f32) (harg4 : arg4.IsWhole) (arg5 : Memref sig .tc .vmem S60 .f32) (harg5 : arg5.IsWhole) (arg6 : Memref sig .tc .vmem S60 .f32) (harg6 : arg6.IsWhole) (arg7 : Memref sig .tc .vmem S100x60 .f32) (harg7 : arg7.IsWhole) (arg8 : Memref sig .tc .vmem S100x60 .f32) (harg8 : arg8.IsWhole) (arg9 : Memref sig .tc .vmem S100x60 .f32) (harg9 : arg9.IsWhole) (arg10 : Memref sig .tc .vmem S100x60 .f32) (harg10 : arg10.IsWhole) (hc0 : cond0_0 i) (hc1 : ¬cond0_1 i)
    (x0 : Vec F S100x100 .f32) (x1 : Vec F S1x100x4096 .f32) (x2 : Vec F S3x4096x60 .f32) (x3 : Vec F S3x4096x60 .f32) (x4 : Vec F S60 .f32) (x5 : Vec F S60 .f32) :
    Σ' (L6 : List (View.Piece (Elt F) S100x60 .f32)) (L7 : List (View.Piece (Elt F) S100x60 .f32)) (LS0 : List (View.Piece (Elt F) S100x60 .f32)), { LS1 : List (View.Piece (Elt F) S100x60 .f32) //
      ∀ (xi6 : Vec F S100x60 .f32) (xi7 : Vec F S100x60 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__cheb_kernel i arg1 harg1 arg2 harg2 arg3 harg3 arg4 harg4 arg5 harg5 arg6 harg6 arg7 harg7 arg8 harg8 arg9 harg9 arg10 harg10) K } := by
  refine ⟨[], [], ?_, ?_, fun xi6 xi7 E K => ?run⟩
  case run =>
    simp only [cc0__cheb_kernel_eq_skeleton]; unfold cc0__cheb_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Fr

end
-- ==== Proof.FrameKI.RunB.lean ====
import proofs.«171431_j27848567947758_1_alg».proof.Proof.FrameKI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_B (c : Dev nD) (i : grid0.Coords) (arg1 : Memref sig .tc .vmem S100x100 .f32) (harg1 : arg1.IsWhole) (arg2 : Memref sig .tc .vmem S1x100x4096 .f32) (harg2 : arg2.IsWhole) (arg3 : Memref sig .tc .vmem S3x4096x60 .f32) (harg3 : arg3.IsWhole) (arg4 : Memref sig .tc .vmem S3x4096x60 .f32) (harg4 : arg4.IsWhole) (arg5 : Memref sig .tc .vmem S60 .f32) (harg5 : arg5.IsWhole) (arg6 : Memref sig .tc .vmem S60 .f32) (harg6 : arg6.IsWhole) (arg7 : Memref sig .tc .vmem S100x60 .f32) (harg7 : arg7.IsWhole) (arg8 : Memref sig .tc .vmem S100x60 .f32) (harg8 : arg8.IsWhole) (arg9 : Memref sig .tc .vmem S100x60 .f32) (harg9 : arg9.IsWhole) (arg10 : Memref sig .tc .vmem S100x60 .f32) (harg10 : arg10.IsWhole) (hc0 : ¬cond0_0 i) (hc1 : ¬cond0_1 i)
    (x0 : Vec F S100x100 .f32) (x1 : Vec F S1x100x4096 .f32) (x2 : Vec F S3x4096x60 .f32) (x3 : Vec F S3x4096x60 .f32) (x4 : Vec F S60 .f32) (x5 : Vec F S60 .f32) (xs0 : Vec F S100x60 .f32) (xs1 : Vec F S100x60 .f32) :
    Σ' (L6 : List (View.Piece (Elt F) S100x60 .f32)) (L7 : List (View.Piece (Elt F) S100x60 .f32)) (LS0 : List (View.Piece (Elt F) S100x60 .f32)), { LS1 : List (View.Piece (Elt F) S100x60 .f32) //
      ∀ (xi6 : Vec F S100x60 .f32) (xi7 : Vec F S100x60 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__cheb_kernel i arg1 harg1 arg2 harg2 arg3 harg3 arg4 harg4 arg5 harg5 arg6 harg6 arg7 harg7 arg8 harg8 arg9 harg9 arg10 harg10) K } := by
  refine ⟨[], [], ?_, ?_, fun xi6 xi7 E K => ?run⟩
  case run =>
    simp only [cc0__cheb_kernel_eq_skeleton]; unfold cc0__cheb_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Fr

end
-- ==== Proof.FrameKI.RunC.lean ====
import proofs.«171431_j27848567947758_1_alg».proof.Proof.FrameKI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_C (c : Dev nD) (i : grid0.Coords) (arg1 : Memref sig .tc .vmem S100x100 .f32) (harg1 : arg1.IsWhole) (arg2 : Memref sig .tc .vmem S1x100x4096 .f32) (harg2 : arg2.IsWhole) (arg3 : Memref sig .tc .vmem S3x4096x60 .f32) (harg3 : arg3.IsWhole) (arg4 : Memref sig .tc .vmem S3x4096x60 .f32) (harg4 : arg4.IsWhole) (arg5 : Memref sig .tc .vmem S60 .f32) (harg5 : arg5.IsWhole) (arg6 : Memref sig .tc .vmem S60 .f32) (harg6 : arg6.IsWhole) (arg7 : Memref sig .tc .vmem S100x60 .f32) (harg7 : arg7.IsWhole) (arg8 : Memref sig .tc .vmem S100x60 .f32) (harg8 : arg8.IsWhole) (arg9 : Memref sig .tc .vmem S100x60 .f32) (harg9 : arg9.IsWhole) (arg10 : Memref sig .tc .vmem S100x60 .f32) (harg10 : arg10.IsWhole) (hc0 : ¬cond0_0 i) (hc1 : cond0_1 i)
    (x0 : Vec F S100x100 .f32) (x1 : Vec F S1x100x4096 .f32) (x2 : Vec F S3x4096x60 .f32) (x3 : Vec F S3x4096x60 .f32) (x4 : Vec F S60 .f32) (x5 : Vec F S60 .f32) (xs0 : Vec F S100x60 .f32) (xs1 : Vec F S100x60 .f32) :
    Σ' (L6 : List (View.Piece (Elt F) S100x60 .f32)) (L7 : List (View.Piece (Elt F) S100x60 .f32)) (LS0 : List (View.Piece (Elt F) S100x60 .f32)), { LS1 : List (View.Piece (Elt F) S100x60 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__cheb_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__cheb_kernel_eq_skeleton]; unfold cc0__cheb_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]; · iexists _; iexact HS0
    iexists _; iexact HS1

end Cert.KernelIdeal.Fr

end
-- ==== Proof.FrameKI.Frame.lean ====
import proofs.«171431_j27848567947758_1_alg».proof.Proof.FrameKI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg1 : Memref sig .tc .vmem S100x100 .f32) (harg1 : arg1.IsWhole) (arg2 : Memref sig .tc .vmem S1x100x4096 .f32) (harg2 : arg2.IsWhole) (arg3 : Memref sig .tc .vmem S3x4096x60 .f32) (harg3 : arg3.IsWhole) (arg4 : Memref sig .tc .vmem S3x4096x60 .f32) (harg4 : arg4.IsWhole) (arg5 : Memref sig .tc .vmem S60 .f32) (harg5 : arg5.IsWhole) (arg6 : Memref sig .tc .vmem S60 .f32) (harg6 : arg6.IsWhole) (arg7 : Memref sig .tc .vmem S100x60 .f32) (harg7 : arg7.IsWhole) (arg8 : Memref sig .tc .vmem S100x60 .f32) (harg8 : arg8.IsWhole) (arg9 : Memref sig .tc .vmem S100x60 .f32) (harg9 : arg9.IsWhole) (arg10 : Memref sig .tc .vmem S100x60 .f32) (harg10 : arg10.IsWhole)

section
variable (hc0 : cond0_0 i) (hc1 : ¬cond0_1 i) (x0 : Vec F S100x100 .f32) (x1 : Vec F S1x100x4096 .f32) (x2 : Vec F S3x4096x60 .f32) (x3 : Vec F S3x4096x60 .f32) (x4 : Vec F S60 .f32) (x5 : Vec F S60 .f32) (y : S100x60.Idx)
def out0_A_6 : Vec F S100x60 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 hc1 x0 x1 x2 x3 x4 x5).1)
def out0_A_7 : Vec F S100x60 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 hc1 x0 x1 x2 x3 x4 x5).2.1)
theorem scover0_A_0 :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4 x5).2.2.1 S100x60.size (by sl_kernel_rfl) y
def sout0_A_0 : Vec F S100x60 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4 x5).2.2.1)
theorem scover0_A_1 :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4 x5).2.2.2.1 S100x60.size (by sl_kernel_rfl) y
def sout0_A_1 : Vec F S100x60 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4 x5).2.2.2.1)
end

section
variable (hc0 : ¬cond0_0 i) (hc1 : ¬cond0_1 i) (x0 : Vec F S100x100 .f32) (x1 : Vec F S1x100x4096 .f32) (x2 : Vec F S3x4096x60 .f32) (x3 : Vec F S3x4096x60 .f32) (x4 : Vec F S60 .f32) (x5 : Vec F S60 .f32) (xs0 : Vec F S100x60 .f32) (xs1 : Vec F S100x60 .f32) (y : S100x60.Idx)
def out0_B_6 : Vec F S100x60 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).1)
def out0_B_7 : Vec F S100x60 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.1)
theorem scover0_B_0 :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.1 S100x60.size (by sl_kernel_rfl) y
def sout0_B_0 : Vec F S100x60 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.1)
theorem scover0_B_1 :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1 S100x60.size (by sl_kernel_rfl) y
def sout0_B_1 : Vec F S100x60 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1)
end

section
variable (hc0 : ¬cond0_0 i) (hc1 : cond0_1 i) (x0 : Vec F S100x100 .f32) (x1 : Vec F S1x100x4096 .f32) (x2 : Vec F S3x4096x60 .f32) (x3 : Vec F S3x4096x60 .f32) (x4 : Vec F S60 .f32) (x5 : Vec F S60 .f32) (xs0 : Vec F S100x60 .f32) (xs1 : Vec F S100x60 .f32) (y : S100x60.Idx)
theorem cover0_C_6 :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).1 S100x60.size (by sl_kernel_rfl) y
def out0_C_6 : Vec F S100x60 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).1)
theorem cover0_C_7 :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.1 S100x60.size (by sl_kernel_rfl) y
def out0_C_7 : Vec F S100x60 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.1)
theorem scover0_C_0 :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.1 S100x60.size (by sl_kernel_rfl) y
def sout0_C_0 : Vec F S100x60 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.1)
theorem scover0_C_1 :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1 S100x60.size (by sl_kernel_rfl) y
def sout0_C_1 : Vec F S100x60 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1)
end
end

/-- What the first grid point leaves in the two outputs and the two accumulators. -/
def outs_A (c : Dev nD) (t : Fin cfg0.N) (h0 : t.val % 16 = 0) (h1 : ¬t.val % 16 = 15) : Vec F S100x60 .f32 × Vec F S100x60 .f32 × Vec F S100x60 .f32 × Vec F S100x60 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t))

/-- What a middle grid point leaves, from the accumulators `xs0`, `xs1` of the point before. -/
def outs_B (c : Dev nD) (t : Fin cfg0.N) (h0 : ¬t.val % 16 = 0) (h1 : ¬t.val % 16 = 15) (xs0 xs1 : Vec F S100x60 .f32) : Vec F S100x60 .f32 × Vec F S100x60 .f32 × Vec F S100x60 .f32 × Vec F S100x60 .f32 :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) xs0 xs1,
      out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) xs0 xs1,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) xs0 xs1,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) xs0 xs1)

/-- What the last grid point leaves, from the accumulators of the point before. -/
def outs_C (c : Dev nD) (t : Fin cfg0.N) (h0 : ¬t.val % 16 = 0) (h1 : t.val % 16 = 15) (xs0 xs1 : Vec F S100x60 .f32) : Vec F S100x60 .f32 × Vec F S100x60 .f32 × Vec F S100x60 .f32 × Vec F S100x60 .f32 :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1,
      out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1)

/-- The contents after point `n`: the case the point is in, over what the point before left. -/
def outsAt0 (c : Dev nD) : (n : ℕ) → n < cfg0.N → Vec F S100x60 .f32 × Vec F S100x60 .f32 × Vec F S100x60 .f32 × Vec F S100x60 .f32
  | 0, hn => outs_A m c ⟨0, hn⟩ (Nat.zero_mod _) (fun h => by (try dsimp only at h); omega)
  | n + 1, hn =>
    if h0 : (n + 1) % 16 = 0 then
      if h1 : (n + 1) % 16 = 15 then
        False.elim (by have hN : n + 1 < 16 := lt_of_lt_of_eq hn (show cfg0.N = 16 from N_0); omega)
      else outs_A m c ⟨n + 1, hn⟩ h0 h1
    else
      if h1 : (n + 1) % 16 = 15 then outs_C m c ⟨n + 1, hn⟩ h0 h1 (outsAt0 c n (Nat.lt_of_succ_lt hn)).2.2.1 (outsAt0 c n (Nat.lt_of_succ_lt hn)).2.2.2
      else outs_B m c ⟨n + 1, hn⟩ h0 h1 (outsAt0 c n (Nat.lt_of_succ_lt hn)).2.2.1 (outsAt0 c n (Nat.lt_of_succ_lt hn)).2.2.2

theorem outsAt0_A (c : Dev nD) (t : Fin cfg0.N) (h0 : t.val % 16 = 0) (h1 : ¬t.val % 16 = 15) :
    outsAt0 m c t.val t.isLt = outs_A m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = outs_B m c t h0 h1 (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = outs_C m c t h0 h1 (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨_ + 8, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN : t.val < 16 := lt_of_lt_of_eq t.isLt (show cfg0.N = 16 from N_0)
  by_cases h0 : t.val % 16 = 0
  · by_cases h1 : t.val % 16 = 15
    · exfalso; omega
    ·
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [outsAt0_A m c t h0 h1]
      unfold outs_A sout0_A_0 sout0_A_1; (try dsimp only)
      have hz : t.val = 0 := by omega
      rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · by_cases h1 : t.val % 16 = 15
    ·
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [outsAt0_C m c t h0 h1]
      unfold outs_C out0_C_6 out0_C_7 sout0_C_0 sout0_C_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _ _)
    ·
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B m c t h0 h1]
      unfold outs_B sout0_B_0 sout0_B_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD, Kept m r.2.mem c) :=
  frame_of m ρ (dats m) (A_eq m) (run_main m ρ)

end Cert.KernelIdeal.Fr

end
-- ==== Proof.KPay.lean ====
import proofs.«171431_j27848567947758_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen Idealize.ShloMosaic Idealize.ShloMosaic.ValueIdx

variable {F : FTy → Type} [FloatOps F]

theorem lhsA_0 (i : S100x4096.Idx) (q : dot_S100x100_S100x4096_S100x4096_1_0_0_1_n_n.contr.Idx) :
    (dot_S100x100_S100x4096_S100x4096_1_0_0_1_n_n.lhsIdx i q 0).val = (i 0).val := by
  unfold DotDims.lhsIdx
  rw [dif_neg (show ¬(0 : Fin S100x100.rank) ∈ dot_S100x100_S100x4096_S100x4096_1_0_0_1_n_n.lhsBatch by decide), dif_pos (show (0 : Fin S100x100.rank) ∈ dot_S100x100_S100x4096_S100x4096_1_0_0_1_n_n.lhsNonContracting by decide)]
  rfl

theorem lhsA_1 (i : S100x4096.Idx) (q : dot_S100x100_S100x4096_S100x4096_1_0_0_1_n_n.contr.Idx) :
    (dot_S100x100_S100x4096_S100x4096_1_0_0_1_n_n.lhsIdx i q 1).val = (q ⟨0, by decide⟩).val :=
  dot_S100x100_S100x4096_S100x4096_1_0_0_1_n_n.lhsIdx_val_of_single rfl i q

theorem rhsA_0 (i : S100x4096.Idx) (q : dot_S100x100_S100x4096_S100x4096_1_0_0_1_n_n.contr.Idx) :
    (dot_S100x100_S100x4096_S100x4096_1_0_0_1_n_n.rhsIdx i q 0).val = (q ⟨0, by decide⟩).val :=
  dot_S100x100_S100x4096_S100x4096_1_0_0_1_n_n.rhsIdx_val_of_single rfl i q

theorem rhsA_1 (i : S100x4096.Idx) (q : dot_S100x100_S100x4096_S100x4096_1_0_0_1_n_n.contr.Idx) :
    (dot_S100x100_S100x4096_S100x4096_1_0_0_1_n_n.rhsIdx i q 1).val = (i 1).val := by
  unfold DotDims.rhsIdx
  rw [dif_neg (show ¬(1 : Fin S100x4096.rank) ∈ dot_S100x100_S100x4096_S100x4096_1_0_0_1_n_n.rhsBatch by decide), dif_pos (show (1 : Fin S100x4096.rank) ∈ dot_S100x100_S100x4096_S100x4096_1_0_0_1_n_n.rhsNonContracting by decide)]
  rfl

theorem matmulA_apply {φ₁ φ₂ : FTy} (l : FVec Ideal S100x100 φ₁) (r : FVec Ideal S100x4096 φ₂) (d : Fin 100) (j : Fin 4096) :
    matmul (F := Ideal) dot_S100x100_S100x4096_S100x4096_1_0_0_1_n_n none l r (constant (F := Ideal) S100x4096 .f32 0x00000000#32) (ix2 d j)
      = ∑ s : Fin 100, l (ix2 d s) * r (ix2 s j) := by
  simp only [matmul]
  rw [Ideal.matmul_constant_zero_apply, ← Equiv.sum_comp (ValueIdx.contrEquiv1 dot_S100x100_S100x4096_S100x4096_1_0_0_1_n_n 100 rfl rfl).symm]
  refine Finset.sum_congr rfl fun k _ => ?_
  have hk := ValueIdx.contrEquiv1_symm_val dot_S100x100_S100x4096_S100x4096_1_0_0_1_n_n 100 rfl rfl k
  have el : dot_S100x100_S100x4096_S100x4096_1_0_0_1_n_n.lhsIdx (ix2 d j) ((ValueIdx.contrEquiv1 dot_S100x100_S100x4096_S100x4096_1_0_0_1_n_n 100 rfl rfl).symm k) = ix2 d k := funext fun a => Fin.ext (by
    match a with
    | ⟨0, _⟩ => exact lhsA_0 _ _
    | ⟨1, _⟩ => exact (lhsA_1 _ _).trans hk)
  have er : dot_S100x100_S100x4096_S100x4096_1_0_0_1_n_n.rhsIdx (ix2 d j) ((ValueIdx.contrEquiv1 dot_S100x100_S100x4096_S100x4096_1_0_0_1_n_n 100 rfl rfl).symm k) = ix2 k j := funext fun a => Fin.ext (by
    match a with
    | ⟨0, _⟩ => exact (rhsA_0 _ _).trans hk
    | ⟨1, _⟩ => exact rhsA_1 _ _)
  rw [el, er]

theorem lhsB_0 (i : S100x60.Idx) (q : dot_S100x4096_S4096x60_S100x60_1_0_0_1_n_n.contr.Idx) :
    (dot_S100x4096_S4096x60_S100x60_1_0_0_1_n_n.lhsIdx i q 0).val = (i 0).val := by
  unfold DotDims.lhsIdx
  rw [dif_neg (show ¬(0 : Fin S100x4096.rank) ∈ dot_S100x4096_S4096x60_S100x60_1_0_0_1_n_n.lhsBatch by decide), dif_pos (show (0 : Fin S100x4096.rank) ∈ dot_S100x4096_S4096x60_S100x60_1_0_0_1_n_n.lhsNonContracting by decide)]
  rfl

theorem lhsB_1 (i : S100x60.Idx) (q : dot_S100x4096_S4096x60_S100x60_1_0_0_1_n_n.contr.Idx) :
    (dot_S100x4096_S4096x60_S100x60_1_0_0_1_n_n.lhsIdx i q 1).val = (q ⟨0, by decide⟩).val :=
  dot_S100x4096_S4096x60_S100x60_1_0_0_1_n_n.lhsIdx_val_of_single rfl i q

theorem rhsB_0 (i : S100x60.Idx) (q : dot_S100x4096_S4096x60_S100x60_1_0_0_1_n_n.contr.Idx) :
    (dot_S100x4096_S4096x60_S100x60_1_0_0_1_n_n.rhsIdx i q 0).val = (q ⟨0, by decide⟩).val :=
  dot_S100x4096_S4096x60_S100x60_1_0_0_1_n_n.rhsIdx_val_of_single rfl i q

theorem rhsB_1 (i : S100x60.Idx) (q : dot_S100x4096_S4096x60_S100x60_1_0_0_1_n_n.contr.Idx) :
    (dot_S100x4096_S4096x60_S100x60_1_0_0_1_n_n.rhsIdx i q 1).val = (i 1).val := by
  unfold DotDims.rhsIdx
  rw [dif_neg (show ¬(1 : Fin S4096x60.rank) ∈ dot_S100x4096_S4096x60_S100x60_1_0_0_1_n_n.rhsBatch by decide), dif_pos (show (1 : Fin S4096x60.rank) ∈ dot_S100x4096_S4096x60_S100x60_1_0_0_1_n_n.rhsNonContracting by decide)]
  rfl

theorem matmulB_apply {φ₁ φ₂ : FTy} (l : FVec Ideal S100x4096 φ₁) (r : FVec Ideal S4096x60 φ₂) (d : Fin 100) (c : Fin 60) :
    matmul (F := Ideal) dot_S100x4096_S4096x60_S100x60_1_0_0_1_n_n none l r (constant (F := Ideal) S100x60 .f32 0x00000000#32) (ix2 d c)
      = ∑ j : Fin 4096, l (ix2 d j) * r (ix2 j c) := by
  simp only [matmul]
  rw [Ideal.matmul_constant_zero_apply, ← Equiv.sum_comp (ValueIdx.contrEquiv1 dot_S100x4096_S4096x60_S100x60_1_0_0_1_n_n 4096 rfl rfl).symm]
  refine Finset.sum_congr rfl fun k _ => ?_
  have hk := ValueIdx.contrEquiv1_symm_val dot_S100x4096_S4096x60_S100x60_1_0_0_1_n_n 4096 rfl rfl k
  have el : dot_S100x4096_S4096x60_S100x60_1_0_0_1_n_n.lhsIdx (ix2 d c) ((ValueIdx.contrEquiv1 dot_S100x4096_S4096x60_S100x60_1_0_0_1_n_n 4096 rfl rfl).symm k) = ix2 d k := funext fun a => Fin.ext (by
    match a with
    | ⟨0, _⟩ => exact lhsB_0 _ _
    | ⟨1, _⟩ => exact (lhsB_1 _ _).trans hk)
  have er : dot_S100x4096_S4096x60_S100x60_1_0_0_1_n_n.rhsIdx (ix2 d c) ((ValueIdx.contrEquiv1 dot_S100x4096_S4096x60_S100x60_1_0_0_1_n_n 4096 rfl rfl).symm k) = ix2 k c := funext fun a => Fin.ext (by
    match a with
    | ⟨0, _⟩ => exact (rhsB_0 _ _).trans hk
    | ⟨1, _⟩ => exact rhsB_1 _ _)
  rw [el, er]

theorem sliceCast_apply {α : Type} (k : Fin 3) (off : Fin S3x4096x60.rank → Nat) (hoff : off = ![k.val, 0, 0])
    (w : S3x4096x60.Idx → α) (h : S3x4096x60.Slices off S1x4096x60)
    (h' : S1x4096x60.ShapeCasts S4096x60) (j : Fin 4096) (c : Fin 60) :
    shapeCast S4096x60 (extractStridedSlice S1x4096x60 off w h) h' (ix2 j c) = w (ix3 k j c) := by
  subst hoff
  refine (shapeCast_1ab_ab_apply _ h' j c).trans ?_
  exact extractStridedSlice_apply _ w h _ (ix3 k j c) (fun a => match a with
    | ⟨0, _⟩ => by show k.val = k.val + 0; omega
    | ⟨1, _⟩ => by show j.val = 0 + j.val; omega
    | ⟨2, _⟩ => by show c.val = 0 + c.val; omega)

theorem biasBroadcast_apply {α : Type} (b : S60.Idx → α) (h : S60.ShapeCasts S1x60) (h' : S1x60.Broadcasts S100x60)
    (d : Fin 100) (c : Fin 60) :
    broadcastTo S100x60 (shapeCast S1x60 b h) h' (ix2 d c) = b (ix1 c) := by
  refine (broadcastTo_apply _ h' (ix2 d c) (ix2 (0 : Fin 1) c) (fun a => match a with
    | ⟨0, _⟩ => by show (0 : Nat) = if (1 : Nat) = 1 then 0 else _; rw [if_pos rfl]
    | ⟨1, _⟩ => by show c.val = if (60 : Nat) = 1 then 0 else c.val; rw [if_neg (by omega)])).trans ?_
  exact shapeCast_a_1a_apply b h (0 : Fin 1) c

theorem trunc16_apply {s : Shape} (a : FVec Ideal s .f32) (h : FTy.bits .bf16 < FTy.bits .f32) (i : s.Idx) :
    (truncf (F := Ideal) .bf16 a h) i = a i := rfl

section AtIdeal
variable (x0 : Vec Ideal S100x100 .f32) (x1 : Vec Ideal S1x100x4096 .f32)

theorem pay7_apply (d s : Fin 100) : k0_pay7 (F := Ideal) x0 (ix2 d s) = x0 (ix2 d s) := by
  unfold k0_pay7
  rw [shapeCast_self]
  rfl

theorem pay8_apply (d : Fin 100) (j : Fin 4096) : k0_pay8 (F := Ideal) x1 (ix2 d j) = x1 (ix3 (0 : Fin 1) d j) := by
  unfold k0_pay8
  exact shapeCast_1ab_ab_apply x1 _ d j

theorem pay9_apply (d : Fin 100) (j : Fin 4096) : k0_pay9 (F := Ideal) x1 (ix2 d j) = x1 (ix3 (0 : Fin 1) d j) := by
  unfold k0_pay9
  exact (trunc16_apply _ _ _).trans (pay8_apply x1 d j)

end AtIdeal

def stepA (x0 : Vec F S100x100 .f32) (x1 : Vec F S1x100x4096 .f32) (x2 : Vec F S3x4096x60 .f32) (acc : Vec F S100x60 .f32) : FVec F S100x60 .f32 :=
  k0_pay1 (k0_pay11 x0 x1) (k0_pay12 x2) (k0_pay16 x0 x1 x2) (constant S100x60 .f32 0x00000000#32) acc

def stepC (x0 : Vec F S100x100 .f32) (x1 : Vec F S1x100x4096 .f32) (x3 : Vec F S3x4096x60 .f32) (acc : Vec F S100x60 .f32) : FVec F S100x60 .f32 :=
  k0_pay2 (k0_pay9 x1) (k0_pay10 x0 x1) (k0_pay11 x0 x1) (k0_pay13 x3) (k0_pay14 x3) (k0_pay15 x3) acc

def two : EReal := Ideal.ofBits .f32 0x40000000#32

def tT1 (x0 : Vec Ideal S100x100 .f32) (x1 : Vec Ideal S1x100x4096 .f32) (d : Fin 100) (j : Fin 4096) : EReal := ∑ s : Fin 100, x0 (ix2 d s) * x1 (ix3 (0 : Fin 1) s j)

def tT2 (x0 : Vec Ideal S100x100 .f32) (x1 : Vec Ideal S1x100x4096 .f32) (d : Fin 100) (j : Fin 4096) : EReal := two * (∑ s : Fin 100, x0 (ix2 d s) * tT1 x0 x1 s j) - x1 (ix3 (0 : Fin 1) d j)

def tPart (x0 : Vec Ideal S100x100 .f32) (x1 : Vec Ideal S1x100x4096 .f32) (w : Vec Ideal S3x4096x60 .f32) (d : Fin 100) (c : Fin 60) : EReal :=
  ((∑ j : Fin 4096, x1 (ix3 (0 : Fin 1) d j) * w (ix3 (0 : Fin 3) j c)) + (∑ j : Fin 4096, tT1 x0 x1 d j * w (ix3 (1 : Fin 3) j c))) + (∑ j : Fin 4096, tT2 x0 x1 d j * w (ix3 (2 : Fin 3) j c))

section AtIdeal2
variable (x0 : Vec Ideal S100x100 .f32) (x1 : Vec Ideal S1x100x4096 .f32)

theorem pay10_apply (d : Fin 100) (j : Fin 4096) : k0_pay10 (F := Ideal) x0 x1 (ix2 d j) = tT1 x0 x1 d j := by
  unfold k0_pay10 tT1
  refine (trunc16_apply _ _ _).trans ?_
  rw [matmulA_apply]
  exact Finset.sum_congr rfl fun s _ => by rw [pay7_apply, pay9_apply]

theorem pay11_apply (d : Fin 100) (j : Fin 4096) : k0_pay11 (F := Ideal) x0 x1 (ix2 d j) = tT2 x0 x1 d j := by
  unfold k0_pay11 tT2
  refine (trunc16_apply _ _ _).trans ?_
  rw [subf_apply, mulf_apply, broadcast_apply, matmulA_apply, pay8_apply]
  have hs : (∑ s : Fin 100, k0_pay7 (F := Ideal) x0 (ix2 d s) * k0_pay10 (F := Ideal) x0 x1 (ix2 s j))
      = ∑ s : Fin 100, x0 (ix2 d s) * tT1 x0 x1 s j :=
    Finset.sum_congr rfl fun s _ => by rw [pay7_apply, pay10_apply]
  rw [hs]
  rfl

theorem pay12_apply (w : Vec Ideal S3x4096x60 .f32) (j : Fin 4096) (c : Fin 60) :
    k0_pay12 (F := Ideal) w (ix2 j c) = w (ix3 (2 : Fin 3) j c) := by
  unfold k0_pay12
  exact (trunc16_apply _ _ _).trans (sliceCast_apply (2 : Fin 3) _ rfl w _ _ j c)
theorem pay13_apply (w : Vec Ideal S3x4096x60 .f32) (j : Fin 4096) (c : Fin 60) :
    k0_pay13 (F := Ideal) w (ix2 j c) = w (ix3 (0 : Fin 3) j c) := by
  unfold k0_pay13
  exact (trunc16_apply _ _ _).trans (sliceCast_apply (0 : Fin 3) _ rfl w _ _ j c)
theorem pay14_apply (w : Vec Ideal S3x4096x60 .f32) (j : Fin 4096) (c : Fin 60) :
    k0_pay14 (F := Ideal) w (ix2 j c) = w (ix3 (1 : Fin 3) j c) := by
  unfold k0_pay14
  exact (trunc16_apply _ _ _).trans (sliceCast_apply (1 : Fin 3) _ rfl w _ _ j c)
theorem pay15_apply (w : Vec Ideal S3x4096x60 .f32) (j : Fin 4096) (c : Fin 60) :
    k0_pay15 (F := Ideal) w (ix2 j c) = w (ix3 (2 : Fin 3) j c) := by
  unfold k0_pay15
  exact (trunc16_apply _ _ _).trans (sliceCast_apply (2 : Fin 3) _ rfl w _ _ j c)

theorem pay16_apply (w : Vec Ideal S3x4096x60 .f32) (d : Fin 100) (c : Fin 60) :
    k0_pay16 (F := Ideal) x0 x1 w (ix2 d c)
      = (∑ j : Fin 4096, x1 (ix3 (0 : Fin 1) d j) * w (ix3 (0 : Fin 3) j c)) + (∑ j : Fin 4096, tT1 x0 x1 d j * w (ix3 (1 : Fin 3) j c)) := by
  unfold k0_pay16
  rw [addf_apply, matmulB_apply, matmulB_apply]
  congr 1
  · exact Finset.sum_congr rfl fun j _ => by
      rw [pay9_apply]
      exact congrArg (x1 (ix3 (0 : Fin 1) d j) * ·) ((trunc16_apply _ _ _).trans (sliceCast_apply (0 : Fin 3) _ rfl w _ _ j c))
  · exact Finset.sum_congr rfl fun j _ => by
      rw [pay10_apply]
      exact congrArg (tT1 x0 x1 d j * ·) ((trunc16_apply _ _ _).trans (sliceCast_apply (1 : Fin 3) _ rfl w _ _ j c))

end AtIdeal2

theorem stepA_apply (x0 : Vec Ideal S100x100 .f32) (x1 : Vec Ideal S1x100x4096 .f32) (x2 : Vec Ideal S3x4096x60 .f32) (acc : Vec Ideal S100x60 .f32) (d : Fin 100) (c : Fin 60) :
    stepA (F := Ideal) x0 x1 x2 acc (ix2 d c) = acc (ix2 d c) + tPart x0 x1 x2 d c := by
  unfold stepA k0_pay1 tPart
  rw [shapeCast_self, addf_apply, addf_apply, matmulB_apply, pay16_apply]
  have hs : (∑ j : Fin 4096, k0_pay11 (F := Ideal) x0 x1 (ix2 d j) * k0_pay12 (F := Ideal) x2 (ix2 j c))
      = ∑ j : Fin 4096, tT2 x0 x1 d j * x2 (ix3 (2 : Fin 3) j c) :=
    Finset.sum_congr rfl fun j _ => by rw [pay11_apply, pay12_apply]
  rw [hs]

theorem stepC_apply (x0 : Vec Ideal S100x100 .f32) (x1 : Vec Ideal S1x100x4096 .f32) (x3 : Vec Ideal S3x4096x60 .f32) (acc : Vec Ideal S100x60 .f32) (d : Fin 100) (c : Fin 60) :
    stepC (F := Ideal) x0 x1 x3 acc (ix2 d c) = acc (ix2 d c) + tPart x0 x1 x3 d c := by
  unfold stepC k0_pay2 tPart
  rw [shapeCast_self, addf_apply, addf_apply, addf_apply, matmulB_apply, matmulB_apply, matmulB_apply]
  have h0 : (∑ j : Fin 4096, k0_pay9 (F := Ideal) x1 (ix2 d j) * k0_pay13 (F := Ideal) x3 (ix2 j c))
      = ∑ j : Fin 4096, x1 (ix3 (0 : Fin 1) d j) * x3 (ix3 (0 : Fin 3) j c) :=
    Finset.sum_congr rfl fun j _ => by rw [pay9_apply, pay13_apply]
  have h1 : (∑ j : Fin 4096, k0_pay10 (F := Ideal) x0 x1 (ix2 d j) * k0_pay14 (F := Ideal) x3 (ix2 j c))
      = ∑ j : Fin 4096, tT1 x0 x1 d j * x3 (ix3 (1 : Fin 3) j c) :=
    Finset.sum_congr rfl fun j _ => by rw [pay10_apply, pay14_apply]
  have h2 : (∑ j : Fin 4096, k0_pay11 (F := Ideal) x0 x1 (ix2 d j) * k0_pay15 (F := Ideal) x3 (ix2 j c))
      = ∑ j : Fin 4096, tT2 x0 x1 d j * x3 (ix3 (2 : Fin 3) j c) :=
    Finset.sum_congr rfl fun j _ => by rw [pay11_apply, pay15_apply]
  rw [h0, h1, h2]

theorem zeroA_apply (d : Fin 100) (c : Fin 60) : k0_pay5 (F := Ideal) (ix2 d c) = 0 := by
  unfold k0_pay5
  rw [shapeCast_self, broadcast_apply]
  exact Ideal.ofBits_zero_f32

theorem zeroC_apply (d : Fin 100) (c : Fin 60) : k0_pay6 (F := Ideal) (ix2 d c) = 0 := by
  unfold k0_pay6
  rw [shapeCast_self, broadcast_apply]
  exact Ideal.ofBits_zero_f32

theorem outA_apply (acc : Vec Ideal S100x60 .f32) (b : Vec Ideal S60 .f32) (d : Fin 100) (c : Fin 60) :
    k0_pay3 (F := Ideal) acc b (ix2 d c) = Ideal.tanh (acc (ix2 d c) + b (ix1 c)) := by
  unfold k0_pay3
  show Ideal.tanh (acc (ix2 d c) + broadcastTo S100x60 (shapeCast S1x60 b shapeCasts_S60_S1x60) broadcasts_S1x60_S100x60 (ix2 d c)) = _
  rw [biasBroadcast_apply]

theorem outC_apply (acc : Vec Ideal S100x60 .f32) (b : Vec Ideal S60 .f32) (d : Fin 100) (c : Fin 60) :
    k0_pay4 (F := Ideal) acc b (ix2 d c) = Ideal.tanh (acc (ix2 d c) + b (ix1 c)) := by
  unfold k0_pay4
  show Ideal.tanh (acc (ix2 d c) + broadcastTo S100x60 (shapeCast S1x60 b shapeCasts_S60_S1x60) broadcasts_S1x60_S100x60 (ix2 d c)) = _
  rw [biasBroadcast_apply]

end Cert.KernelIdeal.Val

end
-- ==== Proof.FrameKI.Pieces.lean ====
import proofs.«171431_j27848567947758_1_alg».proof.Proof.FrameKI.Frame
import proofs.«171431_j27848567947758_1_alg».proof.Proof.KPay
import Idealize.ShloMosaic.Lib.Pipeline.Value

set_option maxRecDepth 16384

noncomputable section

namespace Cert.KernelIdeal.Fr

open Cert.KernelIdeal Cert.KernelIdeal.Gen Cert.KernelIdeal.Val
open Idealize.ShloMosaic Idealize.ShloMosaic.TcCoe Idealize.ShloMosaic.Tactic
open Idealize.SL.Sem
open Idealize.ShloMosaic.Pipeline (Dat)

variable {F : FTy → Type} [FloatOps F]

variable (m : (ℓ : Loc nD τ sig) → Buf (Elt F) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (arg1 : Memref sig .tc .vmem S100x100 .f32) (harg1 : arg1.IsWhole) (arg2 : Memref sig .tc .vmem S1x100x4096 .f32) (harg2 : arg2.IsWhole) (arg3 : Memref sig .tc .vmem S3x4096x60 .f32) (harg3 : arg3.IsWhole) (arg4 : Memref sig .tc .vmem S3x4096x60 .f32) (harg4 : arg4.IsWhole) (arg5 : Memref sig .tc .vmem S60 .f32) (harg5 : arg5.IsWhole) (arg6 : Memref sig .tc .vmem S60 .f32) (harg6 : arg6.IsWhole) (arg7 : Memref sig .tc .vmem S100x60 .f32) (harg7 : arg7.IsWhole) (arg8 : Memref sig .tc .vmem S100x60 .f32) (harg8 : arg8.IsWhole) (arg9 : Memref sig .tc .vmem S100x60 .f32) (harg9 : arg9.IsWhole) (arg10 : Memref sig .tc .vmem S100x60 .f32) (harg10 : arg10.IsWhole)

section
variable (hc0 : cond0_0 i) (hc1 : ¬cond0_1 i) (x0 : Vec F S100x100 .f32) (x1 : Vec F S1x100x4096 .f32) (x2 : Vec F S3x4096x60 .f32) (x3 : Vec F S3x4096x60 .f32) (x4 : Vec F S60 .f32) (x5 : Vec F S60 .f32)
theorem sout0_A_0_eq :
    sout0_A_0 c i arg1 harg1 arg2 harg2 arg3 harg3 arg4 harg4 arg5 harg5 arg6 harg6 arg7 harg7 arg8 harg8 arg9 harg9 arg10 harg10 hc0 hc1 x0 x1 x2 x3 x4 x5 = stepA x0 x1 x2 (k0_pay5 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S100x60) hz2, View.readCov_unit_zero (S := S100x60) _ hz2]
  simp only [stepA, stepC, View.readCov_unit_zero (S := S100x60) _ hz2, View.readAt_eq_ld, harg1.read_unread, harg2.read_unread, harg3.read_unread, harg4.read_unread, harg5.read_unread, harg6.read_unread, harg9.read_unread, harg10.read_unread, View.ld_unit_zero (S := S100x100) hz2, View.ld_unit_zero (S := S1x100x4096) hz3, View.ld_unit_zero (S := S3x4096x60) hz3, View.ld_unit_zero (S := S60) hz1, View.ld_unit_zero (S := S100x60) hz2]

theorem sout0_A_1_eq :
    sout0_A_1 c i arg1 harg1 arg2 harg2 arg3 harg3 arg4 harg4 arg5 harg5 arg6 harg6 arg7 harg7 arg8 harg8 arg9 harg9 arg10 harg10 hc0 hc1 x0 x1 x2 x3 x4 x5 = stepC x0 x1 x3 (k0_pay6 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S100x60) hz2, View.readCov_unit_zero (S := S100x60) _ hz2]
  simp only [stepA, stepC, View.readCov_unit_zero (S := S100x60) _ hz2, View.readAt_eq_ld, harg1.read_unread, harg2.read_unread, harg3.read_unread, harg4.read_unread, harg5.read_unread, harg6.read_unread, harg9.read_unread, harg10.read_unread, View.ld_unit_zero (S := S100x100) hz2, View.ld_unit_zero (S := S1x100x4096) hz3, View.ld_unit_zero (S := S3x4096x60) hz3, View.ld_unit_zero (S := S60) hz1, View.ld_unit_zero (S := S100x60) hz2]
end

section
variable (hc0 : ¬cond0_0 i) (hc1 : ¬cond0_1 i) (x0 : Vec F S100x100 .f32) (x1 : Vec F S1x100x4096 .f32) (x2 : Vec F S3x4096x60 .f32) (x3 : Vec F S3x4096x60 .f32) (x4 : Vec F S60 .f32) (x5 : Vec F S60 .f32) (xs0 : Vec F S100x60 .f32) (xs1 : Vec F S100x60 .f32)
theorem sout0_B_0_eq :
    sout0_B_0 c i arg1 harg1 arg2 harg2 arg3 harg3 arg4 harg4 arg5 harg5 arg6 harg6 arg7 harg7 arg8 harg8 arg9 harg9 arg10 harg10 hc0 hc1 x0 x1 x2 x3 x4 x5 xs0 xs1 = stepA x0 x1 x2 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz2]
  simp only [stepA, stepC, View.readCov_unit_zero (S := S100x60) _ hz2, View.readAt_eq_ld, harg1.read_unread, harg2.read_unread, harg3.read_unread, harg4.read_unread, harg5.read_unread, harg6.read_unread, harg9.read_unread, harg10.read_unread, View.ld_unit_zero (S := S100x100) hz2, View.ld_unit_zero (S := S1x100x4096) hz3, View.ld_unit_zero (S := S3x4096x60) hz3, View.ld_unit_zero (S := S60) hz1, View.ld_unit_zero (S := S100x60) hz2]

theorem sout0_B_1_eq :
    sout0_B_1 c i arg1 harg1 arg2 harg2 arg3 harg3 arg4 harg4 arg5 harg5 arg6 harg6 arg7 harg7 arg8 harg8 arg9 harg9 arg10 harg10 hc0 hc1 x0 x1 x2 x3 x4 x5 xs0 xs1 = stepC x0 x1 x3 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz2]
  simp only [stepA, stepC, View.readCov_unit_zero (S := S100x60) _ hz2, View.readAt_eq_ld, harg1.read_unread, harg2.read_unread, harg3.read_unread, harg4.read_unread, harg5.read_unread, harg6.read_unread, harg9.read_unread, harg10.read_unread, View.ld_unit_zero (S := S100x100) hz2, View.ld_unit_zero (S := S1x100x4096) hz3, View.ld_unit_zero (S := S3x4096x60) hz3, View.ld_unit_zero (S := S60) hz1, View.ld_unit_zero (S := S100x60) hz2]
end

section
variable (hc0 : ¬cond0_0 i) (hc1 : cond0_1 i) (x0 : Vec F S100x100 .f32) (x1 : Vec F S1x100x4096 .f32) (x2 : Vec F S3x4096x60 .f32) (x3 : Vec F S3x4096x60 .f32) (x4 : Vec F S60 .f32) (x5 : Vec F S60 .f32) (xs0 : Vec F S100x60 .f32) (xs1 : Vec F S100x60 .f32)
theorem sout0_C_0_eq :
    sout0_C_0 c i arg1 harg1 arg2 harg2 arg3 harg3 arg4 harg4 arg5 harg5 arg6 harg6 arg7 harg7 arg8 harg8 arg9 harg9 arg10 harg10 hc0 hc1 x0 x1 x2 x3 x4 x5 xs0 xs1 = stepA x0 x1 x2 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz2]
  simp only [stepA, stepC, View.readCov_unit_zero (S := S100x60) _ hz2, View.readAt_eq_ld, harg1.read_unread, harg2.read_unread, harg3.read_unread, harg4.read_unread, harg5.read_unread, harg6.read_unread, harg9.read_unread, harg10.read_unread, View.ld_unit_zero (S := S100x100) hz2, View.ld_unit_zero (S := S1x100x4096) hz3, View.ld_unit_zero (S := S3x4096x60) hz3, View.ld_unit_zero (S := S60) hz1, View.ld_unit_zero (S := S100x60) hz2]

theorem sout0_C_1_eq :
    sout0_C_1 c i arg1 harg1 arg2 harg2 arg3 harg3 arg4 harg4 arg5 harg5 arg6 harg6 arg7 harg7 arg8 harg8 arg9 harg9 arg10 harg10 hc0 hc1 x0 x1 x2 x3 x4 x5 xs0 xs1 = stepC x0 x1 x3 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz2]
  simp only [stepA, stepC, View.readCov_unit_zero (S := S100x60) _ hz2, View.readAt_eq_ld, harg1.read_unread, harg2.read_unread, harg3.read_unread, harg4.read_unread, harg5.read_unread, harg6.read_unread, harg9.read_unread, harg10.read_unread, View.ld_unit_zero (S := S100x100) hz2, View.ld_unit_zero (S := S1x100x4096) hz3, View.ld_unit_zero (S := S3x4096x60) hz3, View.ld_unit_zero (S := S60) hz1, View.ld_unit_zero (S := S100x60) hz2]

theorem out0_C_6_eq :
    out0_C_6 c i arg1 harg1 arg2 harg2 arg3 harg3 arg4 harg4 arg5 harg5 arg6 harg6 arg7 harg7 arg8 harg8 arg9 harg9 arg10 harg10 hc0 hc1 x0 x1 x2 x3 x4 x5 xs0 xs1 = k0_pay3 (stepA x0 x1 x2 xs0) x4 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz2]
  simp only [stepA, stepC, View.readCov_unit_zero (S := S100x60) _ hz2, View.readAt_eq_ld, harg1.read_unread, harg2.read_unread, harg3.read_unread, harg4.read_unread, harg5.read_unread, harg6.read_unread, harg9.read_unread, harg10.read_unread, View.ld_unit_zero (S := S100x100) hz2, View.ld_unit_zero (S := S1x100x4096) hz3, View.ld_unit_zero (S := S3x4096x60) hz3, View.ld_unit_zero (S := S60) hz1, View.ld_unit_zero (S := S100x60) hz2]

theorem out0_C_7_eq :
    out0_C_7 c i arg1 harg1 arg2 harg2 arg3 harg3 arg4 harg4 arg5 harg5 arg6 harg6 arg7 harg7 arg8 harg8 arg9 harg9 arg10 harg10 hc0 hc1 x0 x1 x2 x3 x4 x5 xs0 xs1 = k0_pay4 (stepC x0 x1 x3 xs1) x5 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz2]
  simp only [stepA, stepC, View.readCov_unit_zero (S := S100x60) _ hz2, View.readAt_eq_ld, harg1.read_unread, harg2.read_unread, harg3.read_unread, harg4.read_unread, harg5.read_unread, harg6.read_unread, harg9.read_unread, harg10.read_unread, View.ld_unit_zero (S := S100x100) hz2, View.ld_unit_zero (S := S1x100x4096) hz3, View.ld_unit_zero (S := S3x4096x60) hz3, View.ld_unit_zero (S := S60) hz1, View.ld_unit_zero (S := S100x60) hz2]
end
end

theorem flushed6_eq (c : Dev nD) (t : Fin cfg0.N) (hf : (cfg0.win 6).flush t = true) :
    (dats m 0 c).flushed 6 t = ((cfg0.win 6).blk t).view.read (Elt F) ((outsAt0 m c 15 (by rw [show cfg0.N = 16 from N_0]; decide)).1) := by
  have hN : cfg0.N = 16 := N_0
  have h15 : t.val = 15 := by have := (flush0_6 t).mp hf; have := t.isLt; omega
  obtain rfl : t = t0_15 := Fin.ext h15
  show (cfg0.win 6).cut (grid0.coords t0_15) ((dats m 0 c).after 6 t0_15) = _
  rw [after0_6]
  have hz' : (fun a => win0_6.index t0_15 a * main_v46_0.ty.shape.size a) = fun _ => 0 := funext fun a => by fin_cases a <;> decide
  exact (Memref.read_access_unit_zero (Elt F) main_v46_0 hz' (fun a => by rw [congrFun hz' a]; simp) _).symm

theorem arr6_eq (c : Dev nD) : (dats m 0 c).arrAt 6 cfg0.N = (outsAt0 m c 15 (by rw [show cfg0.N = 16 from N_0]; decide)).1 :=
  (dats m 0 c).arrAt_eq_of_cover 6 _ (flushed6_eq m c) fun i =>
    ⟨t0_15, (flush0_6 t0_15).mpr rfl, by
      show i ∈ ((View.whole main_v46_0).slice (win0_6.rect t0_15)).set
      rw [View.set_slice_whole, Rect.mem_set_unit]
      intro a
      have h0 : (i 0 : Nat) < 100 := (i 0).isLt
      have h1 : (i 1 : Nat) < 60 := (i 1).isLt
      match a with
      | ⟨0, _⟩ => show win0_6.index t0_15 0 * win0_6.size 0 ≤ (i 0 : Nat) ∧ (i 0 : Nat) < win0_6.index t0_15 0 * win0_6.size 0 + win0_6.xsize (grid0.coords t0_15) 0
                  rw [show win0_6.index t0_15 0 * win0_6.size 0 = 0 from by decide +kernel, show win0_6.xsize (grid0.coords t0_15) 0 = 100 from by decide +kernel]; omega
      | ⟨1, _⟩ => show win0_6.index t0_15 1 * win0_6.size 1 ≤ (i 1 : Nat) ∧ (i 1 : Nat) < win0_6.index t0_15 1 * win0_6.size 1 + win0_6.xsize (grid0.coords t0_15) 1
                  rw [show win0_6.index t0_15 1 * win0_6.size 1 = 0 from by decide +kernel, show win0_6.xsize (grid0.coords t0_15) 1 = 60 from by decide +kernel]; omega⟩

theorem flushed7_eq (c : Dev nD) (t : Fin cfg0.N) (hf : (cfg0.win 7).flush t = true) :
    (dats m 0 c).flushed 7 t = ((cfg0.win 7).blk t).view.read (Elt F) ((outsAt0 m c 15 (by rw [show cfg0.N = 16 from N_0]; decide)).2.1) := by
  have hN : cfg0.N = 16 := N_0
  have h15 : t.val = 15 := by have := (flush0_7 t).mp hf; have := t.isLt; omega
  obtain rfl : t = t0_15 := Fin.ext h15
  show (cfg0.win 7).cut (grid0.coords t0_15) ((dats m 0 c).after 7 t0_15) = _
  rw [after0_7]
  have hz' : (fun a => win0_7.index t0_15 a * main_v46_1.ty.shape.size a) = fun _ => 0 := funext fun a => by fin_cases a <;> decide
  exact (Memref.read_access_unit_zero (Elt F) main_v46_1 hz' (fun a => by rw [congrFun hz' a]; simp) _).symm

theorem arr7_eq (c : Dev nD) : (dats m 0 c).arrAt 7 cfg0.N = (outsAt0 m c 15 (by rw [show cfg0.N = 16 from N_0]; decide)).2.1 :=
  (dats m 0 c).arrAt_eq_of_cover 7 _ (flushed7_eq m c) fun i =>
    ⟨t0_15, (flush0_7 t0_15).mpr rfl, by
      show i ∈ ((View.whole main_v46_1).slice (win0_7.rect t0_15)).set
      rw [View.set_slice_whole, Rect.mem_set_unit]
      intro a
      have h0 : (i 0 : Nat) < 100 := (i 0).isLt
      have h1 : (i 1 : Nat) < 60 := (i 1).isLt
      match a with
      | ⟨0, _⟩ => show win0_7.index t0_15 0 * win0_7.size 0 ≤ (i 0 : Nat) ∧ (i 0 : Nat) < win0_7.index t0_15 0 * win0_7.size 0 + win0_7.xsize (grid0.coords t0_15) 0
                  rw [show win0_7.index t0_15 0 * win0_7.size 0 = 0 from by decide +kernel, show win0_7.xsize (grid0.coords t0_15) 0 = 100 from by decide +kernel]; omega
      | ⟨1, _⟩ => show win0_7.index t0_15 1 * win0_7.size 1 ≤ (i 1 : Nat) ∧ (i 1 : Nat) < win0_7.index t0_15 1 * win0_7.size 1 + win0_7.xsize (grid0.coords t0_15) 1
                  rw [show win0_7.index t0_15 1 * win0_7.size 1 = 0 from by decide +kernel, show win0_7.xsize (grid0.coords t0_15) 1 = 60 from by decide +kernel]; omega⟩

end Cert.KernelIdeal.Fr

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

open scoped BigOperators

namespace Cert.LibReal

open Idealize.ShloMosaic

def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

theorem div_one_of_isReal {x : EReal} : IsReal x → Ideal.div x 1 = x := by
  rintro ⟨a, rfl⟩
  rw [← EReal.coe_one, Ideal.div_coe one_ne_zero, ← EReal.coe_mul]
  congr 1
  rw [div_one, mul_one]

theorem pow_one_of_isReal {x : EReal} : IsReal x → Ideal.pow x 1 = x := by
  rintro ⟨a, rfl⟩
  rw [← EReal.coe_one, Ideal.pow_coe_coe]
  congr 1
  exact Real.rpow_one a

theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.ChebAlgebra.lean ====
import proofs.«171431_j27848567947758_1_alg».proof.Proof.LibReal
import Mathlib.Data.EReal.Basic
import Mathlib.Data.EReal.Operations
import Mathlib.Algebra.BigOperators.Group.Finset.Basic
import Mathlib.Algebra.BigOperators.Ring.Finset
import Mathlib.Data.Fintype.BigOperators

open scoped BigOperators

noncomputable section

namespace Cert.Cheb

open Cert.LibReal

def tileIdx (k : Fin 16) (j : Fin 4096) : Fin 65536 := ⟨4096 * k.val + j.val, by omega⟩

def lhat (src dst : Fin 2000 → Fin 100) (nrm : Fin 2000 → EReal) (d s : Fin 100) : EReal :=
  ∑ e ∈ Finset.univ.filter (fun e => dst e = d ∧ src e = s), nrm e

def propE (src dst : Fin 2000 → Fin 100) (nrm : Fin 2000 → EReal) (Z : Fin 100 → EReal)
    (d : Fin 100) : EReal :=
  ∑ e ∈ Finset.univ.filter (fun e => dst e = d), Z (src e) * nrm e

theorem sum_mul_of_isReal {ι : Type} (F : Finset ι) (f : ι → EReal) (hf : ∀ i, IsReal (f i))
    (z : EReal) (hz : IsReal z) : (∑ i ∈ F, f i) * z = ∑ i ∈ F, f i * z := by
  choose r hr using hf
  obtain ⟨t, rfl⟩ := hz
  have hF : f = fun i => (r i : EReal) := funext hr
  subst hF
  rw [← coe_sum, ← EReal.coe_mul, Finset.sum_mul, coe_sum]
  exact Finset.sum_congr rfl fun i _ => EReal.coe_mul (r i) t

theorem lhat_isReal (src dst : Fin 2000 → Fin 100) (nrm : Fin 2000 → EReal)
    (hn : ∀ e, IsReal (nrm e)) (d s : Fin 100) : IsReal (lhat src dst nrm d s) :=
  IsReal.sum _ _ fun e _ => hn e

theorem propE_isReal (src dst : Fin 2000 → Fin 100) (nrm : Fin 2000 → EReal)
    (hn : ∀ e, IsReal (nrm e)) (Z : Fin 100 → EReal) (hZ : ∀ s, IsReal (Z s)) (d : Fin 100) :
    IsReal (propE src dst nrm Z d) :=
  IsReal.sum _ _ fun e _ => IsReal.mul (hZ (src e)) (hn e)

theorem prop_eq (src dst : Fin 2000 → Fin 100) (nrm : Fin 2000 → EReal)
    (hn : ∀ e, IsReal (nrm e)) (Z : Fin 100 → EReal) (hZ : ∀ s, IsReal (Z s)) (d : Fin 100) :
    ∑ s : Fin 100, lhat src dst nrm d s * Z s = propE src dst nrm Z d := by
  unfold lhat propE
  have h1 : ∀ s : Fin 100,
      (∑ e ∈ Finset.univ.filter (fun e => dst e = d ∧ src e = s), nrm e) * Z s
        = ∑ e ∈ (Finset.univ.filter (fun e => dst e = d)).filter (fun e => src e = s),
            Z (src e) * nrm e := by
    intro s
    rw [sum_mul_of_isReal _ nrm hn (Z s) (hZ s), Finset.filter_filter]
    refine Finset.sum_congr rfl fun e he => ?_
    rw [(Finset.mem_filter.mp he).2.2, mul_comm]
  rw [Finset.sum_congr rfl fun s _ => h1 s]
  exact Finset.sum_fiberwise (Finset.univ.filter (fun e => dst e = d)) src
    (fun e => Z (src e) * nrm e)

def kT1 (src dst : Fin 2000 → Fin 100) (nrm : Fin 2000 → EReal)
    (X : Fin 100 → Fin 65536 → EReal) (k : Fin 16) (d : Fin 100) (j : Fin 4096) : EReal :=
  ∑ s : Fin 100, lhat src dst nrm d s * X s (tileIdx k j)

def kT2 (src dst : Fin 2000 → Fin 100) (nrm : Fin 2000 → EReal)
    (X : Fin 100 → Fin 65536 → EReal) (two : EReal) (k : Fin 16) (d : Fin 100) (j : Fin 4096) :
    EReal :=
  two * (∑ s : Fin 100, lhat src dst nrm d s * kT1 src dst nrm X k s j) - X d (tileIdx k j)

def kPart (src dst : Fin 2000 → Fin 100) (nrm : Fin 2000 → EReal)
    (X : Fin 100 → Fin 65536 → EReal) (W0 W1 W2 : Fin 65536 → Fin 60 → EReal) (two : EReal)
    (k : Fin 16) (d : Fin 100) (c : Fin 60) : EReal :=
  ((∑ j : Fin 4096, X d (tileIdx k j) * W0 (tileIdx k j) c)
      + (∑ j : Fin 4096, kT1 src dst nrm X k d j * W1 (tileIdx k j) c))
    + (∑ j : Fin 4096, kT2 src dst nrm X two k d j * W2 (tileIdx k j) c)

def kernelPre (src dst : Fin 2000 → Fin 100) (nrm : Fin 2000 → EReal)
    (X : Fin 100 → Fin 65536 → EReal) (W0 W1 W2 : Fin 65536 → Fin 60 → EReal) (two : EReal)
    (d : Fin 100) (c : Fin 60) : EReal :=
  ∑ k : Fin 16, kPart src dst nrm X W0 W1 W2 two k d c

def rT1 (src dst : Fin 2000 → Fin 100) (nrm : Fin 2000 → EReal)
    (X : Fin 100 → Fin 65536 → EReal) (d : Fin 100) (f : Fin 65536) : EReal :=
  propE src dst nrm (fun s => X s f) d

def rT2 (src dst : Fin 2000 → Fin 100) (nrm : Fin 2000 → EReal)
    (X : Fin 100 → Fin 65536 → EReal) (two : EReal) (d : Fin 100) (f : Fin 65536) : EReal :=
  two * propE src dst nrm (fun s => rT1 src dst nrm X s f) d - X d f

def refPre (src dst : Fin 2000 → Fin 100) (nrm : Fin 2000 → EReal)
    (X : Fin 100 → Fin 65536 → EReal) (W0 W1 W2 : Fin 65536 → Fin 60 → EReal) (two : EReal)
    (d : Fin 100) (c : Fin 60) : EReal :=
  ((∑ f : Fin 65536, X d f * W0 f c) + (∑ f : Fin 65536, rT1 src dst nrm X d f * W1 f c))
    + (∑ f : Fin 65536, rT2 src dst nrm X two d f * W2 f c)

def tileEquiv : Fin 16 × Fin 4096 ≃ Fin 65536 where
  toFun p := tileIdx p.1 p.2
  invFun f := (⟨f.val / 4096, by omega⟩, ⟨f.val % 4096, by omega⟩)
  left_inv := by
    rintro ⟨k, j⟩
    refine Prod.ext (Fin.ext ?_) (Fin.ext ?_)
    · show (4096 * k.val + j.val) / 4096 = k.val
      omega
    · show (4096 * k.val + j.val) % 4096 = j.val
      omega
  right_inv := by
    intro f
    refine Fin.ext ?_
    show 4096 * (f.val / 4096) + f.val % 4096 = f.val
    omega

theorem sum_tiles (g : Fin 65536 → EReal) :
    ∑ k : Fin 16, ∑ j : Fin 4096, g (tileIdx k j) = ∑ f : Fin 65536, g f := by
  rw [← Fintype.sum_prod_type' (fun k j => g (tileIdx k j))]
  exact Fintype.sum_equiv tileEquiv (fun p => g (tileIdx p.1 p.2)) g (fun _ => rfl)

theorem kT1_eq (src dst : Fin 2000 → Fin 100) (nrm : Fin 2000 → EReal)
    (hn : ∀ e, IsReal (nrm e)) (X : Fin 100 → Fin 65536 → EReal) (hX : ∀ d f, IsReal (X d f))
    (k : Fin 16) (d : Fin 100) (j : Fin 4096) :
    kT1 src dst nrm X k d j = rT1 src dst nrm X d (tileIdx k j) :=
  prop_eq src dst nrm hn (fun s => X s (tileIdx k j)) (fun s => hX s (tileIdx k j)) d

theorem rT1_isReal (src dst : Fin 2000 → Fin 100) (nrm : Fin 2000 → EReal)
    (hn : ∀ e, IsReal (nrm e)) (X : Fin 100 → Fin 65536 → EReal) (hX : ∀ d f, IsReal (X d f))
    (d : Fin 100) (f : Fin 65536) : IsReal (rT1 src dst nrm X d f) :=
  propE_isReal src dst nrm hn (fun s => X s f) (fun s => hX s f) d

theorem kT2_eq (src dst : Fin 2000 → Fin 100) (nrm : Fin 2000 → EReal)
    (hn : ∀ e, IsReal (nrm e)) (X : Fin 100 → Fin 65536 → EReal) (hX : ∀ d f, IsReal (X d f))
    (two : EReal) (k : Fin 16) (d : Fin 100) (j : Fin 4096) :
    kT2 src dst nrm X two k d j = rT2 src dst nrm X two d (tileIdx k j) := by
  unfold kT2 rT2
  rw [Finset.sum_congr rfl fun s _ => by rw [kT1_eq src dst nrm hn X hX k s j],
    prop_eq src dst nrm hn (fun s => rT1 src dst nrm X s (tileIdx k j))
      (fun s => rT1_isReal src dst nrm hn X hX s (tileIdx k j)) d]

theorem kernelPre_eq_refPre (src dst : Fin 2000 → Fin 100) (nrm : Fin 2000 → EReal)
    (hn : ∀ e, IsReal (nrm e)) (X : Fin 100 → Fin 65536 → EReal) (hX : ∀ d f, IsReal (X d f))
    (W0 W1 W2 : Fin 65536 → Fin 60 → EReal) (two : EReal) (d : Fin 100) (c : Fin 60) :
    kernelPre src dst nrm X W0 W1 W2 two d c = refPre src dst nrm X W0 W1 W2 two d c := by
  unfold kernelPre kPart refPre
  rw [Finset.sum_add_distrib, Finset.sum_add_distrib]
  rw [sum_tiles (fun f => X d f * W0 f c)]
  rw [Finset.sum_congr rfl fun k _ => Finset.sum_congr rfl fun j _ => by
        rw [kT1_eq src dst nrm hn X hX k d j],
    sum_tiles (fun f => rT1 src dst nrm X d f * W1 f c)]
  rw [Finset.sum_congr rfl fun k _ => Finset.sum_congr rfl fun j _ => by
        rw [kT2_eq src dst nrm hn X hX two k d j],
    sum_tiles (fun f => rT2 src dst nrm X two d f * W2 f c)]

def accN (p : ℕ → EReal) : ℕ → EReal
  | 0 => 0 + p 0
  | n + 1 => accN p n + p (n + 1)

theorem accN_eq (p : ℕ → EReal) (n : ℕ) : accN p n = ∑ k ∈ Finset.range (n + 1), p k := by
  induction n with
  | zero => rw [Finset.sum_range_one]; exact zero_add (p 0)
  | succ n ih =>
    rw [Finset.sum_range_succ, ← ih]
    rfl

theorem accN_15 (p : ℕ → EReal) : accN p 15 = ∑ k : Fin 16, p k.val := by
  rw [accN_eq, Fin.sum_univ_eq_sum_range]

end Cert.Cheb

end
-- ==== Proof.KBlocks.lean ====
import proofs.«171431_j27848567947758_1_alg».proof.Proof.FrameKI.Base
import proofs.«171431_j27848567947758_1_alg».proof.Proof.ChebAlgebra
import Idealize.ShloMosaic.Lib.Pipeline.Value
import Idealize.ShloMosaic.Lib.ValueIdx

noncomputable section

namespace Cert.KernelIdeal.Val

open Cert.KernelIdeal Cert.KernelIdeal.Gen Cert.KernelIdeal.Fr Idealize.ShloMosaic Idealize.ShloMosaic.ValueIdx
open Idealize.ShloMosaic.TcCoe

variable {F : FTy → Type} [FloatOps F] (m : (ℓ : Loc nD τ sig) → Buf (Elt F) ℓ)

def tileOf (t : Fin cfg0.N) : Fin 16 := ⟨t.val, lt_of_lt_of_eq t.isLt N_0⟩

abbrev blk0 (c : Dev nD) (t : Fin cfg0.N) : Vec F S100x100 .f32 := iblk m c 0 t
abbrev blk1 (c : Dev nD) (t : Fin cfg0.N) : Vec F S1x100x4096 .f32 := iblk m c 1 t
abbrev blk2 (c : Dev nD) (t : Fin cfg0.N) : Vec F S3x4096x60 .f32 := iblk m c 2 t
abbrev blk3 (c : Dev nD) (t : Fin cfg0.N) : Vec F S3x4096x60 .f32 := iblk m c 3 t
abbrev blk4 (c : Dev nD) (t : Fin cfg0.N) : Vec F S60 .f32 := iblk m c 4 t
abbrev blk5 (c : Dev nD) (t : Fin cfg0.N) : Vec F S60 .f32 := iblk m c 5 t

theorem idx_facts0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

theorem idx_facts1 : ∀ t : Fin cfg0.N, win0_1.index t (0 : Fin 3) = 0 ∧ win0_1.index t (1 : Fin 3) = 0 ∧ win0_1.index t (2 : Fin 3) = t.val :=
  (by decide +kernel : ∀ t : Fin grid0.N, win0_1.index t (0 : Fin 3) = 0 ∧ win0_1.index t (1 : Fin 3) = 0 ∧ win0_1.index t (2 : Fin 3) = t.val)

theorem idx_facts2 : ∀ t : Fin cfg0.N, win0_2.index t (0 : Fin 3) = 0 ∧ win0_2.index t (1 : Fin 3) = t.val ∧ win0_2.index t (2 : Fin 3) = 0 :=
  (by decide +kernel : ∀ t : Fin grid0.N, win0_2.index t (0 : Fin 3) = 0 ∧ win0_2.index t (1 : Fin 3) = t.val ∧ win0_2.index t (2 : Fin 3) = 0)

theorem idx_facts3 : ∀ t : Fin cfg0.N, win0_3.index t (0 : Fin 3) = 0 ∧ win0_3.index t (1 : Fin 3) = t.val ∧ win0_3.index t (2 : Fin 3) = 0 :=
  (by decide +kernel : ∀ t : Fin grid0.N, win0_3.index t (0 : Fin 3) = 0 ∧ win0_3.index t (1 : Fin 3) = t.val ∧ win0_3.index t (2 : Fin 3) = 0)

theorem idx_facts4 : ∀ t : Fin cfg0.N, win0_4.index t (0 : Fin 1) = 0 :=
  (by decide +kernel : ∀ t : Fin grid0.N, win0_4.index t (0 : Fin 1) = 0)

theorem idx_facts5 : ∀ t : Fin cfg0.N, win0_5.index t (0 : Fin 1) = 0 :=
  (by decide +kernel : ∀ t : Fin grid0.N, win0_5.index t (0 : Fin 1) = 0)

theorem blk0_apply (c : Dev nD) (t : Fin cfg0.N) (d s : Fin 100) :
    blk0 m c t (ix2 d s) = (V m c main_v45 : Vec F S100x100 .f32) (ix2 d s) := by
  obtain ⟨e0, e1⟩ := idx_facts0 t
  unfold blk0 iblk
  rw [View.read_apply]
  show V m c main_v45 _ = V m c main_v45 _
  congr 1
  funext a
  apply Fin.ext
  match a with
  | ⟨0, _⟩ => show win0_0.index t (0 : Fin 2) * 100 + 1 * d.val = d.val; rw [e0]; omega
  | ⟨1, _⟩ => show win0_0.index t (1 : Fin 2) * 100 + 1 * s.val = s.val; rw [e1]; omega

theorem blk1_apply (c : Dev nD) (t : Fin cfg0.N) (d : Fin 100) (j : Fin 4096) :
    blk1 m c t (ix3 (0 : Fin 1) d j) = (V m c main_arg0 : Vec F S1x100x65536 .f32) (ix3 (0 : Fin 1) d (Cert.Cheb.tileIdx (tileOf t) j)) := by
  obtain ⟨e0, e1, e2⟩ := idx_facts1 t
  unfold blk1 iblk
  rw [View.read_apply]
  show V m c main_arg0 _ = V m c main_arg0 _
  congr 1
  funext a
  apply Fin.ext
  match a with
  | ⟨0, _⟩ => show win0_1.index t (0 : Fin 3) * 1 + 1 * (0 : Fin 1).val = (0 : Fin 1).val; rw [e0]; rfl
  | ⟨1, _⟩ => show win0_1.index t (1 : Fin 3) * 100 + 1 * d.val = d.val; rw [e1]; omega
  | ⟨2, _⟩ => show win0_1.index t (2 : Fin 3) * 4096 + 1 * j.val = 4096 * t.val + j.val; rw [e2]; omega

theorem blk2_apply (c : Dev nD) (t : Fin cfg0.N) (q : Fin 3) (j : Fin 4096) (o : Fin 60) :
    blk2 m c t (ix3 q j o) = (V m c main_arg5 : Vec F S3x65536x60 .f32) (ix3 q (Cert.Cheb.tileIdx (tileOf t) j) o) := by
  obtain ⟨e0, e1, e2⟩ := idx_facts2 t
  unfold blk2 iblk
  rw [View.read_apply]
  show V m c main_arg5 _ = V m c main_arg5 _
  congr 1
  funext a
  apply Fin.ext
  match a with
  | ⟨0, _⟩ => show win0_2.index t (0 : Fin 3) * 3 + 1 * q.val = q.val; rw [e0]; omega
  | ⟨1, _⟩ => show win0_2.index t (1 : Fin 3) * 4096 + 1 * j.val = 4096 * t.val + j.val; rw [e1]; omega
  | ⟨2, _⟩ => show win0_2.index t (2 : Fin 3) * 60 + 1 * o.val = o.val; rw [e2]; omega

theorem blk3_apply (c : Dev nD) (t : Fin cfg0.N) (q : Fin 3) (j : Fin 4096) (o : Fin 60) :
    blk3 m c t (ix3 q j o) = (V m c main_arg7 : Vec F S3x65536x60 .f32) (ix3 q (Cert.Cheb.tileIdx (tileOf t) j) o) := by
  obtain ⟨e0, e1, e2⟩ := idx_facts3 t
  unfold blk3 iblk
  rw [View.read_apply]
  show V m c main_arg7 _ = V m c main_arg7 _
  congr 1
  funext a
  apply Fin.ext
  match a with
  | ⟨0, _⟩ => show win0_3.index t (0 : Fin 3) * 3 + 1 * q.val = q.val; rw [e0]; omega
  | ⟨1, _⟩ => show win0_3.index t (1 : Fin 3) * 4096 + 1 * j.val = 4096 * t.val + j.val; rw [e1]; omega
  | ⟨2, _⟩ => show win0_3.index t (2 : Fin 3) * 60 + 1 * o.val = o.val; rw [e2]; omega

theorem blk4_apply (c : Dev nD) (t : Fin cfg0.N) (o : Fin 60) :
    blk4 m c t (ix1 o) = (V m c main_arg6 : Vec F S60 .f32) (ix1 o) := by
  have e0 := idx_facts4 t
  unfold blk4 iblk
  rw [View.read_apply]
  show V m c main_arg6 _ = V m c main_arg6 _
  congr 1
  funext a
  apply Fin.ext
  match a with
  | ⟨0, _⟩ => show win0_4.index t (0 : Fin 1) * 60 + 1 * o.val = o.val; rw [e0]; omega

theorem blk5_apply (c : Dev nD) (t : Fin cfg0.N) (o : Fin 60) :
    blk5 m c t (ix1 o) = (V m c main_arg8 : Vec F S60 .f32) (ix1 o) := by
  have e0 := idx_facts5 t
  unfold blk5 iblk
  rw [View.read_apply]
  show V m c main_arg8 _ = V m c main_arg8 _
  congr 1
  funext a
  apply Fin.ext
  match a with
  | ⟨0, _⟩ => show win0_5.index t (0 : Fin 1) * 60 + 1 * o.val = o.val; rw [e0]; omega

end Cert.KernelIdeal.Val

end
-- ==== Proof.Glue.lean ====
import proofs.«171431_j27848567947758_1_alg».proof.KernelIdeal
import proofs.«171431_j27848567947758_1_alg».proof.Proof.ChebAlgebra
import Idealize.ShloMosaic.Lib.ValueIdx
import Idealize.ShloMosaic.PureOps.Ideal

noncomputable section

namespace Cert.Glue

open Cert.KernelIdeal Idealize.ShloMosaic Idealize.ShloMosaic.ValueIdx

def Xf (a0 : FVec Ideal S1x100x65536 .f32) (d : Fin 100) (f : Fin 65536) : EReal := a0 (ix3 (0 : Fin 1) d f)

def Wf (w : FVec Ideal S3x65536x60 .f32) (q : Fin 3) (f : Fin 65536) (c : Fin 60) : EReal := w (ix3 q f c)

def two : EReal := Ideal.ofBits .f32 0x40000000#32

end Cert.Glue

end
-- ==== Proof.SGFacts.lean ====
import proofs.«171431_j27848567947758_1_alg».proof.KernelIdeal
import proofs.«171431_j27848567947758_1_alg».proof.ReferenceIdeal
import proofs.«171431_j27848567947758_1_alg».proof.Proof.LibReal
import Idealize.ShloMosaic.Lib.ValueIdx
import Idealize.ShloMosaic.Lib.ValueIdxRank1
import Idealize.ShloMosaic.PureOps.Ideal.Laws
import Mathlib.Algebra.BigOperators.Group.Finset.Basic
import Mathlib.Algebra.BigOperators.Group.Finset.Piecewise
import Mathlib.Data.Fintype.BigOperators

open scoped BigOperators

namespace Cert.SG

open Idealize.ShloMosaic Idealize.ShloMosaic.ValueIdx Cert.LibReal

def node (w : BitVec 32) : Fin 100 := ⟨w.toInt.toNat % 100, Nat.mod_lt _ (by decide)⟩

def InRange (w : BitVec 32) : Prop := 0 ≤ w.toInt ∧ w.toInt < 100

theorem scatterAdd_isReal {s si u : Shape} {w : Nat} {φ : FTy} (d : ScatterDims s si u)
    (x : FVec Ideal s φ) (idx : IVec si w) (upd : FVec Ideal u φ)
    (hx : ∀ i, IsReal (x i)) (hu : ∀ j, IsReal (upd j)) (i : s.Idx) :
    IsReal (Host.scatterAdd (F := Ideal) d x idx upd i) := by
  show IsReal (x i + ∑ j ∈ _, upd j)
  exact IsReal.add (hx i) (IsReal.sum _ _ fun j _ => hu j)

theorem sum_filter_idx1 {n : Nat} (P : (⟨1, ![n]⟩ : Shape).Idx → Prop) [DecidablePred P]
    (Q : Fin n → Prop) [DecidablePred Q] (hPQ : ∀ e, P (ix1 e) ↔ Q e)
    (g : (⟨1, ![n]⟩ : Shape).Idx → EReal) :
    ∑ j ∈ Finset.univ.filter P, g j = ∑ e ∈ Finset.univ.filter Q, g (ix1 e) := by
  rw [Finset.sum_filter, Finset.sum_filter,
    ← Equiv.sum_comp (idxEquiv1 (n := n)).symm (fun j => if P j then g j else 0)]
  exact Finset.sum_congr rfl fun e _ => if_congr (hPQ e) rfl rfl

theorem sum_filter_idx2 {n0 n1 : Nat} (P : (⟨2, ![n0, n1]⟩ : Shape).Idx → Prop) [DecidablePred P]
    (Q : Fin n0 → Prop) [DecidablePred Q] (f : Fin n1)
    (hPQ : ∀ e f', P (ix2 e f') ↔ (Q e ∧ f' = f))
    (g : (⟨2, ![n0, n1]⟩ : Shape).Idx → EReal) :
    ∑ j ∈ Finset.univ.filter P, g j = ∑ e ∈ Finset.univ.filter Q, g (ix2 e f) := by
  rw [Finset.sum_filter, Finset.sum_filter, sum_idx2]
  refine Finset.sum_congr rfl fun e _ => ?_
  by_cases hQ : Q e
  · rw [if_pos hQ, Finset.sum_congr rfl fun f' _ =>
      (if_congr ((hPQ e f').trans (and_iff_right hQ)) rfl rfl :
        (if P (ix2 e f') then g (ix2 e f') else 0) = if f' = f then g (ix2 e f') else 0),
      Finset.sum_ite_eq' Finset.univ f (fun f' => g (ix2 e f')), if_pos (Finset.mem_univ f)]
  · rw [if_neg hQ]
    exact Finset.sum_eq_zero fun f' _ => if_neg fun h => hQ ((hPQ e f').mp h).1

section K
variable [Cert.KernelIdeal.Facts₀]
open Cert.KernelIdeal

theorem lhat_start0 (idx : IVec S2000x2 32) (e : Fin 2000) :
    scatter_S100x100_S2000x2_S2000_n_01_01_1.start (ix1 e) idx 0 = (idx (ix2 e 0)).toInt := by
  unfold ScatterDims.start
  rw [dif_pos (show (0 : Fin 2) ∈ scatter_S100x100_S2000x2_S2000_n_01_01_1.scatterDimsToOperandDims from
    List.mem_cons_self)]
  congr 2
  funext b
  refine Fin.ext ?_
  match b with
  | ⟨0, _⟩ => rfl
  | ⟨1, _⟩ => rfl

theorem lhat_start1 (idx : IVec S2000x2 32) (e : Fin 2000) :
    scatter_S100x100_S2000x2_S2000_n_01_01_1.start (ix1 e) idx 1 = (idx (ix2 e 1)).toInt := by
  unfold ScatterDims.start
  rw [dif_pos (show (1 : Fin 2) ∈ scatter_S100x100_S2000x2_S2000_n_01_01_1.scatterDimsToOperandDims from
    List.mem_cons_of_mem _ List.mem_cons_self)]
  congr 2
  funext b
  refine Fin.ext ?_
  match b with
  | ⟨0, _⟩ => rfl
  | ⟨1, _⟩ => rfl

theorem lhat_resultIdx (idx : IVec S2000x2 32)
    (hidx : ∀ (e : Fin 2000) (k : Fin 2), InRange (idx (ix2 e k))) (e : Fin 2000) :
    scatter_S100x100_S2000x2_S2000_n_01_01_1.resultIdx? (ix1 e) idx
      = some (ix2 (node (idx (ix2 e 0))) (node (idx (ix2 e 1)))) := by
  have s0 := lhat_start0 idx e
  have s1 := lhat_start1 idx e
  have w0 : scatter_S100x100_S2000x2_S2000_n_01_01_1.window (ix1 e) 0 = 0 := rfl
  have w1 : scatter_S100x100_S2000x2_S2000_n_01_01_1.window (ix1 e) 1 = 0 := rfl
  have h0 := hidx e 0
  have h1 := hidx e 1
  unfold InRange at h0 h1
  unfold ScatterDims.resultIdx?
  rw [dif_pos ?_]
  · congr 1
    funext a
    refine Fin.ext ?_
    match a with
    | ⟨0, _⟩ =>
      show (scatter_S100x100_S2000x2_S2000_n_01_01_1.start (ix1 e) idx 0
        + (scatter_S100x100_S2000x2_S2000_n_01_01_1.window (ix1 e) 0 : Int)).toNat
          = (idx (ix2 e 0)).toInt.toNat % 100
      rw [s0, w0]; omega
    | ⟨1, _⟩ =>
      show (scatter_S100x100_S2000x2_S2000_n_01_01_1.start (ix1 e) idx 1
        + (scatter_S100x100_S2000x2_S2000_n_01_01_1.window (ix1 e) 1 : Int)).toNat
          = (idx (ix2 e 1)).toInt.toNat % 100
      rw [s1, w1]; omega
  · intro a
    match a with
    | ⟨0, _⟩ =>
      show 0 ≤ scatter_S100x100_S2000x2_S2000_n_01_01_1.start (ix1 e) idx 0
          + (scatter_S100x100_S2000x2_S2000_n_01_01_1.window (ix1 e) 0 : Int) ∧
        scatter_S100x100_S2000x2_S2000_n_01_01_1.start (ix1 e) idx 0
          + (scatter_S100x100_S2000x2_S2000_n_01_01_1.window (ix1 e) 0 : Int) < ((100 : Nat) : Int)
      rw [s0, w0]; omega
    | ⟨1, _⟩ =>
      show 0 ≤ scatter_S100x100_S2000x2_S2000_n_01_01_1.start (ix1 e) idx 1
          + (scatter_S100x100_S2000x2_S2000_n_01_01_1.window (ix1 e) 1 : Int) ∧
        scatter_S100x100_S2000x2_S2000_n_01_01_1.start (ix1 e) idx 1
          + (scatter_S100x100_S2000x2_S2000_n_01_01_1.window (ix1 e) 1 : Int) < ((100 : Nat) : Int)
      rw [s1, w1]; omega

theorem lhat_apply (x : FVec Ideal S100x100 .f32) (idx : IVec S2000x2 32)
    (hidx : ∀ (e : Fin 2000) (k : Fin 2), InRange (idx (ix2 e k))) (upd : FVec Ideal S2000 .f32)
    (d s : Fin 100) :
    Host.scatterAdd (F := Ideal) scatter_S100x100_S2000x2_S2000_n_01_01_1 x idx upd (ix2 d s)
      = x (ix2 d s) + ∑ e ∈ Finset.univ.filter
          (fun e : Fin 2000 => node (idx (ix2 e 0)) = d ∧ node (idx (ix2 e 1)) = s), upd (ix1 e) := by
  show x (ix2 d s) + ∑ j ∈ Finset.univ.filter
      (fun j => scatter_S100x100_S2000x2_S2000_n_01_01_1.resultIdx? j idx = some (ix2 d s)), upd j = _
  refine congrArg (fun t => x (ix2 d s) + t) ?_
  refine sum_filter_idx1 _ _ (fun e => ?_) upd
  rw [lhat_resultIdx idx hidx e, Option.some.injEq]
  constructor
  · intro h
    exact ⟨by have := congrFun h 0; exact this, by have := congrFun h 1; exact this⟩
  · rintro ⟨h0, h1⟩
    rw [h0, h1]

theorem gather_vec_K (x : FVec Ideal S100 .f32) (idx : IVec S2000x1 32)
    (hidx : ∀ e : Fin 2000, InRange (idx (ix2 e 0))) (e : Fin 2000) :
    Host.gather gather_S100_S2000x1_S2000_n_0_n_n_0_1_1 x idx (ix1 e)
      = x (ix1 (node (idx (ix2 e 0)))) := by
  have hs : gather_S100_S2000x1_S2000_n_0_n_n_0_1_1.start (ix1 e) idx 0
      = min (idx (ix2 e 0)).toInt.toNat (100 - 1) := by
    unfold GatherDims.start
    rw [dif_pos (show (0 : Fin 1) ∈ gather_S100_S2000x1_S2000_n_0_n_n_0_1_1.startIndexMap from
      List.mem_cons_self)]
    have hsi : gather_S100_S2000x1_S2000_n_0_n_n_0_1_1.siIdx (ix1 e)
        ⟨List.idxOf (0 : Fin 1) gather_S100_S2000x1_S2000_n_0_n_n_0_1_1.startIndexMap,
          List.idxOf_lt_length_iff.2 List.mem_cons_self⟩ = ix2 e 0 := by
      funext b
      refine Fin.ext ?_
      match b with
      | ⟨0, _⟩ => rfl
      | ⟨1, _⟩ => rfl
    rw [hsi]
    rfl
  have hb : gather_S100_S2000x1_S2000_n_0_n_n_0_1_1.batchCoord (ix1 e) 0 = 0 := rfl
  have ho : gather_S100_S2000x1_S2000_n_0_n_n_0_1_1.offCoord (ix1 e) 0 = 0 := rfl
  have h0 := hidx e
  unfold InRange at h0
  unfold Host.gather
  congr 1
  funext a
  refine Fin.ext ?_
  match a with
  | ⟨0, _⟩ =>
    show gather_S100_S2000x1_S2000_n_0_n_n_0_1_1.start (ix1 e) idx 0
        + gather_S100_S2000x1_S2000_n_0_n_n_0_1_1.batchCoord (ix1 e) 0
        + gather_S100_S2000x1_S2000_n_0_n_n_0_1_1.offCoord (ix1 e) 0
      = (idx (ix2 e 0)).toInt.toNat % 100
    rw [hs, hb, ho]; omega

theorem scatter_vec_resultIdx_K (idx : IVec S2000x1 32)
    (hidx : ∀ e : Fin 2000, InRange (idx (ix2 e 0))) (e : Fin 2000) :
    scatter_S100_S2000x1_S2000_n_0_0_1.resultIdx? (ix1 e) idx = some (ix1 (node (idx (ix2 e 0)))) := by
  have s0 : scatter_S100_S2000x1_S2000_n_0_0_1.start (ix1 e) idx 0 = (idx (ix2 e 0)).toInt := by
    unfold ScatterDims.start
    rw [dif_pos (show (0 : Fin 1) ∈ scatter_S100_S2000x1_S2000_n_0_0_1.scatterDimsToOperandDims from
      List.mem_cons_self)]
    congr 2
    funext b
    refine Fin.ext ?_
    match b with
    | ⟨0, _⟩ => rfl
    | ⟨1, _⟩ => rfl
  have w0 : scatter_S100_S2000x1_S2000_n_0_0_1.window (ix1 e) 0 = 0 := rfl
  have h0 := hidx e
  unfold InRange at h0
  unfold ScatterDims.resultIdx?
  rw [dif_pos ?_]
  · congr 1
    funext a
    refine Fin.ext ?_
    match a with
    | ⟨0, _⟩ =>
      show (scatter_S100_S2000x1_S2000_n_0_0_1.start (ix1 e) idx 0
        + (scatter_S100_S2000x1_S2000_n_0_0_1.window (ix1 e) 0 : Int)).toNat
          = (idx (ix2 e 0)).toInt.toNat % 100
      rw [s0, w0]; omega
  · intro a
    match a with
    | ⟨0, _⟩ =>
      show 0 ≤ scatter_S100_S2000x1_S2000_n_0_0_1.start (ix1 e) idx 0
          + (scatter_S100_S2000x1_S2000_n_0_0_1.window (ix1 e) 0 : Int) ∧
        scatter_S100_S2000x1_S2000_n_0_0_1.start (ix1 e) idx 0
          + (scatter_S100_S2000x1_S2000_n_0_0_1.window (ix1 e) 0 : Int) < ((100 : Nat) : Int)
      rw [s0, w0]; omega

theorem scatter_vec_K (x : FVec Ideal S100 .f32) (idx : IVec S2000x1 32)
    (hidx : ∀ e : Fin 2000, InRange (idx (ix2 e 0))) (upd : FVec Ideal S2000 .f32) (d : Fin 100) :
    Host.scatterAdd (F := Ideal) scatter_S100_S2000x1_S2000_n_0_0_1 x idx upd (ix1 d)
      = x (ix1 d) + ∑ e ∈ Finset.univ.filter (fun e : Fin 2000 => node (idx (ix2 e 0)) = d),
          upd (ix1 e) := by
  show x (ix1 d) + ∑ j ∈ Finset.univ.filter
      (fun j => scatter_S100_S2000x1_S2000_n_0_0_1.resultIdx? j idx = some (ix1 d)), upd j = _
  refine congrArg (fun t => x (ix1 d) + t) ?_
  refine sum_filter_idx1 _ _ (fun e => ?_) upd
  rw [scatter_vec_resultIdx_K idx hidx e, Option.some.injEq]
  exact ⟨fun h => congrArg (fun i : Fin 100 => i) (by have := congrFun h 0; exact this),
    fun h => by rw [h]⟩

end K

section R
variable [Cert.ReferenceIdeal.Facts₀]
open Cert.ReferenceIdeal

theorem gather_rows (x : FVec Ideal S100x65536 .f32) (idx : IVec S2000x1 32)
    (hidx : ∀ e : Fin 2000, InRange (idx (ix2 e 0))) (e : Fin 2000) (f : Fin 65536) :
    Host.gather gather_S100x65536_S2000x1_S2000x65536_1_0_n_n_0_1_165536 x idx (ix2 e f) = x (ix2 (node (idx (ix2 e 0))) f) := by
  have hs : gather_S100x65536_S2000x1_S2000x65536_1_0_n_n_0_1_165536.start (ix2 e f) idx 0 = min (idx (ix2 e 0)).toInt.toNat (100 - 1) := by
    unfold GatherDims.start
    rw [dif_pos (show (0 : Fin 2) ∈ gather_S100x65536_S2000x1_S2000x65536_1_0_n_n_0_1_165536.startIndexMap from List.mem_cons_self)]
    have hsi : gather_S100x65536_S2000x1_S2000x65536_1_0_n_n_0_1_165536.siIdx (ix2 e f)
        ⟨List.idxOf (0 : Fin 2) gather_S100x65536_S2000x1_S2000x65536_1_0_n_n_0_1_165536.startIndexMap,
          List.idxOf_lt_length_iff.2 List.mem_cons_self⟩ = ix2 e 0 := by
      funext b
      refine Fin.ext ?_
      match b with
      | ⟨0, _⟩ => rfl
      | ⟨1, _⟩ => rfl
    rw [hsi]
    rfl
  have hb0 : gather_S100x65536_S2000x1_S2000x65536_1_0_n_n_0_1_165536.batchCoord (ix2 e f) 0 = 0 := rfl
  have ho0 : gather_S100x65536_S2000x1_S2000x65536_1_0_n_n_0_1_165536.offCoord (ix2 e f) 0 = 0 := rfl
  have hs1 : gather_S100x65536_S2000x1_S2000x65536_1_0_n_n_0_1_165536.start (ix2 e f) idx 1 = 0 := rfl
  have hb1 : gather_S100x65536_S2000x1_S2000x65536_1_0_n_n_0_1_165536.batchCoord (ix2 e f) 1 = 0 := rfl
  have ho1 : gather_S100x65536_S2000x1_S2000x65536_1_0_n_n_0_1_165536.offCoord (ix2 e f) 1 = f.val := rfl
  have h0 := hidx e
  unfold InRange at h0
  unfold Host.gather
  congr 1
  funext a
  refine Fin.ext ?_
  match a with
  | ⟨0, _⟩ =>
    show gather_S100x65536_S2000x1_S2000x65536_1_0_n_n_0_1_165536.start (ix2 e f) idx 0 + gather_S100x65536_S2000x1_S2000x65536_1_0_n_n_0_1_165536.batchCoord (ix2 e f) 0 + gather_S100x65536_S2000x1_S2000x65536_1_0_n_n_0_1_165536.offCoord (ix2 e f) 0
      = (idx (ix2 e 0)).toInt.toNat % 100
    rw [hs, hb0, ho0]; omega
  | ⟨1, _⟩ =>
    show gather_S100x65536_S2000x1_S2000x65536_1_0_n_n_0_1_165536.start (ix2 e f) idx 1 + gather_S100x65536_S2000x1_S2000x65536_1_0_n_n_0_1_165536.batchCoord (ix2 e f) 1 + gather_S100x65536_S2000x1_S2000x65536_1_0_n_n_0_1_165536.offCoord (ix2 e f) 1
      = f.val
    rw [hs1, hb1, ho1]; omega

theorem scatter_rows_resultIdx (idx : IVec S2000x1 32)
    (hidx : ∀ e : Fin 2000, InRange (idx (ix2 e 0))) (e : Fin 2000) (f : Fin 65536) :
    scatter_S100x65536_S2000x1_S2000x65536_1_0_0_1.resultIdx? (ix2 e f) idx = some (ix2 (node (idx (ix2 e 0))) f) := by
  have s0 : scatter_S100x65536_S2000x1_S2000x65536_1_0_0_1.start (ix2 e f) idx 0 = (idx (ix2 e 0)).toInt := by
    unfold ScatterDims.start
    rw [dif_pos (show (0 : Fin 2) ∈ scatter_S100x65536_S2000x1_S2000x65536_1_0_0_1.scatterDimsToOperandDims from List.mem_cons_self)]
    congr 2
    funext b
    refine Fin.ext ?_
    match b with
    | ⟨0, _⟩ => rfl
    | ⟨1, _⟩ => rfl
  have w0 : scatter_S100x65536_S2000x1_S2000x65536_1_0_0_1.window (ix2 e f) 0 = 0 := rfl
  have s1 : scatter_S100x65536_S2000x1_S2000x65536_1_0_0_1.start (ix2 e f) idx 1 = 0 := rfl
  have w1 : scatter_S100x65536_S2000x1_S2000x65536_1_0_0_1.window (ix2 e f) 1 = f.val := rfl
  have h0 := hidx e
  have hf := f.isLt
  unfold InRange at h0
  unfold ScatterDims.resultIdx?
  rw [dif_pos ?_]
  · congr 1
    funext a
    refine Fin.ext ?_
    match a with
    | ⟨0, _⟩ =>
      show (scatter_S100x65536_S2000x1_S2000x65536_1_0_0_1.start (ix2 e f) idx 0 + (scatter_S100x65536_S2000x1_S2000x65536_1_0_0_1.window (ix2 e f) 0 : Int)).toNat
          = (idx (ix2 e 0)).toInt.toNat % 100
      rw [s0, w0]; omega
    | ⟨1, _⟩ =>
      show (scatter_S100x65536_S2000x1_S2000x65536_1_0_0_1.start (ix2 e f) idx 1 + (scatter_S100x65536_S2000x1_S2000x65536_1_0_0_1.window (ix2 e f) 1 : Int)).toNat = f.val
      rw [s1, w1]; omega
  · intro a
    match a with
    | ⟨0, _⟩ =>
      show 0 ≤ scatter_S100x65536_S2000x1_S2000x65536_1_0_0_1.start (ix2 e f) idx 0 + (scatter_S100x65536_S2000x1_S2000x65536_1_0_0_1.window (ix2 e f) 0 : Int) ∧
        scatter_S100x65536_S2000x1_S2000x65536_1_0_0_1.start (ix2 e f) idx 0 + (scatter_S100x65536_S2000x1_S2000x65536_1_0_0_1.window (ix2 e f) 0 : Int) < ((100 : Nat) : Int)
      rw [s0, w0]; omega
    | ⟨1, _⟩ =>
      show 0 ≤ scatter_S100x65536_S2000x1_S2000x65536_1_0_0_1.start (ix2 e f) idx 1 + (scatter_S100x65536_S2000x1_S2000x65536_1_0_0_1.window (ix2 e f) 1 : Int) ∧
        scatter_S100x65536_S2000x1_S2000x65536_1_0_0_1.start (ix2 e f) idx 1 + (scatter_S100x65536_S2000x1_S2000x65536_1_0_0_1.window (ix2 e f) 1 : Int) < ((65536 : Nat) : Int)
      rw [s1, w1]; omega

theorem scatter_rows (x : FVec Ideal S100x65536 .f32) (idx : IVec S2000x1 32)
    (hidx : ∀ e : Fin 2000, InRange (idx (ix2 e 0))) (upd : FVec Ideal S2000x65536 .f32)
    (d : Fin 100) (f : Fin 65536) :
    Host.scatterAdd (F := Ideal) scatter_S100x65536_S2000x1_S2000x65536_1_0_0_1 x idx upd (ix2 d f)
      = x (ix2 d f) + ∑ e ∈ Finset.univ.filter (fun e : Fin 2000 => node (idx (ix2 e 0)) = d),
          upd (ix2 e f) := by
  show x (ix2 d f) + ∑ j ∈ Finset.univ.filter
      (fun j => scatter_S100x65536_S2000x1_S2000x65536_1_0_0_1.resultIdx? j idx = some (ix2 d f)), upd j = _
  refine congrArg (fun t => x (ix2 d f) + t) ?_
  refine sum_filter_idx2 _ _ f (fun e f' => ?_) upd
  rw [scatter_rows_resultIdx idx hidx e f', Option.some.injEq]
  constructor
  · intro h
    exact ⟨by have := congrFun h 0; exact this, by have := congrFun h 1; exact this⟩
  · rintro ⟨h0, h1⟩
    rw [h0, h1]

theorem gather_vec_R (x : FVec Ideal S100 .f32) (idx : IVec S2000x1 32)
    (hidx : ∀ e : Fin 2000, InRange (idx (ix2 e 0))) (e : Fin 2000) :
    Host.gather gather_S100_S2000x1_S2000_n_0_n_n_0_1_1 x idx (ix1 e)
      = x (ix1 (node (idx (ix2 e 0)))) := by
  have hs : gather_S100_S2000x1_S2000_n_0_n_n_0_1_1.start (ix1 e) idx 0
      = min (idx (ix2 e 0)).toInt.toNat (100 - 1) := by
    unfold GatherDims.start
    rw [dif_pos (show (0 : Fin 1) ∈ gather_S100_S2000x1_S2000_n_0_n_n_0_1_1.startIndexMap from
      List.mem_cons_self)]
    have hsi : gather_S100_S2000x1_S2000_n_0_n_n_0_1_1.siIdx (ix1 e)
        ⟨List.idxOf (0 : Fin 1) gather_S100_S2000x1_S2000_n_0_n_n_0_1_1.startIndexMap,
          List.idxOf_lt_length_iff.2 List.mem_cons_self⟩ = ix2 e 0 := by
      funext b
      refine Fin.ext ?_
      match b with
      | ⟨0, _⟩ => rfl
      | ⟨1, _⟩ => rfl
    rw [hsi]
    rfl
  have hb : gather_S100_S2000x1_S2000_n_0_n_n_0_1_1.batchCoord (ix1 e) 0 = 0 := rfl
  have ho : gather_S100_S2000x1_S2000_n_0_n_n_0_1_1.offCoord (ix1 e) 0 = 0 := rfl
  have h0 := hidx e
  unfold InRange at h0
  unfold Host.gather
  congr 1
  funext a
  refine Fin.ext ?_
  match a with
  | ⟨0, _⟩ =>
    show gather_S100_S2000x1_S2000_n_0_n_n_0_1_1.start (ix1 e) idx 0
        + gather_S100_S2000x1_S2000_n_0_n_n_0_1_1.batchCoord (ix1 e) 0
        + gather_S100_S2000x1_S2000_n_0_n_n_0_1_1.offCoord (ix1 e) 0
      = (idx (ix2 e 0)).toInt.toNat % 100
    rw [hs, hb, ho]; omega

theorem scatter_vec_resultIdx_R (idx : IVec S2000x1 32)
    (hidx : ∀ e : Fin 2000, InRange (idx (ix2 e 0))) (e : Fin 2000) :
    scatter_S100_S2000x1_S2000_n_0_0_1.resultIdx? (ix1 e) idx = some (ix1 (node (idx (ix2 e 0)))) := by
  have s0 : scatter_S100_S2000x1_S2000_n_0_0_1.start (ix1 e) idx 0 = (idx (ix2 e 0)).toInt := by
    unfold ScatterDims.start
    rw [dif_pos (show (0 : Fin 1) ∈ scatter_S100_S2000x1_S2000_n_0_0_1.scatterDimsToOperandDims from
      List.mem_cons_self)]
    congr 2
    funext b
    refine Fin.ext ?_
    match b with
    | ⟨0, _⟩ => rfl
    | ⟨1, _⟩ => rfl
  have w0 : scatter_S100_S2000x1_S2000_n_0_0_1.window (ix1 e) 0 = 0 := rfl
  have h0 := hidx e
  unfold InRange at h0
  unfold ScatterDims.resultIdx?
  rw [dif_pos ?_]
  · congr 1
    funext a
    refine Fin.ext ?_
    match a with
    | ⟨0, _⟩ =>
      show (scatter_S100_S2000x1_S2000_n_0_0_1.start (ix1 e) idx 0
        + (scatter_S100_S2000x1_S2000_n_0_0_1.window (ix1 e) 0 : Int)).toNat
          = (idx (ix2 e 0)).toInt.toNat % 100
      rw [s0, w0]; omega
  · intro a
    match a with
    | ⟨0, _⟩ =>
      show 0 ≤ scatter_S100_S2000x1_S2000_n_0_0_1.start (ix1 e) idx 0
          + (scatter_S100_S2000x1_S2000_n_0_0_1.window (ix1 e) 0 : Int) ∧
        scatter_S100_S2000x1_S2000_n_0_0_1.start (ix1 e) idx 0
          + (scatter_S100_S2000x1_S2000_n_0_0_1.window (ix1 e) 0 : Int) < ((100 : Nat) : Int)
      rw [s0, w0]; omega

theorem scatter_vec_R (x : FVec Ideal S100 .f32) (idx : IVec S2000x1 32)
    (hidx : ∀ e : Fin 2000, InRange (idx (ix2 e 0))) (upd : FVec Ideal S2000 .f32) (d : Fin 100) :
    Host.scatterAdd (F := Ideal) scatter_S100_S2000x1_S2000_n_0_0_1 x idx upd (ix1 d)
      = x (ix1 d) + ∑ e ∈ Finset.univ.filter (fun e : Fin 2000 => node (idx (ix2 e 0)) = d),
          upd (ix1 e) := by
  show x (ix1 d) + ∑ j ∈ Finset.univ.filter
      (fun j => scatter_S100_S2000x1_S2000_n_0_0_1.resultIdx? j idx = some (ix1 d)), upd j = _
  refine congrArg (fun t => x (ix1 d) + t) ?_
  refine sum_filter_idx1 _ _ (fun e => ?_) upd
  rw [scatter_vec_resultIdx_R idx hidx e, Option.some.injEq]
  exact ⟨fun h => congrArg (fun i : Fin 100 => i) (by have := congrFun h 0; exact this),
    fun h => by rw [h]⟩

end R

end Cert.SG
-- ==== Proof.HostSpec.lean ====
import proofs.«171431_j27848567947758_1_alg».proof.Proof.FrameKI.Base
import proofs.«171431_j27848567947758_1_alg».proof.Proof.ChebAlgebra
import proofs.«171431_j27848567947758_1_alg».proof.Proof.SGFacts
import proofs.«171431_j27848567947758_1_alg».proof.Proof.LibReal
import Idealize.ShloMosaic.Lib.StableHlo.Run
import Idealize.ShloMosaic.Lib.ValueIdx
import Idealize.ShloMosaic.Lib.Pipeline.Value
import Idealize.ShloMosaic.Lib.StableHlo.Predicate
import Idealize.ShloMosaic.PureOps.Ideal.Laws

set_option maxRecDepth 16384

open scoped BigOperators

noncomputable section
namespace Cert.HostSpec
open Cert.KernelIdeal Cert.KernelIdeal.Gen Cert.KernelIdeal.Fr Idealize.ShloMosaic Idealize.ShloMosaic.TcCoe Idealize.ShloMosaic.ValueIdx Cert.LibReal Cert.SG

def srcW (a1 : IVec S2x2000 32) : IVec S2000 32 :=
  shapeCast S2000 (extractStridedSlice S1x2000 ![0, 0] a1 slices_S2x2000_S1x2000_0_0) shapeCasts_S1x2000_S2000

def dstW (a1 : IVec S2x2000 32) : IVec S2000 32 :=
  shapeCast S2000 (extractStridedSlice S1x2000 ![1, 0] a1 slices_S2x2000_S1x2000_1_0) shapeCasts_S1x2000_S2000

def wrapIdx (w : IVec S2000 32) : IVec S2000 32 :=
  select (cmpi .slt w (broadcastInDim S2000 ![] bcast_S_S2000 (constantI S_ 32 0#32)))
    (addi w (broadcastInDim S2000 ![] bcast_S_S2000 (constantI S_ 32 100#32))) w

def degOf (a1 : IVec S2x2000 32) : FVec Ideal S100 .f32 :=
  Host.scatterAdd scatter_S100_S2000x1_S2000_n_0_0_1
    (broadcastInDim S100 ![] bcast_S_S100 (constant S_ .f32 0x00000000#32))
    (broadcastInDim S2000x1 ![0] bcast_S2000_S2000x1_0 (srcW a1))
    (broadcastInDim S2000 ![] bcast_S_S2000 (constant S_ .f32 0x3F800000#32))

def disOf (a1 : IVec S2x2000 32) : FVec Ideal S100 .f32 :=
  select (cmpf .ogt (degOf a1) (broadcastInDim S100 ![] bcast_S_S100 (constant S_ .f32 0x00000000#32)))
    (Host.rsqrt (select (cmpf .ogt (degOf a1) (broadcastInDim S100 ![] bcast_S_S100 (constant S_ .f32 0x00000000#32)))
      (degOf a1) (broadcastInDim S100 ![] bcast_S_S100 (constant S_ .f32 0x3F800000#32))))
    (broadcastInDim S100 ![] bcast_S_S100 (constant S_ .f32 0x00000000#32))

def normOf (a1 : IVec S2x2000 32) : FVec Ideal S2000 .f32 :=
  Host.negf (mulf
    (Host.gather gather_S100_S2000x1_S2000_n_0_n_n_0_1_1 (disOf a1)
      (broadcastInDim S2000x1 ![0] bcast_S2000_S2000x1_0 (wrapIdx (srcW a1))))
    (Host.gather gather_S100_S2000x1_S2000_n_0_n_n_0_1_1 (disOf a1)
      (broadcastInDim S2000x1 ![0] bcast_S2000_S2000x1_0 (wrapIdx (dstW a1)))))

def pairIdx (a1 : IVec S2x2000 32) : IVec S2000x2 32 :=
  concatenate S2000x2 1
    [⟨S2000x1, broadcastInDim S2000x1 ![0] bcast_S2000_S2000x1_0 (wrapIdx (dstW a1))⟩,
     ⟨S2000x1, broadcastInDim S2000x1 ![0] bcast_S2000_S2000x1_0 (wrapIdx (srcW a1))⟩]
    concatenates_S2000x1_S2000x1_S2000x2_d1

def lhatOf (a1 : IVec S2x2000 32) : FVec Ideal S100x100 .f32 :=
  Host.scatterAdd scatter_S100x100_S2000x2_S2000_n_01_01_1
    (broadcastInDim S100x100 ![] bcast_S_S100x100 (constant S_ .f32 0x00000000#32))
    (pairIdx a1) (normOf a1)

set_option maxHeartbeats 8000000 in

theorem V_main_v45 (m : (ℓ : Loc nD τ sig) → Buf (Elt Ideal) ℓ) (c : Dev nD) :
    V (F := Ideal) m c main_v45 = lhatOf (m ((c : Thread nD τ).loc main_arg1)) := by
  dsimp only [V, V0]
  simp only [hostOps0, hostOps0_1, hostOps0_2, hostOps0_3, hostOps0_4, List.flatten_cons, List.flatten_nil, List.append_nil, List.cons_append, List.nil_append]
  after_results_simp
  rfl

theorem srcW_apply (a1 : IVec S2x2000 32) (e : Fin 2000) : srcW a1 (ix1 e) = a1 (ix2 (0 : Fin 2) e) := by
  unfold srcW
  refine (shapeCast_apply _ shapeCasts_S1x2000_S2000 (ix1 e) (ix2 (0 : Fin 1) e) ?_).trans ?_
  · rw [Shape.rowMajor_val_two, Shape.rowMajor_val_one]
    show (0 : Nat) * 2000 + e.val = e.val
    omega
  · refine extractStridedSlice_apply _ _ _ _ (ix2 (0 : Fin 2) e) fun a => ?_
    match a with
    | ⟨0, _⟩ => rfl
    | ⟨1, _⟩ => show e.val = 0 + e.val; omega

theorem dstW_apply (a1 : IVec S2x2000 32) (e : Fin 2000) : dstW a1 (ix1 e) = a1 (ix2 (1 : Fin 2) e) := by
  unfold dstW
  refine (shapeCast_apply _ shapeCasts_S1x2000_S2000 (ix1 e) (ix2 (0 : Fin 1) e) ?_).trans ?_
  · rw [Shape.rowMajor_val_two, Shape.rowMajor_val_one]
    show (0 : Nat) * 2000 + e.val = e.val
    omega
  · refine extractStridedSlice_apply _ _ _ _ (ix2 (1 : Fin 2) e) fun a => ?_
    match a with
    | ⟨0, _⟩ => rfl
    | ⟨1, _⟩ => show e.val = 0 + e.val; omega

theorem wrapIdx_apply (w : IVec S2000 32) (e : Fin 2000) (h : InRange (w (ix1 e))) : wrapIdx w (ix1 e) = w (ix1 e) := by
  have hlt : (w (ix1 e)).slt 0#32 = false := by
    simp only [BitVec.slt, BitVec.toInt_zero, decide_eq_false_iff_not, Int.not_lt]
    exact h.1
  show (if BitVec.ofBool ((w (ix1 e)).slt 0#32) = 1 then _ else _) = _
  rw [hlt]
  rfl

def srcN (a1 : IVec S2x2000 32) (e : Fin 2000) : Fin 100 := node (a1 (ix2 (0 : Fin 2) e))

def dstN (a1 : IVec S2x2000 32) (e : Fin 2000) : Fin 100 := node (a1 (ix2 (1 : Fin 2) e))

theorem col_apply {α : Type} (v : S2000.Idx → α) (e : Fin 2000) :
    broadcastInDim S2000x1 ![0] bcast_S2000_S2000x1_0 v (ix2 e (0 : Fin 1)) = v (ix1 e) := by
  refine broadcastInDim_apply _ _ _ _ (ix1 e) fun a => ?_
  match a with
  | ⟨0, _⟩ => rfl

theorem wsrc_apply (a1 : IVec S2x2000 32) (h : ∀ i, InRange (a1 i)) (e : Fin 2000) :
    wrapIdx (srcW a1) (ix1 e) = a1 (ix2 (0 : Fin 2) e) := by
  rw [wrapIdx_apply _ _ (by rw [srcW_apply]; exact h _), srcW_apply]

theorem wdst_apply (a1 : IVec S2x2000 32) (h : ∀ i, InRange (a1 i)) (e : Fin 2000) :
    wrapIdx (dstW a1) (ix1 e) = a1 (ix2 (1 : Fin 2) e) := by
  rw [wrapIdx_apply _ _ (by rw [dstW_apply]; exact h _), dstW_apply]

theorem ofBits_one_f32 : Ideal.ofBits .f32 0x3F800000#32 = 1 := by
  have hneg : ((0x3F800000#32 : BitVec 32).extractLsb' (8 + 23) 1 == 1#1) = false := by decide
  have hex : ((0x3F800000#32 : BitVec 32).extractLsb' 23 8).toNat = 127 := by decide
  have hfr : ((0x3F800000#32 : BitVec 32).extractLsb' 0 23).toNat = 0 := by decide
  show Ideal.ieee 8 23 (0x3F800000#32 : BitVec 32) = 1
  unfold Ideal.ieee
  simp only [hneg, hex, hfr]
  norm_num

theorem degOf_isReal (a1 : IVec S2x2000 32) (i : S100.Idx) : IsReal (degOf a1 i) := by
  unfold degOf
  refine scatterAdd_isReal _ _ _ _ (fun i => ?_) (fun j => ?_) i
  · show IsReal (Ideal.ofBits .f32 0x00000000#32)
    rw [Ideal.ofBits_zero_f32]; exact IsReal.zero
  · show IsReal (Ideal.ofBits .f32 0x3F800000#32)
    rw [ofBits_one_f32]; exact IsReal.one

theorem disOf_isReal (a1 : IVec S2x2000 32) (i : S100.Idx) : IsReal (disOf a1 i) := by
  obtain ⟨r, hr⟩ := degOf_isReal a1 i
  show IsReal (Scalar.select (Ideal.cmp .ogt (degOf a1 i) (Ideal.ofBits .f32 0x00000000#32))
    (Ideal.rsqrt (Scalar.select (Ideal.cmp .ogt (degOf a1 i) (Ideal.ofBits .f32 0x00000000#32)) (degOf a1 i)
      (Ideal.ofBits .f32 0x3F800000#32))) (Ideal.ofBits .f32 0x00000000#32))
  rw [hr, Ideal.ofBits_zero_f32]
  by_cases h : (0 : EReal) < (r : EReal)
  · have hc : Ideal.cmp .ogt (r : EReal) 0 = 1#1 := by simp [Ideal.cmp, h]
    rw [hc, select_one, select_one]
    have hr0 : (0 : ℝ) < r := by exact_mod_cast h
    rw [Ideal.rsqrt_coe, if_neg (not_lt.2 hr0.le), if_neg hr0.ne']
    exact IsReal.coe _
  · have hc : Ideal.cmp .ogt (r : EReal) 0 = 0#1 := by simp [Ideal.cmp, h]
    rw [hc, select_zero]; exact IsReal.zero

theorem normOf_apply (a1 : IVec S2x2000 32) (h : ∀ i, InRange (a1 i)) (e : Fin 2000) :
    normOf a1 (ix1 e) = -(disOf a1 (ix1 (srcN a1 e)) * disOf a1 (ix1 (dstN a1 e))) := by
  show -(Host.gather gather_S100_S2000x1_S2000_n_0_n_n_0_1_1 (disOf a1)
        (broadcastInDim S2000x1 ![0] bcast_S2000_S2000x1_0 (wrapIdx (srcW a1))) (ix1 e)
      * Host.gather gather_S100_S2000x1_S2000_n_0_n_n_0_1_1 (disOf a1)
        (broadcastInDim S2000x1 ![0] bcast_S2000_S2000x1_0 (wrapIdx (dstW a1))) (ix1 e)) = _
  rw [gather_vec_K _ _ (fun e => by rw [col_apply, wsrc_apply a1 h]; exact h _) e,
    gather_vec_K _ _ (fun e => by rw [col_apply, wdst_apply a1 h]; exact h _) e,
    col_apply, col_apply, wsrc_apply a1 h, wdst_apply a1 h]
  rfl

theorem normOf_isReal (a1 : IVec S2x2000 32) (h : ∀ i, InRange (a1 i)) (e : Fin 2000) : IsReal (normOf a1 (ix1 e)) := by
  rw [normOf_apply a1 h e]
  exact IsReal.neg (IsReal.mul (disOf_isReal _ _) (disOf_isReal _ _))

theorem pairIdx_col0 (a1 : IVec S2x2000 32) (h : ∀ i, InRange (a1 i)) (e : Fin 2000) :
    pairIdx a1 (ix2 e (0 : Fin 2)) = a1 (ix2 (1 : Fin 2) e) := by
  unfold pairIdx
  refine (concatenate_pair_apply_left (t := S2000x2) (s₁ := S2000x1) (s₂ := S2000x1) _ _ _ _ (ix2 e (0 : Fin 2)) rfl (ix2 e (0 : Fin 1)) fun b => ?_).trans ?_
  · match b with
    | ⟨0, _⟩ => rfl
    | ⟨1, _⟩ => rfl
  · rw [col_apply, wdst_apply a1 h]

theorem pairIdx_col1 (a1 : IVec S2x2000 32) (h : ∀ i, InRange (a1 i)) (e : Fin 2000) :
    pairIdx a1 (ix2 e (1 : Fin 2)) = a1 (ix2 (0 : Fin 2) e) := by
  unfold pairIdx
  refine (concatenate_pair_apply_right (t := S2000x2) (s₁ := S2000x1) (s₂ := S2000x1) _ _ _ _ (ix2 e (1 : Fin 2)) rfl rfl (ix2 e (0 : Fin 1)) (fun b hb => ?_) ?_).trans ?_
  · match b with
    | ⟨0, _⟩ => rfl
    | ⟨1, _⟩ => exact absurd rfl hb
  · rfl
  · rw [col_apply, wsrc_apply a1 h]

theorem lhatOf_apply (a1 : IVec S2x2000 32) (h : ∀ i, InRange (a1 i)) (d s : Fin 100) :
    lhatOf a1 (ix2 d s) = Cert.Cheb.lhat (srcN a1) (dstN a1) (fun e => normOf a1 (ix1 e)) d s := by
  unfold lhatOf
  rw [lhat_apply _ _ (fun e k => by
    match k with
    | ⟨0, _⟩ => show InRange (pairIdx a1 (ix2 e (0 : Fin 2))); rw [pairIdx_col0 a1 h]; exact h _
    | ⟨1, _⟩ => show InRange (pairIdx a1 (ix2 e (1 : Fin 2))); rw [pairIdx_col1 a1 h]; exact h _) _ d s]
  have hz : broadcastInDim S100x100 ![] bcast_S_S100x100 (constant (F := Ideal) S_ .f32 0x00000000#32) (ix2 d s) = 0 :=
    Ideal.ofBits_zero_f32
  rw [hz, zero_add]
  unfold Cert.Cheb.lhat
  refine Finset.sum_congr (Finset.filter_congr fun e _ => ?_) (fun _ _ => rfl)
  rw [pairIdx_col0 a1 h e, pairIdx_col1 a1 h e]
  rfl

end Cert.HostSpec
-- ==== Proof.KAccum.lean ====
import proofs.«171431_j27848567947758_1_alg».proof.Proof.FrameKI.Frame
import proofs.«171431_j27848567947758_1_alg».proof.Proof.FrameKI.Pieces
import proofs.«171431_j27848567947758_1_alg».proof.Proof.KPay
import proofs.«171431_j27848567947758_1_alg».proof.Proof.KBlocks
import proofs.«171431_j27848567947758_1_alg».proof.Proof.ChebAlgebra
import proofs.«171431_j27848567947758_1_alg».proof.Proof.Glue
import proofs.«171431_j27848567947758_1_alg».proof.Proof.HostSpec
import proofs.«171431_j27848567947758_1_alg».proof.Proof.SGFacts
import Idealize.ShloMosaic.Lib.ValueIdx

noncomputable section

open scoped BigOperators

namespace Cert.KernelIdeal.Val

open Cert.KernelIdeal Cert.KernelIdeal.Gen Cert.KernelIdeal.Fr Idealize.ShloMosaic Idealize.ShloMosaic.ValueIdx
open Idealize.ShloMosaic.TcCoe

variable (m : (ℓ : Loc nD τ sig) → Buf (Elt Ideal) ℓ) (c : Dev nD)

def partA (d : Fin 100) (o : Fin 60) (k : ℕ) : EReal :=
  if h : k < cfg0.N then tPart (blk0 m c ⟨k, h⟩) (blk1 m c ⟨k, h⟩) (blk2 m c ⟨k, h⟩) d o else 0

def partC (d : Fin 100) (o : Fin 60) (k : ℕ) : EReal :=
  if h : k < cfg0.N then tPart (blk0 m c ⟨k, h⟩) (blk1 m c ⟨k, h⟩) (blk3 m c ⟨k, h⟩) d o else 0

theorem partA_pos (d : Fin 100) (o : Fin 60) (k : ℕ) (h : k < cfg0.N) :
    partA m c d o k = tPart (blk0 m c ⟨k, h⟩) (blk1 m c ⟨k, h⟩) (blk2 m c ⟨k, h⟩) d o := dif_pos h

theorem partC_pos (d : Fin 100) (o : Fin 60) (k : ℕ) (h : k < cfg0.N) :
    partC m c d o k = tPart (blk0 m c ⟨k, h⟩) (blk1 m c ⟨k, h⟩) (blk3 m c ⟨k, h⟩) d o := dif_pos h

theorem s0_first (t : Fin cfg0.N) (h0 : t.val % 16 = 0) (h1 : ¬t.val % 16 = 15) :
    (outsAt0 (F := Ideal) m c t.val t.isLt).2.2.1 = stepA (blk0 m c t) (blk1 m c t) (blk2 m c t) (k0_pay5 (F := Ideal)) := by
  rw [outsAt0_A m c t h0 h1]
  unfold outs_A
  dsimp only
  exact sout0_A_0_eq (F := Ideal) c _ _ _ _ _ _ _ _ _ _ _ _ _ _ _ _ _ _ _ _ _ _ _ _ _ _ _ _ _

theorem s1_first (t : Fin cfg0.N) (h0 : t.val % 16 = 0) (h1 : ¬t.val % 16 = 15) :
    (outsAt0 (F := Ideal) m c t.val t.isLt).2.2.2 = stepC (blk0 m c t) (blk1 m c t) (blk3 m c t) (k0_pay6 (F := Ideal)) := by
  rw [outsAt0_A m c t h0 h1]
  unfold outs_A
  dsimp only
  exact sout0_A_1_eq (F := Ideal) c _ _ _ _ _ _ _ _ _ _ _ _ _ _ _ _ _ _ _ _ _ _ _ _ _ _ _ _ _

theorem s0_mid (t : Fin cfg0.N) (h0 : ¬t.val % 16 = 0) (h1 : ¬t.val % 16 = 15) :
    (outsAt0 (F := Ideal) m c t.val t.isLt).2.2.1 = stepA (blk0 m c t) (blk1 m c t) (blk2 m c t) (outsAt0 (F := Ideal) m c (t.val - 1) (Nat.lt_of_le_of_lt (Nat.sub_le _ _) t.isLt)).2.2.1 := by
  rw [outsAt0_B m c t h0 h1]
  unfold outs_B
  dsimp only
  exact sout0_B_0_eq (F := Ideal) c _ _ _ _ _ _ _ _ _ _ _ _ _ _ _ _ _ _ _ _ _ _ _ _ _ _ _ _ _ _ _

theorem s1_mid (t : Fin cfg0.N) (h0 : ¬t.val % 16 = 0) (h1 : ¬t.val % 16 = 15) :
    (outsAt0 (F := Ideal) m c t.val t.isLt).2.2.2 = stepC (blk0 m c t) (blk1 m c t) (blk3 m c t) (outsAt0 (F := Ideal) m c (t.val - 1) (Nat.lt_of_le_of_lt (Nat.sub_le _ _) t.isLt)).2.2.2 := by
  rw [outsAt0_B m c t h0 h1]
  unfold outs_B
  dsimp only
  exact sout0_B_1_eq (F := Ideal) c _ _ _ _ _ _ _ _ _ _ _ _ _ _ _ _ _ _ _ _ _ _ _ _ _ _ _ _ _ _ _

theorem s0_last (t : Fin cfg0.N) (h0 : ¬t.val % 16 = 0) (h1 : t.val % 16 = 15) :
    (outsAt0 (F := Ideal) m c t.val t.isLt).2.2.1 = stepA (blk0 m c t) (blk1 m c t) (blk2 m c t) (outsAt0 (F := Ideal) m c (t.val - 1) (Nat.lt_of_le_of_lt (Nat.sub_le _ _) t.isLt)).2.2.1 := by
  rw [outsAt0_C m c t h0 h1]
  unfold outs_C
  dsimp only
  exact sout0_C_0_eq (F := Ideal) c _ _ _ _ _ _ _ _ _ _ _ _ _ _ _ _ _ _ _ _ _ _ _ _ _ _ _ _ _ _ _

theorem s1_last (t : Fin cfg0.N) (h0 : ¬t.val % 16 = 0) (h1 : t.val % 16 = 15) :
    (outsAt0 (F := Ideal) m c t.val t.isLt).2.2.2 = stepC (blk0 m c t) (blk1 m c t) (blk3 m c t) (outsAt0 (F := Ideal) m c (t.val - 1) (Nat.lt_of_le_of_lt (Nat.sub_le _ _) t.isLt)).2.2.2 := by
  rw [outsAt0_C m c t h0 h1]
  unfold outs_C
  dsimp only
  exact sout0_C_1_eq (F := Ideal) c _ _ _ _ _ _ _ _ _ _ _ _ _ _ _ _ _ _ _ _ _ _ _ _ _ _ _ _ _ _ _

theorem o6_last (t : Fin cfg0.N) (h0 : ¬t.val % 16 = 0) (h1 : t.val % 16 = 15) :
    (outsAt0 (F := Ideal) m c t.val t.isLt).1 = k0_pay3 (F := Ideal) (stepA (blk0 m c t) (blk1 m c t) (blk2 m c t) (outsAt0 (F := Ideal) m c (t.val - 1) (Nat.lt_of_le_of_lt (Nat.sub_le _ _) t.isLt)).2.2.1) (blk4 m c t) := by
  rw [outsAt0_C m c t h0 h1]
  unfold outs_C
  dsimp only
  exact out0_C_6_eq (F := Ideal) c _ _ _ _ _ _ _ _ _ _ _ _ _ _ _ _ _ _ _ _ _ _ _ _ _ _ _ _ _ _ _

theorem o7_last (t : Fin cfg0.N) (h0 : ¬t.val % 16 = 0) (h1 : t.val % 16 = 15) :
    (outsAt0 (F := Ideal) m c t.val t.isLt).2.1 = k0_pay4 (F := Ideal) (stepC (blk0 m c t) (blk1 m c t) (blk3 m c t) (outsAt0 (F := Ideal) m c (t.val - 1) (Nat.lt_of_le_of_lt (Nat.sub_le _ _) t.isLt)).2.2.2) (blk5 m c t) := by
  rw [outsAt0_C m c t h0 h1]
  unfold outs_C
  dsimp only
  exact out0_C_7_eq (F := Ideal) c _ _ _ _ _ _ _ _ _ _ _ _ _ _ _ _ _ _ _ _ _ _ _ _ _ _ _ _ _ _ _

theorem s0_succ (n : ℕ) (hn : n + 1 < cfg0.N) :
    (outsAt0 (F := Ideal) m c (n + 1) hn).2.2.1
      = stepA (blk0 m c ⟨n + 1, hn⟩) (blk1 m c ⟨n + 1, hn⟩) (blk2 m c ⟨n + 1, hn⟩) (outsAt0 (F := Ideal) m c n (Nat.lt_of_succ_lt hn)).2.2.1 := by
  have h16 : n + 1 < 16 := lt_of_lt_of_eq hn N_0
  have h0 : ¬(⟨n + 1, hn⟩ : Fin cfg0.N).val % 16 = 0 := by show ¬(n + 1) % 16 = 0; omega
  by_cases h1 : (⟨n + 1, hn⟩ : Fin cfg0.N).val % 16 = 15
  · exact s0_last m c ⟨n + 1, hn⟩ h0 h1
  · exact s0_mid m c ⟨n + 1, hn⟩ h0 h1

theorem s1_succ (n : ℕ) (hn : n + 1 < cfg0.N) :
    (outsAt0 (F := Ideal) m c (n + 1) hn).2.2.2
      = stepC (blk0 m c ⟨n + 1, hn⟩) (blk1 m c ⟨n + 1, hn⟩) (blk3 m c ⟨n + 1, hn⟩) (outsAt0 (F := Ideal) m c n (Nat.lt_of_succ_lt hn)).2.2.2 := by
  have h16 : n + 1 < 16 := lt_of_lt_of_eq hn N_0
  have h0 : ¬(⟨n + 1, hn⟩ : Fin cfg0.N).val % 16 = 0 := by show ¬(n + 1) % 16 = 0; omega
  by_cases h1 : (⟨n + 1, hn⟩ : Fin cfg0.N).val % 16 = 15
  · exact s1_last m c ⟨n + 1, hn⟩ h0 h1
  · exact s1_mid m c ⟨n + 1, hn⟩ h0 h1

theorem scratch0_aux (d : Fin 100) (o : Fin 60) (n : ℕ) : ∀ hn : n < cfg0.N,
    (outsAt0 (F := Ideal) m c n hn).2.2.1 (ix2 d o) = Cert.Cheb.accN (partA m c d o) n := by
  induction n with
  | zero =>
    intro hn
    have h := s0_first m c ⟨0, hn⟩ (by show 0 % 16 = 0; rfl) (by show ¬0 % 16 = 15; omega)
    refine (congrFun h (ix2 d o)).trans ?_
    rw [stepA_apply, zeroA_apply]
    show _ = 0 + partA m c d o 0
    rw [partA_pos m c d o _ hn]
  | succ n ih =>
    intro hn
    refine (congrFun (s0_succ m c n hn) (ix2 d o)).trans ?_
    rw [stepA_apply, ih (Nat.lt_of_succ_lt hn)]
    show _ = Cert.Cheb.accN (partA m c d o) n + partA m c d o (n + 1)
    rw [partA_pos m c d o _ hn]

theorem scratch1_aux (d : Fin 100) (o : Fin 60) (n : ℕ) : ∀ hn : n < cfg0.N,
    (outsAt0 (F := Ideal) m c n hn).2.2.2 (ix2 d o) = Cert.Cheb.accN (partC m c d o) n := by
  induction n with
  | zero =>
    intro hn
    have h := s1_first m c ⟨0, hn⟩ (by show 0 % 16 = 0; rfl) (by show ¬0 % 16 = 15; omega)
    refine (congrFun h (ix2 d o)).trans ?_
    rw [stepC_apply, zeroC_apply]
    show _ = 0 + partC m c d o 0
    rw [partC_pos m c d o _ hn]
  | succ n ih =>
    intro hn
    refine (congrFun (s1_succ m c n hn) (ix2 d o)).trans ?_
    rw [stepC_apply, ih (Nat.lt_of_succ_lt hn)]
    show _ = Cert.Cheb.accN (partC m c d o) n + partC m c d o (n + 1)
    rw [partC_pos m c d o _ hn]

theorem scratch0_apply (n : ℕ) (hn : n < cfg0.N) (d : Fin 100) (o : Fin 60) :
    (outsAt0 (F := Ideal) m c n hn).2.2.1 (ix2 d o) = Cert.Cheb.accN (partA m c d o) n :=
  scratch0_aux m c d o n hn

theorem scratch1_apply (n : ℕ) (hn : n < cfg0.N) (d : Fin 100) (o : Fin 60) :
    (outsAt0 (F := Ideal) m c n hn).2.2.2 (ix2 d o) = Cert.Cheb.accN (partC m c d o) n :=
  scratch1_aux m c d o n hn

theorem two_eq : Val.two = Cert.Glue.two := rfl

theorem tPart_of_entries (x0 : Vec Ideal S100x100 .f32) (x1 : Vec Ideal S1x100x4096 .f32) (w : Vec Ideal S3x4096x60 .f32)
    (L : Fin 100 → Fin 100 → EReal) (X : Fin 100 → Fin 4096 → EReal) (W : Fin 3 → Fin 4096 → Fin 60 → EReal)
    (hL : ∀ d s, x0 (ix2 d s) = L d s) (hX : ∀ d j, x1 (ix3 (0 : Fin 1) d j) = X d j) (hW : ∀ q j o, w (ix3 q j o) = W q j o)
    (d : Fin 100) (o : Fin 60) :
    tPart x0 x1 w d o
      = ((∑ j : Fin 4096, X d j * W 0 j o) + (∑ j : Fin 4096, (∑ s : Fin 100, L d s * X s j) * W 1 j o))
        + (∑ j : Fin 4096, (Cert.Glue.two * (∑ s : Fin 100, L d s * (∑ s' : Fin 100, L s s' * X s' j)) - X d j) * W 2 j o) := by
  have h1 : ∀ d j, tT1 x0 x1 d j = ∑ s : Fin 100, L d s * X s j := fun d j => by
    unfold tT1
    exact Finset.sum_congr rfl fun s _ => by rw [hL, hX]
  have h2 : ∀ d j, tT2 x0 x1 d j = Cert.Glue.two * (∑ s : Fin 100, L d s * (∑ s' : Fin 100, L s s' * X s' j)) - X d j := fun d j => by
    unfold tT2
    have hs : (∑ s : Fin 100, x0 (ix2 d s) * tT1 x0 x1 s j) = ∑ s : Fin 100, L d s * (∑ s' : Fin 100, L s s' * X s' j) :=
      Finset.sum_congr rfl fun s _ => by rw [hL, h1]
    rw [hs, hX, two_eq]
  unfold tPart
  have e0 : (∑ j : Fin 4096, x1 (ix3 (0 : Fin 1) d j) * w (ix3 (0 : Fin 3) j o)) = ∑ j : Fin 4096, X d j * W 0 j o :=
    Finset.sum_congr rfl fun j _ => by rw [hX, hW]
  have e1 : (∑ j : Fin 4096, tT1 x0 x1 d j * w (ix3 (1 : Fin 3) j o)) = ∑ j : Fin 4096, (∑ s : Fin 100, L d s * X s j) * W 1 j o :=
    Finset.sum_congr rfl fun j _ => by rw [h1, hW]
  have e2 : (∑ j : Fin 4096, tT2 x0 x1 d j * w (ix3 (2 : Fin 3) j o))
      = ∑ j : Fin 4096, (Cert.Glue.two * (∑ s : Fin 100, L d s * (∑ s' : Fin 100, L s s' * X s' j)) - X d j) * W 2 j o :=
    Finset.sum_congr rfl fun j _ => by rw [h2, hW]
  rw [e0, e1, e2]

theorem blk0_lhat (hidx : ∀ i, Cert.SG.InRange ((m ((c : Thread nD τ).loc main_arg1) : IVec S2x2000 32) i)) (t : Fin cfg0.N) (d s : Fin 100) :
    blk0 m c t (ix2 d s) = Cert.Cheb.lhat (Cert.HostSpec.srcN (m ((c : Thread nD τ).loc main_arg1))) (Cert.HostSpec.dstN (m ((c : Thread nD τ).loc main_arg1)))
      (fun e => Cert.HostSpec.normOf (m ((c : Thread nD τ).loc main_arg1)) (ix1 e)) d s := by
  refine (blk0_apply m c t d s).trans ?_
  rw [Cert.HostSpec.V_main_v45 m c]
  exact Cert.HostSpec.lhatOf_apply _ hidx d s

theorem blk1_Xf (k : Fin 16) (hk : k.val < cfg0.N) (d : Fin 100) (j : Fin 4096) :
    blk1 m c ⟨k.val, hk⟩ (ix3 (0 : Fin 1) d j) = Cert.Glue.Xf (m ((c : Thread nD τ).loc main_arg0)) d (Cert.Cheb.tileIdx k j) := by
  refine (blk1_apply m c ⟨k.val, hk⟩ d j).trans ?_
  rw [V_main_arg0 m c]
  rfl

theorem blk2_Wf (k : Fin 16) (hk : k.val < cfg0.N) (q : Fin 3) (j : Fin 4096) (o : Fin 60) :
    blk2 m c ⟨k.val, hk⟩ (ix3 q j o) = Cert.Glue.Wf (m ((c : Thread nD τ).loc main_arg5)) q (Cert.Cheb.tileIdx k j) o := by
  refine (blk2_apply m c ⟨k.val, hk⟩ q j o).trans ?_
  rw [V_main_arg5 m c]
  rfl

theorem blk3_Wf (k : Fin 16) (hk : k.val < cfg0.N) (q : Fin 3) (j : Fin 4096) (o : Fin 60) :
    blk3 m c ⟨k.val, hk⟩ (ix3 q j o) = Cert.Glue.Wf (m ((c : Thread nD τ).loc main_arg7)) q (Cert.Cheb.tileIdx k j) o := by
  refine (blk3_apply m c ⟨k.val, hk⟩ q j o).trans ?_
  rw [V_main_arg7 m c]
  rfl

theorem partA_eq (hidx : ∀ i, Cert.SG.InRange ((m ((c : Thread nD τ).loc main_arg1) : IVec S2x2000 32) i)) (d : Fin 100) (o : Fin 60) (k : Fin 16) :
    partA m c d o k.val = Cert.Cheb.kPart (Cert.HostSpec.srcN (m ((c : Thread nD τ).loc main_arg1))) (Cert.HostSpec.dstN (m ((c : Thread nD τ).loc main_arg1)))
      (fun e => Cert.HostSpec.normOf (m ((c : Thread nD τ).loc main_arg1)) (ix1 e)) (Cert.Glue.Xf (m ((c : Thread nD τ).loc main_arg0)))
      (Cert.Glue.Wf (m ((c : Thread nD τ).loc main_arg5)) 0) (Cert.Glue.Wf (m ((c : Thread nD τ).loc main_arg5)) 1) (Cert.Glue.Wf (m ((c : Thread nD τ).loc main_arg5)) 2) Cert.Glue.two k d o := by
  have hk : k.val < cfg0.N := lt_of_lt_of_eq k.isLt N_0.symm
  rw [partA_pos m c d o _ hk]
  exact tPart_of_entries (blk0 m c ⟨k.val, hk⟩) (blk1 m c ⟨k.val, hk⟩) (blk2 m c ⟨k.val, hk⟩)
    (Cert.Cheb.lhat (Cert.HostSpec.srcN (m ((c : Thread nD τ).loc main_arg1))) (Cert.HostSpec.dstN (m ((c : Thread nD τ).loc main_arg1))) (fun e => Cert.HostSpec.normOf (m ((c : Thread nD τ).loc main_arg1)) (ix1 e)))
    (fun d j => Cert.Glue.Xf (m ((c : Thread nD τ).loc main_arg0)) d (Cert.Cheb.tileIdx k j))
    (fun q j o => Cert.Glue.Wf (m ((c : Thread nD τ).loc main_arg5)) q (Cert.Cheb.tileIdx k j) o)
    (blk0_lhat m c hidx ⟨k.val, hk⟩) (blk1_Xf m c k hk) (blk2_Wf m c k hk) d o

theorem partC_eq (hidx : ∀ i, Cert.SG.InRange ((m ((c : Thread nD τ).loc main_arg1) : IVec S2x2000 32) i)) (d : Fin 100) (o : Fin 60) (k : Fin 16) :
    partC m c d o k.val = Cert.Cheb.kPart (Cert.HostSpec.srcN (m ((c : Thread nD τ).loc main_arg1))) (Cert.HostSpec.dstN (m ((c : Thread nD τ).loc main_arg1)))
      (fun e => Cert.HostSpec.normOf (m ((c : Thread nD τ).loc main_arg1)) (ix1 e)) (Cert.Glue.Xf (m ((c : Thread nD τ).loc main_arg0)))
      (Cert.Glue.Wf (m ((c : Thread nD τ).loc main_arg7)) 0) (Cert.Glue.Wf (m ((c : Thread nD τ).loc main_arg7)) 1) (Cert.Glue.Wf (m ((c : Thread nD τ).loc main_arg7)) 2) Cert.Glue.two k d o := by
  have hk : k.val < cfg0.N := lt_of_lt_of_eq k.isLt N_0.symm
  rw [partC_pos m c d o _ hk]
  exact tPart_of_entries (blk0 m c ⟨k.val, hk⟩) (blk1 m c ⟨k.val, hk⟩) (blk3 m c ⟨k.val, hk⟩)
    (Cert.Cheb.lhat (Cert.HostSpec.srcN (m ((c : Thread nD τ).loc main_arg1))) (Cert.HostSpec.dstN (m ((c : Thread nD τ).loc main_arg1))) (fun e => Cert.HostSpec.normOf (m ((c : Thread nD τ).loc main_arg1)) (ix1 e)))
    (fun d j => Cert.Glue.Xf (m ((c : Thread nD τ).loc main_arg0)) d (Cert.Cheb.tileIdx k j))
    (fun q j o => Cert.Glue.Wf (m ((c : Thread nD τ).loc main_arg7)) q (Cert.Cheb.tileIdx k j) o)
    (blk0_lhat m c hidx ⟨k.val, hk⟩) (blk1_Xf m c k hk) (blk3_Wf m c k hk) d o

theorem out6_at (t : Fin cfg0.N) (h1 : t.val % 16 = 15) (d : Fin 100) (o : Fin 60) :
    (outsAt0 (F := Ideal) m c t.val t.isLt).1 (ix2 d o)
      = Ideal.tanh (Cert.Cheb.accN (partA m c d o) t.val + blk4 m c t (ix1 o)) := by
  have h0 : ¬t.val % 16 = 0 := by omega
  have ho := o6_last m c t h0 h1
  have hs := s0_last m c t h0 h1
  have e : stepA (blk0 m c t) (blk1 m c t) (blk2 m c t) (outsAt0 (F := Ideal) m c (t.val - 1) (Nat.lt_of_le_of_lt (Nat.sub_le _ _) t.isLt)).2.2.1 (ix2 d o) = Cert.Cheb.accN (partA m c d o) t.val :=
    (congrFun hs (ix2 d o)).symm.trans (scratch0_apply m c t.val t.isLt d o)
  refine (congrFun ho (ix2 d o)).trans ?_
  refine (outA_apply _ _ d o).trans ?_
  rw [e]

theorem out6_apply (hidx : ∀ i, Cert.SG.InRange ((m ((c : Thread nD τ).loc main_arg1) : IVec S2x2000 32) i)) (n : ℕ) (hn : n < cfg0.N) (e : n = 15) (d : Fin 100) (o : Fin 60) :
    (outsAt0 (F := Ideal) m c n hn).1 (ix2 d o)
    = Ideal.tanh (Cert.Cheb.kernelPre (Cert.HostSpec.srcN (m ((c : Thread nD τ).loc main_arg1))) (Cert.HostSpec.dstN (m ((c : Thread nD τ).loc main_arg1)))
        (fun e => Cert.HostSpec.normOf (m ((c : Thread nD τ).loc main_arg1)) (ix1 e)) (Cert.Glue.Xf (m ((c : Thread nD τ).loc main_arg0)))
        (Cert.Glue.Wf (m ((c : Thread nD τ).loc main_arg5)) 0) (Cert.Glue.Wf (m ((c : Thread nD τ).loc main_arg5)) 1) (Cert.Glue.Wf (m ((c : Thread nD τ).loc main_arg5)) 2) Cert.Glue.two d o
      + (m ((c : Thread nD τ).loc main_arg6) : Vec Ideal S60 .f32) (ix1 o)) := by
  refine (out6_at m c ⟨n, hn⟩ (by show n % 16 = 15; omega) d o).trans ?_
  have eb : blk4 m c ⟨n, hn⟩ (ix1 o) = (m ((c : Thread nD τ).loc main_arg6) : Vec Ideal S60 .f32) (ix1 o) := by
    refine (blk4_apply m c ⟨n, hn⟩ o).trans ?_
    rw [V_main_arg6 m c]
  rw [eb]
  subst e
  show Ideal.tanh (Cert.Cheb.accN (partA m c d o) 15 + _) = _
  rw [Cert.Cheb.accN_15]
  unfold Cert.Cheb.kernelPre
  rw [Finset.sum_congr rfl fun k _ => partA_eq m c hidx d o k]

theorem out7_at (t : Fin cfg0.N) (h1 : t.val % 16 = 15) (d : Fin 100) (o : Fin 60) :
    (outsAt0 (F := Ideal) m c t.val t.isLt).2.1 (ix2 d o)
      = Ideal.tanh (Cert.Cheb.accN (partC m c d o) t.val + blk5 m c t (ix1 o)) := by
  have h0 : ¬t.val % 16 = 0 := by omega
  have ho := o7_last m c t h0 h1
  have hs := s1_last m c t h0 h1
  have e : stepC (blk0 m c t) (blk1 m c t) (blk3 m c t) (outsAt0 (F := Ideal) m c (t.val - 1) (Nat.lt_of_le_of_lt (Nat.sub_le _ _) t.isLt)).2.2.2 (ix2 d o) = Cert.Cheb.accN (partC m c d o) t.val :=
    (congrFun hs (ix2 d o)).symm.trans (scratch1_apply m c t.val t.isLt d o)
  refine (congrFun ho (ix2 d o)).trans ?_
  refine (outC_apply _ _ d o).trans ?_
  rw [e]

theorem out7_apply (hidx : ∀ i, Cert.SG.InRange ((m ((c : Thread nD τ).loc main_arg1) : IVec S2x2000 32) i)) (n : ℕ) (hn : n < cfg0.N) (e : n = 15) (d : Fin 100) (o : Fin 60) :
    (outsAt0 (F := Ideal) m c n hn).2.1 (ix2 d o)
    = Ideal.tanh (Cert.Cheb.kernelPre (Cert.HostSpec.srcN (m ((c : Thread nD τ).loc main_arg1))) (Cert.HostSpec.dstN (m ((c : Thread nD τ).loc main_arg1)))
        (fun e => Cert.HostSpec.normOf (m ((c : Thread nD τ).loc main_arg1)) (ix1 e)) (Cert.Glue.Xf (m ((c : Thread nD τ).loc main_arg0)))
        (Cert.Glue.Wf (m ((c : Thread nD τ).loc main_arg7)) 0) (Cert.Glue.Wf (m ((c : Thread nD τ).loc main_arg7)) 1) (Cert.Glue.Wf (m ((c : Thread nD τ).loc main_arg7)) 2) Cert.Glue.two d o
      + (m ((c : Thread nD τ).loc main_arg8) : Vec Ideal S60 .f32) (ix1 o)) := by
  refine (out7_at m c ⟨n, hn⟩ (by show n % 16 = 15; omega) d o).trans ?_
  have eb : blk5 m c ⟨n, hn⟩ (ix1 o) = (m ((c : Thread nD τ).loc main_arg8) : Vec Ideal S60 .f32) (ix1 o) := by
    refine (blk5_apply m c ⟨n, hn⟩ o).trans ?_
    rw [V_main_arg8 m c]
  rw [eb]
  subst e
  show Ideal.tanh (Cert.Cheb.accN (partC m c d o) 15 + _) = _
  rw [Cert.Cheb.accN_15]
  unfold Cert.Cheb.kernelPre
  rw [Finset.sum_congr rfl fun k _ => partC_eq m c hidx d o k]

end Cert.KernelIdeal.Val

end
-- ==== Proof.HeadSpec.lean ====
import proofs.«171431_j27848567947758_1_alg».proof.Proof.FrameKI.Base
import Idealize.ShloMosaic.Lib.StableHlo.Run
import Idealize.ShloMosaic.Lib.Pipeline.FrameSuffix
import Idealize.ShloMosaic.Lib.Pipeline.Value
import Idealize.ShloMosaic.Lib.ValueIdx

set_option maxRecDepth 16384

noncomputable section

namespace Cert.Head

open Cert.KernelIdeal Cert.KernelIdeal.Gen Cert.KernelIdeal.Fr Idealize.ShloMosaic Idealize.ShloMosaic.TcCoe
open Idealize.ShloMosaic.ValueIdx

variable {F : FTy → Type} [FloatOps F]

def embOf (o : FVec F S100x60 .f32) : FVec F S1x6000 .f32 := shapeCast S1x6000 o shapeCasts_S100x60_S1x6000

def headA (emb : FVec F S1x6000 .f32) (a2 a3 a4 : FVec F S1 .f32) (fw : FVec F S6003x100 .f32) (fb : FVec F S100 .f32) :
    FVec F S1x100 .f32 :=
  addf (Host.dotGeneral dot_S1x6003_S6003x100_S1x100_1_0_0_1_n_n none
      (concatenate S1x6003 1 [⟨S1x6000, emb⟩, ⟨S1x1, broadcastInDim S1x1 ![1] bcast_S1_S1x1_1 a2⟩,
        ⟨S1x1, broadcastInDim S1x1 ![1] bcast_S1_S1x1_1 a3⟩, ⟨S1x1, broadcastInDim S1x1 ![1] bcast_S1_S1x1_1 a4⟩]
        concatenates_S1x6000_S1x1_S1x1_S1x1_S1x6003_d1) fw)
    (broadcastInDim S1x100 ![1] bcast_S100_S1x100_1 fb)

def headC (emb : FVec F S1x6000 .f32) (a2 a3 a4 : FVec F S1 .f32) (fw : FVec F S6003x1 .f32) (fb : FVec F S1 .f32) :
    FVec F S1x1 .f32 :=
  addf (Host.dotGeneral dot_S1x6003_S6003x1_S1x1_1_0_0_1_n_n none
      (concatenate S1x6003 1 [⟨S1x6000, emb⟩, ⟨S1x1, broadcastInDim S1x1 ![1] bcast_S1_S1x1_1 a2⟩,
        ⟨S1x1, broadcastInDim S1x1 ![1] bcast_S1_S1x1_1 a3⟩, ⟨S1x1, broadcastInDim S1x1 ![1] bcast_S1_S1x1_1 a4⟩]
        concatenates_S1x6000_S1x1_S1x1_S1x1_S1x6003_d1) fw)
    (broadcastInDim S1x1 ![1] bcast_S1_S1x1_1 fb)

variable (m : (ℓ : Loc nD τ sig) → Buf (Elt F) ℓ)

theorem embOf_apply (o : FVec F S100x60 .f32) (d : Fin 100) (c : Fin 60) :
    embOf o (ix2 (0 : Fin 1) (⟨60 * d.val + c.val, by have := d.isLt; have := c.isLt; omega⟩ : Fin 6000)) = o (ix2 d c) := by
  unfold embOf
  exact shapeCast_apply o shapeCasts_S100x60_S1x6000 _ (ix2 d c)
    (by rewrite [Shape.rowMajor_val_two, Shape.rowMajor_val_two]
        show d.val * 60 + c.val = 0 * 6000 + (60 * d.val + c.val)
        omega)

theorem wa_out0 (dats : (p : Fin 1) → (c : Dev nD) → Pipeline.Dat τ (Elt F) Unit ℕ (UR sig nD τ) ℕ (cfgs p) c) (c : Dev nD) :
    Pipeline.withArrays (cfgs 0).spec c (V0 m c) (fun w => (dats 0 c).arrAt w (cfgs 0).N) (Proc.devRef .tc main_v46_0)
      = (dats 0 c).arrAt 6 cfg0.N :=
  Pipeline.withArrays_arr spec0 launch0.win.arr_inj c _ _ 6

theorem wa_out1 (dats : (p : Fin 1) → (c : Dev nD) → Pipeline.Dat τ (Elt F) Unit ℕ (UR sig nD τ) ℕ (cfgs p) c) (c : Dev nD) :
    Pipeline.withArrays (cfgs 0).spec c (V0 m c) (fun w => (dats 0 c).arrAt w (cfgs 0).N) (Proc.devRef .tc main_v46_1)
      = (dats 0 c).arrAt 7 cfg0.N :=
  Pipeline.withArrays_arr spec0 launch0.win.arr_inj c _ _ 7

/-- An argument that is no array of the grid is as launched after it. -/
theorem wa_arg (dats : (p : Fin 1) → (c : Dev nD) → Pipeline.Dat τ (Elt F) Unit ℕ (UR sig nD τ) ℕ (cfgs p) c) (c : Dev nD) (b : Ref sig .tc)
    (hb : b ∈ ([main_arg1, main_arg2, main_arg3, main_arg4, main_arg9, main_arg10, main_arg11, main_arg12] : List (Ref sig .tc))) :
    Pipeline.withArrays (cfgs 0).spec c (V0 m c) (fun w => (dats 0 c).arrAt w (cfgs 0).N) (Proc.devRef .tc b)
      = m ((c : Thread nD τ).loc b) :=
  (Pipeline.withArrays_of_ne _ c (V0 m c) _ b (post_keeps (F := F) b hb).2.1).trans (V_arg m c b (post_keeps (F := F) b hb).2.2)

set_option maxHeartbeats 4000000 in
theorem tail_v56 (dats : (p : Fin 1) → (c : Dev nD) → Pipeline.Dat τ (Elt F) Unit ℕ (UR sig nD τ) ℕ (cfgs p) c) (c : Dev nD) :
    Pipeline.afterTail₀ cfgs dats 0 (V0 m) [hostOps1] c main_v56
      = headA (embOf ((dats 0 c).arrAt 6 cfg0.N)) (m ((c : Thread nD τ).loc main_arg2)) (m ((c : Thread nD τ).loc main_arg3))
          (m ((c : Thread nD τ).loc main_arg4)) (m ((c : Thread nD τ).loc main_arg9)) (m ((c : Thread nD τ).loc main_arg10)) := by
  unfold Pipeline.afterTail₀
  show StableHlo.after hostOps1 _ (Proc.devRef .tc main_v56) = _
  after_results_simp
  dsimp only [Matrix.cons_val_zero, Matrix.cons_val_one, Matrix.cons_val]
  repeat (first
    | rw [StableHlo.unary_result] | rw [StableHlo.reshape_result]
    | (rw [StableHlo.unary_result_ne]; rotate_left; decide)
    | (rw [StableHlo.reshape_result_ne]; rotate_left; decide)
    | (rw [StableHlo.nary_result_ne]; rotate_left; decide))
  rw [wa_out0 m dats c, wa_arg m dats c main_arg2 (by decide), wa_arg m dats c main_arg3 (by decide), wa_arg m dats c main_arg4 (by decide), wa_arg m dats c main_arg9 (by decide), wa_arg m dats c main_arg10 (by decide)]
  rfl

set_option maxHeartbeats 4000000 in
theorem tail_v59 (dats : (p : Fin 1) → (c : Dev nD) → Pipeline.Dat τ (Elt F) Unit ℕ (UR sig nD τ) ℕ (cfgs p) c) (c : Dev nD) :
    Pipeline.afterTail₀ cfgs dats 0 (V0 m) [hostOps1] c main_v59
      = headC (embOf ((dats 0 c).arrAt 7 cfg0.N)) (m ((c : Thread nD τ).loc main_arg2)) (m ((c : Thread nD τ).loc main_arg3))
          (m ((c : Thread nD τ).loc main_arg4)) (m ((c : Thread nD τ).loc main_arg11)) (m ((c : Thread nD τ).loc main_arg12)) := by
  unfold Pipeline.afterTail₀
  show StableHlo.after hostOps1 _ (Proc.devRef .tc main_v59) = _
  after_results_simp
  dsimp only [Matrix.cons_val_zero, Matrix.cons_val_one, Matrix.cons_val]
  repeat (first
    | rw [StableHlo.unary_result] | rw [StableHlo.reshape_result]
    | (rw [StableHlo.unary_result_ne]; rotate_left; decide)
    | (rw [StableHlo.reshape_result_ne]; rotate_left; decide)
    | (rw [StableHlo.nary_result_ne]; rotate_left; decide))
  rw [wa_out1 m dats c, wa_arg m dats c main_arg2 (by decide), wa_arg m dats c main_arg3 (by decide), wa_arg m dats c main_arg4 (by decide), wa_arg m dats c main_arg11 (by decide), wa_arg m dats c main_arg12 (by decide)]
  rfl

end Cert.Head

end
-- ==== Proof.RefRead.lean ====
import proofs.«171431_j27848567947758_1_alg».proof.Proof.RefRun
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 (x1 : (⟨S2x2000, .i32⟩ : BufTy).Contents (Elt F)) : (⟨S1x2000, .i32⟩ : BufTy).Contents (Elt F) :=
  extractStridedSlice S1x2000 ![0, 0] (x1) slices_S2x2000_S1x2000_0_0
abbrev idx_main_v0 (i : S1x2000.Idx) : S2x2000.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v0_apply (x1 : (⟨S2x2000, .i32⟩ : BufTy).Contents (Elt F)) (i : S1x2000.Idx) :
    val_main_v0 (F := F) x1 i = x1 (idx_main_v0 i) := by
  unfold val_main_v0
  exact extractStridedSlice_apply ![0, 0] x1 slices_S2x2000_S1x2000_0_0 i (idx_main_v0 i) (fun a => match a with
    | ⟨0, _⟩ => by show (i 0).val = 0 + (i 0).val; omega
    | ⟨1, _⟩ => by show (i 1).val = 0 + (i 1).val; omega)
def val_main_v1 (x1 : (⟨S2x2000, .i32⟩ : BufTy).Contents (Elt F)) : (⟨S2000, .i32⟩ : BufTy).Contents (Elt F) :=
  shapeCast _ (val_main_v0 (F := F) x1) shapeCasts_S1x2000_S2000
abbrev idx_main_v1 (i : S2000.Idx) : S1x2000.Idx := fun a => match a with
  | ⟨0, _⟩ => ⟨0, Nat.one_pos⟩
  | ⟨1, _⟩ => ⟨((i 0).val) % 2000, by have h0 : (i 0).val < 2000 := (i 0).isLt; show ((i 0).val) % 2000 < 2000; omega⟩
theorem val_main_v1_apply (x1 : (⟨S2x2000, .i32⟩ : BufTy).Contents (Elt F)) (i : S2000.Idx) :
    val_main_v1 (F := F) x1 i = val_main_v0 (F := F) x1 (idx_main_v1 i) := by
  unfold val_main_v1
  generalize val_main_v0 (F := F) x1 = y
  exact shapeCast_apply y shapeCasts_S1x2000_S2000 i (idx_main_v1 i)
    (by rewrite [Shape.rowMajor_val_two, Shape.rowMajor_val_one]; have h0 : (i 0).val < 2000 := (i 0).isLt; show 0 * 2000 + ((i 0).val) % 2000 = (i 0).val; omega)
def val_main_v2 (x1 : (⟨S2x2000, .i32⟩ : BufTy).Contents (Elt F)) : (⟨S1x2000, .i32⟩ : BufTy).Contents (Elt F) :=
  extractStridedSlice S1x2000 ![1, 0] (x1) slices_S2x2000_S1x2000_1_0
abbrev idx_main_v2 (i : S1x2000.Idx) : S2x2000.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v2_apply (x1 : (⟨S2x2000, .i32⟩ : BufTy).Contents (Elt F)) (i : S1x2000.Idx) :
    val_main_v2 (F := F) x1 i = x1 (idx_main_v2 i) := by
  unfold val_main_v2
  exact extractStridedSlice_apply ![1, 0] x1 slices_S2x2000_S1x2000_1_0 i (idx_main_v2 i) (fun a => match a with
    | ⟨0, _⟩ => by show 1 + (i 0).val = 1 + (i 0).val; omega
    | ⟨1, _⟩ => by show (i 1).val = 0 + (i 1).val; omega)
def val_main_v3 (x1 : (⟨S2x2000, .i32⟩ : BufTy).Contents (Elt F)) : (⟨S2000, .i32⟩ : BufTy).Contents (Elt F) :=
  shapeCast _ (val_main_v2 (F := F) x1) shapeCasts_S1x2000_S2000
abbrev idx_main_v3 (i : S2000.Idx) : S1x2000.Idx := fun a => match a with
  | ⟨0, _⟩ => ⟨0, Nat.one_pos⟩
  | ⟨1, _⟩ => ⟨((i 0).val) % 2000, by have h0 : (i 0).val < 2000 := (i 0).isLt; show ((i 0).val) % 2000 < 2000; omega⟩
theorem val_main_v3_apply (x1 : (⟨S2x2000, .i32⟩ : BufTy).Contents (Elt F)) (i : S2000.Idx) :
    val_main_v3 (F := F) x1 i = val_main_v2 (F := F) x1 (idx_main_v3 i) := by
  unfold val_main_v3
  generalize val_main_v2 (F := F) x1 = y
  exact shapeCast_apply y shapeCasts_S1x2000_S2000 i (idx_main_v3 i)
    (by rewrite [Shape.rowMajor_val_two, Shape.rowMajor_val_one]; have h0 : (i 0).val < 2000 := (i 0).isLt; show 0 * 2000 + ((i 0).val) % 2000 = (i 0).val; omega)
def val_main_cst : (⟨S_, .f32⟩ : BufTy).Contents (Elt F) :=
  constant S_ .f32 0x3F800000#32
def val_main_v4 : (⟨S2000, .f32⟩ : BufTy).Contents (Elt F) :=
  broadcastInDim S2000 ![] bcast_S_S2000 (val_main_cst (F := F))
def val_main_cst_0 : (⟨S_, .f32⟩ : BufTy).Contents (Elt F) :=
  constant S_ .f32 0x00000000#32
def val_main_v5 : (⟨S100, .f32⟩ : BufTy).Contents (Elt F) :=
  broadcastInDim S100 ![] bcast_S_S100 (val_main_cst_0 (F := F))
def val_main_v6 (x1 : (⟨S2x2000, .i32⟩ : BufTy).Contents (Elt F)) : (⟨S2000x1, .i32⟩ : BufTy).Contents (Elt F) :=
  broadcastInDim S2000x1 ![0] bcast_S2000_S2000x1_0 (val_main_v1 (F := F) x1)
def val_main_v7 (x1 : (⟨S2x2000, .i32⟩ : BufTy).Contents (Elt F)) : (⟨S100, .f32⟩ : BufTy).Contents (Elt F) :=
  Host.scatterAdd scatter_S100_S2000x1_S2000_n_0_0_1 (val_main_v5 (F := F)) (val_main_v6 (F := F) x1) (val_main_v4 (F := F))
def val_main_cst_1 : (⟨S_, .f32⟩ : BufTy).Contents (Elt F) :=
  constant S_ .f32 0x00000000#32
def val_main_v8 : (⟨S100, .f32⟩ : BufTy).Contents (Elt F) :=
  broadcastInDim S100 ![] bcast_S_S100 (val_main_cst_1 (F := F))
def val_main_v9 (x1 : (⟨S2x2000, .i32⟩ : BufTy).Contents (Elt F)) : (⟨S100, .i1⟩ : BufTy).Contents (Elt F) :=
  cmpf (F := F) .ogt (val_main_v7 (F := F) x1) (val_main_v8 (F := F))
def val_main_cst_2 : (⟨S_, .f32⟩ : BufTy).Contents (Elt F) :=
  constant S_ .f32 0x00000000#32
def val_main_v10 : (⟨S100, .f32⟩ : BufTy).Contents (Elt F) :=
  broadcastInDim S100 ![] bcast_S_S100 (val_main_cst_2 (F := F))
def val_main_v11 (x1 : (⟨S2x2000, .i32⟩ : BufTy).Contents (Elt F)) : (⟨S100, .i1⟩ : BufTy).Contents (Elt F) :=
  cmpf (F := F) .ogt (val_main_v7 (F := F) x1) (val_main_v10 (F := F))
def val_main_cst_3 : (⟨S_, .f32⟩ : BufTy).Contents (Elt F) :=
  constant S_ .f32 0x3F800000#32
def val_main_call0_v0 : (⟨S_, .f32⟩ : BufTy).Contents (Elt F) :=
  id (val_main_cst_3 (F := F))
def val_main_call0_v1 : (⟨S100, .f32⟩ : BufTy).Contents (Elt F) :=
  broadcastInDim S100 ![] bcast_S_S100 (val_main_call0_v0 (F := F))
def val_main_v12 (x1 : (⟨S2x2000, .i32⟩ : BufTy).Contents (Elt F)) : (⟨S100, .f32⟩ : BufTy).Contents (Elt F) :=
  select (val_main_v11 (F := F) x1) (val_main_v7 (F := F) x1) (val_main_call0_v1 (F := F))
def val_main_v13 (x1 : (⟨S2x2000, .i32⟩ : BufTy).Contents (Elt F)) : (⟨S100, .f32⟩ : BufTy).Contents (Elt F) :=
  Host.rsqrt (val_main_v12 (F := F) x1)
def val_main_cst_4 : (⟨S_, .f32⟩ : BufTy).Contents (Elt F) :=
  constant S_ .f32 0x00000000#32
def val_main_call1_v0 : (⟨S_, .f32⟩ : BufTy).Contents (Elt F) :=
  id (val_main_cst_4 (F := F))
def val_main_call1_v1 : (⟨S100, .f32⟩ : BufTy).Contents (Elt F) :=
  broadcastInDim S100 ![] bcast_S_S100 (val_main_call1_v0 (F := F))
def val_main_v14 (x1 : (⟨S2x2000, .i32⟩ : BufTy).Contents (Elt F)) : (⟨S100, .f32⟩ : BufTy).Contents (Elt F) :=
  select (val_main_v9 (F := F) x1) (val_main_v13 (F := F) x1) (val_main_call1_v1 (F := F))
def val_main_c : (⟨S_, .i32⟩ : BufTy).Contents (Elt F) :=
  constantI S_ 32 0#32
def val_main_v15 : (⟨S2000, .i32⟩ : BufTy).Contents (Elt F) :=
  broadcastInDim S2000 ![] bcast_S_S2000 (val_main_c (F := F))
def val_main_v16 (x1 : (⟨S2x2000, .i32⟩ : BufTy).Contents (Elt F)) : (⟨S2000, .i1⟩ : BufTy).Contents (Elt F) :=
  cmpi .slt (val_main_v1 (F := F) x1) (val_main_v15 (F := F))
def val_main_c_5 : (⟨S_, .i32⟩ : BufTy).Contents (Elt F) :=
  constantI S_ 32 100#32
def val_main_v17 : (⟨S2000, .i32⟩ : BufTy).Contents (Elt F) :=
  broadcastInDim S2000 ![] bcast_S_S2000 (val_main_c_5 (F := F))
def val_main_v18 (x1 : (⟨S2x2000, .i32⟩ : BufTy).Contents (Elt F)) : (⟨S2000, .i32⟩ : BufTy).Contents (Elt F) :=
  addi (val_main_v1 (F := F) x1) (val_main_v17 (F := F))
def val_main_v19 (x1 : (⟨S2x2000, .i32⟩ : BufTy).Contents (Elt F)) : (⟨S2000, .i32⟩ : BufTy).Contents (Elt F) :=
  select (val_main_v16 (F := F) x1) (val_main_v18 (F := F) x1) (val_main_v1 (F := F) x1)
def val_main_v20 (x1 : (⟨S2x2000, .i32⟩ : BufTy).Contents (Elt F)) : (⟨S2000x1, .i32⟩ : BufTy).Contents (Elt F) :=
  broadcastInDim S2000x1 ![0] bcast_S2000_S2000x1_0 (val_main_v19 (F := F) x1)
def val_main_v21 (x1 : (⟨S2x2000, .i32⟩ : BufTy).Contents (Elt F)) : (⟨S2000, .f32⟩ : BufTy).Contents (Elt F) :=
  Host.gather gather_S100_S2000x1_S2000_n_0_n_n_0_1_1 (val_main_v14 (F := F) x1) (val_main_v20 (F := F) x1)
def val_main_c_6 : (⟨S_, .i32⟩ : BufTy).Contents (Elt F) :=
  constantI S_ 32 0#32
def val_main_v22 : (⟨S2000, .i32⟩ : BufTy).Contents (Elt F) :=
  broadcastInDim S2000 ![] bcast_S_S2000 (val_main_c_6 (F := F))
def val_main_v23 (x1 : (⟨S2x2000, .i32⟩ : BufTy).Contents (Elt F)) : (⟨S2000, .i1⟩ : BufTy).Contents (Elt F) :=
  cmpi .slt (val_main_v3 (F := F) x1) (val_main_v22 (F := F))
def val_main_c_7 : (⟨S_, .i32⟩ : BufTy).Contents (Elt F) :=
  constantI S_ 32 100#32
def val_main_v24 : (⟨S2000, .i32⟩ : BufTy).Contents (Elt F) :=
  broadcastInDim S2000 ![] bcast_S_S2000 (val_main_c_7 (F := F))
def val_main_v25 (x1 : (⟨S2x2000, .i32⟩ : BufTy).Contents (Elt F)) : (⟨S2000, .i32⟩ : BufTy).Contents (Elt F) :=
  addi (val_main_v3 (F := F) x1) (val_main_v24 (F := F))
def val_main_v26 (x1 : (⟨S2x2000, .i32⟩ : BufTy).Contents (Elt F)) : (⟨S2000, .i32⟩ : BufTy).Contents (Elt F) :=
  select (val_main_v23 (F := F) x1) (val_main_v25 (F := F) x1) (val_main_v3 (F := F) x1)
def val_main_v27 (x1 : (⟨S2x2000, .i32⟩ : BufTy).Contents (Elt F)) : (⟨S2000x1, .i32⟩ : BufTy).Contents (Elt F) :=
  broadcastInDim S2000x1 ![0] bcast_S2000_S2000x1_0 (val_main_v26 (F := F) x1)
def val_main_v28 (x1 : (⟨S2x2000, .i32⟩ : BufTy).Contents (Elt F)) : (⟨S2000, .f32⟩ : BufTy).Contents (Elt F) :=
  Host.gather gather_S100_S2000x1_S2000_n_0_n_n_0_1_1 (val_main_v14 (F := F) x1) (val_main_v27 (F := F) x1)
def val_main_v29 (x1 : (⟨S2x2000, .i32⟩ : BufTy).Contents (Elt F)) : (⟨S2000, .f32⟩ : BufTy).Contents (Elt F) :=
  mulf (val_main_v21 (F := F) x1) (val_main_v28 (F := F) x1)
def val_main_v30 (x1 : (⟨S2x2000, .i32⟩ : BufTy).Contents (Elt F)) : (⟨S2000, .f32⟩ : BufTy).Contents (Elt F) :=
  Host.negf (val_main_v29 (F := F) x1)
def val_main_v31 (x0 : (⟨S1x100x65536, .f32⟩ : BufTy).Contents (Elt F)) : (⟨S100x65536, .f32⟩ : BufTy).Contents (Elt F) :=
  shapeCast _ (x0) shapeCasts_S1x100x65536_S100x65536
abbrev idx_main_v31 (i : S100x65536.Idx) : S1x100x65536.Idx := fun a => match a with
  | ⟨0, _⟩ => ⟨0, Nat.one_pos⟩
  | ⟨1, _⟩ => ⟨((i 0).val * 65536 + (i 1).val) / 65536 % 100, by have h0 : (i 0).val < 100 := (i 0).isLt; have h1 : (i 1).val < 65536 := (i 1).isLt; show ((i 0).val * 65536 + (i 1).val) / 65536 % 100 < 100; omega⟩
  | ⟨2, _⟩ => ⟨((i 0).val * 65536 + (i 1).val) % 65536, by have h0 : (i 0).val < 100 := (i 0).isLt; have h1 : (i 1).val < 65536 := (i 1).isLt; show ((i 0).val * 65536 + (i 1).val) % 65536 < 65536; omega⟩
theorem val_main_v31_apply (x0 : (⟨S1x100x65536, .f32⟩ : BufTy).Contents (Elt F)) (i : S100x65536.Idx) :
    val_main_v31 (F := F) x0 i = x0 (idx_main_v31 i) := by
  unfold val_main_v31
  exact shapeCast_apply x0 shapeCasts_S1x100x65536_S100x65536 i (idx_main_v31 i)
    (by rewrite [Shape.rowMajor_val_three, Shape.rowMajor_val_two]; have h0 : (i 0).val < 100 := (i 0).isLt; have h1 : (i 1).val < 65536 := (i 1).isLt; show (0 * 100 + ((i 0).val * 65536 + (i 1).val) / 65536 % 100) * 65536 + ((i 0).val * 65536 + (i 1).val) % 65536 = (i 0).val * 65536 + (i 1).val; omega)
def val_main_c_8 : (⟨S_, .i32⟩ : BufTy).Contents (Elt F) :=
  constantI S_ 32 0#32
theorem val_main_c_8_apply (i : S_.Idx) :
    val_main_c_8 (F := F) i = 0#32 := rfl
def val_main_v32 : (⟨S2000, .i32⟩ : BufTy).Contents (Elt F) :=
  broadcastInDim S2000 ![] bcast_S_S2000 (val_main_c_8 (F := F))
abbrev idx_main_v32 (i : S2000.Idx) : S_.Idx := fun a => a.elim0
theorem val_main_v32_apply (i : S2000.Idx) :
    val_main_v32 (F := F) i = val_main_c_8 (F := F) (idx_main_v32 i) := by
  unfold val_main_v32
  generalize val_main_c_8 (F := F) = y
  exact broadcastInDim_apply _ bcast_S_S2000 y i (idx_main_v32 i) (fun a => a.elim0)
def val_main_v33 (x1 : (⟨S2x2000, .i32⟩ : BufTy).Contents (Elt F)) : (⟨S2000, .i1⟩ : BufTy).Contents (Elt F) :=
  cmpi .slt (val_main_v1 (F := F) x1) (val_main_v32 (F := F))
theorem val_main_v33_apply (x1 : (⟨S2x2000, .i32⟩ : BufTy).Contents (Elt F)) (i : S2000.Idx) :
    val_main_v33 (F := F) x1 i = IntOp.cmpi .slt (val_main_v1 (F := F) x1 i) (val_main_v32 (F := F) i) := rfl
def val_main_c_9 : (⟨S_, .i32⟩ : BufTy).Contents (Elt F) :=
  constantI S_ 32 100#32
def val_main_v34 : (⟨S2000, .i32⟩ : BufTy).Contents (Elt F) :=
  broadcastInDim S2000 ![] bcast_S_S2000 (val_main_c_9 (F := F))
def val_main_v35 (x1 : (⟨S2x2000, .i32⟩ : BufTy).Contents (Elt F)) : (⟨S2000, .i32⟩ : BufTy).Contents (Elt F) :=
  addi (val_main_v1 (F := F) x1) (val_main_v34 (F := F))
def val_main_v36 (x1 : (⟨S2x2000, .i32⟩ : BufTy).Contents (Elt F)) : (⟨S2000, .i32⟩ : BufTy).Contents (Elt F) :=
  select (val_main_v33 (F := F) x1) (val_main_v35 (F := F) x1) (val_main_v1 (F := F) x1)
theorem val_main_v36_apply (x1 : (⟨S2x2000, .i32⟩ : BufTy).Contents (Elt F)) (i : S2000.Idx) :
    val_main_v36 (F := F) x1 i = Scalar.select (val_main_v33 (F := F) x1 i) (val_main_v35 (F := F) x1 i) (val_main_v1 (F := F) x1 i) := rfl
def val_main_v37 (x1 : (⟨S2x2000, .i32⟩ : BufTy).Contents (Elt F)) : (⟨S2000x1, .i32⟩ : BufTy).Contents (Elt F) :=
  broadcastInDim S2000x1 ![0] bcast_S2000_S2000x1_0 (val_main_v36 (F := F) x1)
abbrev idx_main_v37 (i : S2000x1.Idx) : S2000.Idx := fun a => match a with
  | ⟨0, _⟩ => ⟨(i 0).val, (i 0).isLt⟩
theorem val_main_v37_apply (x1 : (⟨S2x2000, .i32⟩ : BufTy).Contents (Elt F)) (i : S2000x1.Idx) :
    val_main_v37 (F := F) x1 i = val_main_v36 (F := F) x1 (idx_main_v37 i) := by
  unfold val_main_v37
  generalize val_main_v36 (F := F) x1 = y
  exact broadcastInDim_apply _ bcast_S2000_S2000x1_0 y i (idx_main_v37 i) (fun a => match a with
    | ⟨0, _⟩ => by show (i 0).val = if (2000 : Nat) = 1 then 0 else (i 0).val; rw [if_neg (by decide)])
def val_main_v38 (x0 : (⟨S1x100x65536, .f32⟩ : BufTy).Contents (Elt F)) (x1 : (⟨S2x2000, .i32⟩ : BufTy).Contents (Elt F)) : (⟨S2000x65536, .f32⟩ : BufTy).Contents (Elt F) :=
  Host.gather gather_S100x65536_S2000x1_S2000x65536_1_0_n_n_0_1_165536 (val_main_v31 (F := F) x0) (val_main_v37 (F := F) x1)
def val_main_v39 (x1 : (⟨S2x2000, .i32⟩ : BufTy).Contents (Elt F)) : (⟨S2000x1, .f32⟩ : BufTy).Contents (Elt F) :=
  broadcastInDim S2000x1 ![0] bcast_S2000_S2000x1_0 (val_main_v30 (F := F) x1)
abbrev idx_main_v39 (i : S2000x1.Idx) : S2000.Idx := fun a => match a with
  | ⟨0, _⟩ => ⟨(i 0).val, (i 0).isLt⟩
theorem val_main_v39_apply (x1 : (⟨S2x2000, .i32⟩ : BufTy).Contents (Elt F)) (i : S2000x1.Idx) :
    val_main_v39 (F := F) x1 i = val_main_v30 (F := F) x1 (idx_main_v39 i) := by
  unfold val_main_v39
  generalize val_main_v30 (F := F) x1 = y
  exact broadcastInDim_apply _ bcast_S2000_S2000x1_0 y i (idx_main_v39 i) (fun a => match a with
    | ⟨0, _⟩ => by show (i 0).val = if (2000 : Nat) = 1 then 0 else (i 0).val; rw [if_neg (by decide)])
def val_main_v40 (x1 : (⟨S2x2000, .i32⟩ : BufTy).Contents (Elt F)) : (⟨S2000x65536, .f32⟩ : BufTy).Contents (Elt F) :=
  broadcastInDim S2000x65536 ![0, 1] bcast_S2000x1_S2000x65536_0_1 (val_main_v39 (F := F) x1)
abbrev idx_main_v40 (i : S2000x65536.Idx) : S2000x1.Idx := fun a => match a with
  | ⟨0, _⟩ => ⟨(i 0).val, (i 0).isLt⟩
  | ⟨1, _⟩ => ⟨0, Nat.one_pos⟩
theorem val_main_v40_apply (x1 : (⟨S2x2000, .i32⟩ : BufTy).Contents (Elt F)) (i : S2000x65536.Idx) :
    val_main_v40 (F := F) x1 i = val_main_v39 (F := F) x1 (idx_main_v40 i) := by
  unfold val_main_v40
  generalize val_main_v39 (F := F) x1 = y
  exact broadcastInDim_apply _ bcast_S2000x1_S2000x65536_0_1 y i (idx_main_v40 i) (fun a => match a with
    | ⟨0, _⟩ => by show (i 0).val = if (2000 : Nat) = 1 then 0 else (i 0).val; rw [if_neg (by decide)]
    | ⟨1, _⟩ => by show 0 = if (1 : Nat) = 1 then 0 else (i 1).val; rw [if_pos rfl])
def val_main_v41 (x0 : (⟨S1x100x65536, .f32⟩ : BufTy).Contents (Elt F)) (x1 : (⟨S2x2000, .i32⟩ : BufTy).Contents (Elt F)) : (⟨S2000x65536, .f32⟩ : BufTy).Contents (Elt F) :=
  mulf (val_main_v38 (F := F) x0 x1) (val_main_v40 (F := F) x1)
def val_main_cst_10 : (⟨S_, .f32⟩ : BufTy).Contents (Elt F) :=
  constant S_ .f32 0x00000000#32
theorem val_main_cst_10_apply (i : S_.Idx) :
    val_main_cst_10 (F := F) i = FloatOps.ofBits .f32 0x00000000#32 := rfl
def val_main_v42 : (⟨S100x65536, .f32⟩ : BufTy).Contents (Elt F) :=
  broadcastInDim S100x65536 ![] bcast_S_S100x65536 (val_main_cst_10 (F := F))
abbrev idx_main_v42 (i : S100x65536.Idx) : S_.Idx := fun a => a.elim0
theorem val_main_v42_apply (i : S100x65536.Idx) :
    val_main_v42 (F := F) i = val_main_cst_10 (F := F) (idx_main_v42 i) := by
  unfold val_main_v42
  generalize val_main_cst_10 (F := F) = y
  exact broadcastInDim_apply _ bcast_S_S100x65536 y i (idx_main_v42 i) (fun a => a.elim0)
def val_main_v43 (x1 : (⟨S2x2000, .i32⟩ : BufTy).Contents (Elt F)) : (⟨S2000x1, .i32⟩ : BufTy).Contents (Elt F) :=
  broadcastInDim S2000x1 ![0] bcast_S2000_S2000x1_0 (val_main_v3 (F := F) x1)
abbrev idx_main_v43 (i : S2000x1.Idx) : S2000.Idx := fun a => match a with
  | ⟨0, _⟩ => ⟨(i 0).val, (i 0).isLt⟩
theorem val_main_v43_apply (x1 : (⟨S2x2000, .i32⟩ : BufTy).Contents (Elt F)) (i : S2000x1.Idx) :
    val_main_v43 (F := F) x1 i = val_main_v3 (F := F) x1 (idx_main_v43 i) := by
  unfold val_main_v43
  generalize val_main_v3 (F := F) x1 = y
  exact broadcastInDim_apply _ bcast_S2000_S2000x1_0 y i (idx_main_v43 i) (fun a => match a with
    | ⟨0, _⟩ => by show (i 0).val = if (2000 : Nat) = 1 then 0 else (i 0).val; rw [if_neg (by decide)])
def val_main_v44 (x0 : (⟨S1x100x65536, .f32⟩ : BufTy).Contents (Elt F)) (x1 : (⟨S2x2000, .i32⟩ : BufTy).Contents (Elt F)) : (⟨S100x65536, .f32⟩ : BufTy).Contents (Elt F) :=
  Host.scatterAdd scatter_S100x65536_S2000x1_S2000x65536_1_0_0_1 (val_main_v42 (F := F)) (val_main_v43 (F := F) x1) (val_main_v41 (F := F) x0 x1)
def val_main_c_11 : (⟨S_, .i32⟩ : BufTy).Contents (Elt F) :=
  constantI S_ 32 0#32
theorem val_main_c_11_apply (i : S_.Idx) :
    val_main_c_11 (F := F) i = 0#32 := rfl
def val_main_v45 : (⟨S2000, .i32⟩ : BufTy).Contents (Elt F) :=
  broadcastInDim S2000 ![] bcast_S_S2000 (val_main_c_11 (F := F))
abbrev idx_main_v45 (i : S2000.Idx) : S_.Idx := fun a => a.elim0
theorem val_main_v45_apply (i : S2000.Idx) :
    val_main_v45 (F := F) i = val_main_c_11 (F := F) (idx_main_v45 i) := by
  unfold val_main_v45
  generalize val_main_c_11 (F := F) = y
  exact broadcastInDim_apply _ bcast_S_S2000 y i (idx_main_v45 i) (fun a => a.elim0)
def val_main_v46 (x1 : (⟨S2x2000, .i32⟩ : BufTy).Contents (Elt F)) : (⟨S2000, .i1⟩ : BufTy).Contents (Elt F) :=
  cmpi .slt (val_main_v1 (F := F) x1) (val_main_v45 (F := F))
theorem val_main_v46_apply (x1 : (⟨S2x2000, .i32⟩ : BufTy).Contents (Elt F)) (i : S2000.Idx) :
    val_main_v46 (F := F) x1 i = IntOp.cmpi .slt (val_main_v1 (F := F) x1 i) (val_main_v45 (F := F) i) := rfl
def val_main_c_12 : (⟨S_, .i32⟩ : BufTy).Contents (Elt F) :=
  constantI S_ 32 100#32
def val_main_v47 : (⟨S2000, .i32⟩ : BufTy).Contents (Elt F) :=
  broadcastInDim S2000 ![] bcast_S_S2000 (val_main_c_12 (F := F))
def val_main_v48 (x1 : (⟨S2x2000, .i32⟩ : BufTy).Contents (Elt F)) : (⟨S2000, .i32⟩ : BufTy).Contents (Elt F) :=
  addi (val_main_v1 (F := F) x1) (val_main_v47 (F := F))
def val_main_v49 (x1 : (⟨S2x2000, .i32⟩ : BufTy).Contents (Elt F)) : (⟨S2000, .i32⟩ : BufTy).Contents (Elt F) :=
  select (val_main_v46 (F := F) x1) (val_main_v48 (F := F) x1) (val_main_v1 (F := F) x1)
theorem val_main_v49_apply (x1 : (⟨S2x2000, .i32⟩ : BufTy).Contents (Elt F)) (i : S2000.Idx) :
    val_main_v49 (F := F) x1 i = Scalar.select (val_main_v46 (F := F) x1 i) (val_main_v48 (F := F) x1 i) (val_main_v1 (F := F) x1 i) := rfl
def val_main_v50 (x1 : (⟨S2x2000, .i32⟩ : BufTy).Contents (Elt F)) : (⟨S2000x1, .i32⟩ : BufTy).Contents (Elt F) :=
  broadcastInDim S2000x1 ![0] bcast_S2000_S2000x1_0 (val_main_v49 (F := F) x1)
abbrev idx_main_v50 (i : S2000x1.Idx) : S2000.Idx := fun a => match a with
  | ⟨0, _⟩ => ⟨(i 0).val, (i 0).isLt⟩
theorem val_main_v50_apply (x1 : (⟨S2x2000, .i32⟩ : BufTy).Contents (Elt F)) (i : S2000x1.Idx) :
    val_main_v50 (F := F) x1 i = val_main_v49 (F := F) x1 (idx_main_v50 i) := by
  unfold val_main_v50
  generalize val_main_v49 (F := F) x1 = y
  exact broadcastInDim_apply _ bcast_S2000_S2000x1_0 y i (idx_main_v50 i) (fun a => match a with
    | ⟨0, _⟩ => by show (i 0).val = if (2000 : Nat) = 1 then 0 else (i 0).val; rw [if_neg (by decide)])
def val_main_v51 (x0 : (⟨S1x100x65536, .f32⟩ : BufTy).Contents (Elt F)) (x1 : (⟨S2x2000, .i32⟩ : BufTy).Contents (Elt F)) : (⟨S2000x65536, .f32⟩ : BufTy).Contents (Elt F) :=
  Host.gather gather_S100x65536_S2000x1_S2000x65536_1_0_n_n_0_1_165536 (val_main_v44 (F := F) x0 x1) (val_main_v50 (F := F) x1)
def val_main_v52 (x1 : (⟨S2x2000, .i32⟩ : BufTy).Contents (Elt F)) : (⟨S2000x1, .f32⟩ : BufTy).Contents (Elt F) :=
  broadcastInDim S2000x1 ![0] bcast_S2000_S2000x1_0 (val_main_v30 (F := F) x1)
abbrev idx_main_v52 (i : S2000x1.Idx) : S2000.Idx := fun a => match a with
  | ⟨0, _⟩ => ⟨(i 0).val, (i 0).isLt⟩
theorem val_main_v52_apply (x1 : (⟨S2x2000, .i32⟩ : BufTy).Contents (Elt F)) (i : S2000x1.Idx) :
    val_main_v52 (F := F) x1 i = val_main_v30 (F := F) x1 (idx_main_v52 i) := by
  unfold val_main_v52
  generalize val_main_v30 (F := F) x1 = y
  exact broadcastInDim_apply _ bcast_S2000_S2000x1_0 y i (idx_main_v52 i) (fun a => match a with
    | ⟨0, _⟩ => by show (i 0).val = if (2000 : Nat) = 1 then 0 else (i 0).val; rw [if_neg (by decide)])
def val_main_v53 (x1 : (⟨S2x2000, .i32⟩ : BufTy).Contents (Elt F)) : (⟨S2000x65536, .f32⟩ : BufTy).Contents (Elt F) :=
  broadcastInDim S2000x65536 ![0, 1] bcast_S2000x1_S2000x65536_0_1 (val_main_v52 (F := F) x1)
abbrev idx_main_v53 (i : S2000x65536.Idx) : S2000x1.Idx := fun a => match a with
  | ⟨0, _⟩ => ⟨(i 0).val, (i 0).isLt⟩
  | ⟨1, _⟩ => ⟨0, Nat.one_pos⟩
theorem val_main_v53_apply (x1 : (⟨S2x2000, .i32⟩ : BufTy).Contents (Elt F)) (i : S2000x65536.Idx) :
    val_main_v53 (F := F) x1 i = val_main_v52 (F := F) x1 (idx_main_v53 i) := by
  unfold val_main_v53
  generalize val_main_v52 (F := F) x1 = y
  exact broadcastInDim_apply _ bcast_S2000x1_S2000x65536_0_1 y i (idx_main_v53 i) (fun a => match a with
    | ⟨0, _⟩ => by show (i 0).val = if (2000 : Nat) = 1 then 0 else (i 0).val; rw [if_neg (by decide)]
    | ⟨1, _⟩ => by show 0 = if (1 : Nat) = 1 then 0 else (i 1).val; rw [if_pos rfl])
def val_main_v54 (x0 : (⟨S1x100x65536, .f32⟩ : BufTy).Contents (Elt F)) (x1 : (⟨S2x2000, .i32⟩ : BufTy).Contents (Elt F)) : (⟨S2000x65536, .f32⟩ : BufTy).Contents (Elt F) :=
  mulf (val_main_v51 (F := F) x0 x1) (val_main_v53 (F := F) x1)
def val_main_cst_13 : (⟨S_, .f32⟩ : BufTy).Contents (Elt F) :=
  constant S_ .f32 0x00000000#32
theorem val_main_cst_13_apply (i : S_.Idx) :
    val_main_cst_13 (F := F) i = FloatOps.ofBits .f32 0x00000000#32 := rfl
def val_main_v55 : (⟨S100x65536, .f32⟩ : BufTy).Contents (Elt F) :=
  broadcastInDim S100x65536 ![] bcast_S_S100x65536 (val_main_cst_13 (F := F))
abbrev idx_main_v55 (i : S100x65536.Idx) : S_.Idx := fun a => a.elim0
theorem val_main_v55_apply (i : S100x65536.Idx) :
    val_main_v55 (F := F) i = val_main_cst_13 (F := F) (idx_main_v55 i) := by
  unfold val_main_v55
  generalize val_main_cst_13 (F := F) = y
  exact broadcastInDim_apply _ bcast_S_S100x65536 y i (idx_main_v55 i) (fun a => a.elim0)
def val_main_v56 (x1 : (⟨S2x2000, .i32⟩ : BufTy).Contents (Elt F)) : (⟨S2000x1, .i32⟩ : BufTy).Contents (Elt F) :=
  broadcastInDim S2000x1 ![0] bcast_S2000_S2000x1_0 (val_main_v3 (F := F) x1)
abbrev idx_main_v56 (i : S2000x1.Idx) : S2000.Idx := fun a => match a with
  | ⟨0, _⟩ => ⟨(i 0).val, (i 0).isLt⟩
theorem val_main_v56_apply (x1 : (⟨S2x2000, .i32⟩ : BufTy).Contents (Elt F)) (i : S2000x1.Idx) :
    val_main_v56 (F := F) x1 i = val_main_v3 (F := F) x1 (idx_main_v56 i) := by
  unfold val_main_v56
  generalize val_main_v3 (F := F) x1 = y
  exact broadcastInDim_apply _ bcast_S2000_S2000x1_0 y i (idx_main_v56 i) (fun a => match a with
    | ⟨0, _⟩ => by show (i 0).val = if (2000 : Nat) = 1 then 0 else (i 0).val; rw [if_neg (by decide)])
def val_main_v57 (x0 : (⟨S1x100x65536, .f32⟩ : BufTy).Contents (Elt F)) (x1 : (⟨S2x2000, .i32⟩ : BufTy).Contents (Elt F)) : (⟨S100x65536, .f32⟩ : BufTy).Contents (Elt F) :=
  Host.scatterAdd scatter_S100x65536_S2000x1_S2000x65536_1_0_0_1 (val_main_v55 (F := F)) (val_main_v56 (F := F) x1) (val_main_v54 (F := F) x0 x1)
def val_main_cst_14 : (⟨S_, .f32⟩ : BufTy).Contents (Elt F) :=
  constant S_ .f32 0x40000000#32
theorem val_main_cst_14_apply (i : S_.Idx) :
    val_main_cst_14 (F := F) i = FloatOps.ofBits .f32 0x40000000#32 := rfl
def val_main_v58 : (⟨S100x65536, .f32⟩ : BufTy).Contents (Elt F) :=
  broadcastInDim S100x65536 ![] bcast_S_S100x65536 (val_main_cst_14 (F := F))
abbrev idx_main_v58 (i : S100x65536.Idx) : S_.Idx := fun a => a.elim0
theorem val_main_v58_apply (i : S100x65536.Idx) :
    val_main_v58 (F := F) i = val_main_cst_14 (F := F) (idx_main_v58 i) := by
  unfold val_main_v58
  generalize val_main_cst_14 (F := F) = y
  exact broadcastInDim_apply _ bcast_S_S100x65536 y i (idx_main_v58 i) (fun a => a.elim0)
def val_main_v59 (x0 : (⟨S1x100x65536, .f32⟩ : BufTy).Contents (Elt F)) (x1 : (⟨S2x2000, .i32⟩ : BufTy).Contents (Elt F)) : (⟨S100x65536, .f32⟩ : BufTy).Contents (Elt F) :=
  mulf (val_main_v58 (F := F)) (val_main_v57 (F := F) x0 x1)
def val_main_v60 (x0 : (⟨S1x100x65536, .f32⟩ : BufTy).Contents (Elt F)) (x1 : (⟨S2x2000, .i32⟩ : BufTy).Contents (Elt F)) : (⟨S100x65536, .f32⟩ : BufTy).Contents (Elt F) :=
  subf (val_main_v59 (F := F) x0 x1) (val_main_v31 (F := F) x0)
def val_main_v61 (x5 : (⟨S3x65536x60, .f32⟩ : BufTy).Contents (Elt F)) : (⟨S1x65536x60, .f32⟩ : BufTy).Contents (Elt F) :=
  extractStridedSlice S1x65536x60 ![0, 0, 0] (x5) slices_S3x65536x60_S1x65536x60_0_0_0
abbrev idx_main_v61 (i : S1x65536x60.Idx) : S3x65536x60.Idx := fun a => match a with
  | ⟨0, _⟩ => ⟨(i 0).val, by have h0 : (i 0).val < 1 := (i 0).isLt; show (i 0).val < 3; omega⟩
  | ⟨1, _⟩ => ⟨(i 1).val, (i 1).isLt⟩
  | ⟨2, _⟩ => ⟨(i 2).val, (i 2).isLt⟩
theorem val_main_v61_apply (x5 : (⟨S3x65536x60, .f32⟩ : BufTy).Contents (Elt F)) (i : S1x65536x60.Idx) :
    val_main_v61 (F := F) x5 i = x5 (idx_main_v61 i) := by
  unfold val_main_v61
  exact extractStridedSlice_apply ![0, 0, 0] x5 slices_S3x65536x60_S1x65536x60_0_0_0 i (idx_main_v61 i) (fun a => match a with
    | ⟨0, _⟩ => by show (i 0).val = 0 + (i 0).val; omega
    | ⟨1, _⟩ => by show (i 1).val = 0 + (i 1).val; omega
    | ⟨2, _⟩ => by show (i 2).val = 0 + (i 2).val; omega)
def val_main_v62 (x5 : (⟨S3x65536x60, .f32⟩ : BufTy).Contents (Elt F)) : (⟨S65536x60, .f32⟩ : BufTy).Contents (Elt F) :=
  shapeCast _ (val_main_v61 (F := F) x5) shapeCasts_S1x65536x60_S65536x60
abbrev idx_main_v62 (i : S65536x60.Idx) : S1x65536x60.Idx := fun a => match a with
  | ⟨0, _⟩ => ⟨0, Nat.one_pos⟩
  | ⟨1, _⟩ => ⟨((i 0).val * 60 + (i 1).val) / 60 % 65536, by have h0 : (i 0).val < 65536 := (i 0).isLt; have h1 : (i 1).val < 60 := (i 1).isLt; show ((i 0).val * 60 + (i 1).val) / 60 % 65536 < 65536; omega⟩
  | ⟨2, _⟩ => ⟨((i 0).val * 60 + (i 1).val) % 60, by have h0 : (i 0).val < 65536 := (i 0).isLt; have h1 : (i 1).val < 60 := (i 1).isLt; show ((i 0).val * 60 + (i 1).val) % 60 < 60; omega⟩
theorem val_main_v62_apply (x5 : (⟨S3x65536x60, .f32⟩ : BufTy).Contents (Elt F)) (i : S65536x60.Idx) :
    val_main_v62 (F := F) x5 i = val_main_v61 (F := F) x5 (idx_main_v62 i) := by
  unfold val_main_v62
  generalize val_main_v61 (F := F) x5 = y
  exact shapeCast_apply y shapeCasts_S1x65536x60_S65536x60 i (idx_main_v62 i)
    (by rewrite [Shape.rowMajor_val_three, Shape.rowMajor_val_two]; have h0 : (i 0).val < 65536 := (i 0).isLt; have h1 : (i 1).val < 60 := (i 1).isLt; show (0 * 65536 + ((i 0).val * 60 + (i 1).val) / 60 % 65536) * 60 + ((i 0).val * 60 + (i 1).val) % 60 = (i 0).val * 60 + (i 1).val; omega)
def val_main_v63 (x0 : (⟨S1x100x65536, .f32⟩ : BufTy).Contents (Elt F)) (x5 : (⟨S3x65536x60, .f32⟩ : BufTy).Contents (Elt F)) : (⟨S100x60, .f32⟩ : BufTy).Contents (Elt F) :=
  Host.dotGeneral dot_S100x65536_S65536x60_S100x60_1_0_0_1_n_n none (val_main_v31 (F := F) x0) (val_main_v62 (F := F) x5)
theorem lhs_main_v63_0 (i : S100x60.Idx) (q : dot_S100x65536_S65536x60_S100x60_1_0_0_1_n_n.contr.Idx) :
    (dot_S100x65536_S65536x60_S100x60_1_0_0_1_n_n.lhsIdx i q 0).val = (i 0).val := by
  unfold DotDims.lhsIdx
  rw [dif_neg (show ¬(0 : Fin S100x65536.rank) ∈ dot_S100x65536_S65536x60_S100x60_1_0_0_1_n_n.lhsBatch by decide), dif_pos (show (0 : Fin S100x65536.rank) ∈ dot_S100x65536_S65536x60_S100x60_1_0_0_1_n_n.lhsNonContracting by decide)]
  rfl
theorem lhs_main_v63_1 (i : S100x60.Idx) (q : dot_S100x65536_S65536x60_S100x60_1_0_0_1_n_n.contr.Idx) :
    (dot_S100x65536_S65536x60_S100x60_1_0_0_1_n_n.lhsIdx i q 1).val = (q ⟨0, by decide⟩).val :=
  dot_S100x65536_S65536x60_S100x60_1_0_0_1_n_n.lhsIdx_val_of_single rfl i q
theorem rhs_main_v63_0 (i : S100x60.Idx) (q : dot_S100x65536_S65536x60_S100x60_1_0_0_1_n_n.contr.Idx) :
    (dot_S100x65536_S65536x60_S100x60_1_0_0_1_n_n.rhsIdx i q 0).val = (q ⟨0, by decide⟩).val :=
  dot_S100x65536_S65536x60_S100x60_1_0_0_1_n_n.rhsIdx_val_of_single rfl i q
theorem rhs_main_v63_1 (i : S100x60.Idx) (q : dot_S100x65536_S65536x60_S100x60_1_0_0_1_n_n.contr.Idx) :
    (dot_S100x65536_S65536x60_S100x60_1_0_0_1_n_n.rhsIdx i q 1).val = (i 1).val := by
  unfold DotDims.rhsIdx
  rw [dif_neg (show ¬(1 : Fin S65536x60.rank) ∈ dot_S100x65536_S65536x60_S100x60_1_0_0_1_n_n.rhsBatch by decide), dif_pos (show (1 : Fin S65536x60.rank) ∈ dot_S100x65536_S65536x60_S100x60_1_0_0_1_n_n.rhsNonContracting by decide)]
  rfl
abbrev lidx_main_v63 (i : S100x60.Idx) (k : Fin 65536) : S100x65536.Idx := fun a => match a with
  | ⟨0, _⟩ => ⟨(i 0).val, (i 0).isLt⟩
  | ⟨1, _⟩ => ⟨k.val, k.isLt⟩
abbrev ridx_main_v63 (i : S100x60.Idx) (k : Fin 65536) : S65536x60.Idx := fun a => match a with
  | ⟨0, _⟩ => ⟨k.val, k.isLt⟩
  | ⟨1, _⟩ => ⟨(i 1).val, (i 1).isLt⟩
theorem val_main_v63_apply (x0 : (⟨S1x100x65536, .f32⟩ : BufTy).Contents (Elt Ideal)) (x5 : (⟨S3x65536x60, .f32⟩ : BufTy).Contents (Elt Ideal)) (i : S100x60.Idx) :
    val_main_v63 (F := Ideal) x0 x5 i = ∑ k : Fin 65536, (val_main_v31 (F := Ideal) x0) (lidx_main_v63 i k) * (val_main_v62 (F := Ideal) x5) (ridx_main_v63 i k) := by
  unfold val_main_v63
  generalize val_main_v31 (F := Ideal) x0 = y0
  generalize val_main_v62 (F := Ideal) x5 = y1
  simp only [Host.dotGeneral]
  rw [Ideal.dotGeneral_apply, ← Equiv.sum_comp (ValueIdx.contrEquiv1 dot_S100x65536_S65536x60_S100x60_1_0_0_1_n_n 65536 rfl rfl).symm]
  refine Finset.sum_congr rfl fun k _ => ?_
  have hk := ValueIdx.contrEquiv1_symm_val dot_S100x65536_S65536x60_S100x60_1_0_0_1_n_n 65536 rfl rfl k
  have el : dot_S100x65536_S65536x60_S100x60_1_0_0_1_n_n.lhsIdx i ((ValueIdx.contrEquiv1 dot_S100x65536_S65536x60_S100x60_1_0_0_1_n_n 65536 rfl rfl).symm k) = lidx_main_v63 i k := funext fun a => Fin.ext (by
    match a with
    | ⟨0, _⟩ => exact lhs_main_v63_0 _ _
    | ⟨1, _⟩ => exact (lhs_main_v63_1 _ _).trans hk)
  have er : dot_S100x65536_S65536x60_S100x60_1_0_0_1_n_n.rhsIdx i ((ValueIdx.contrEquiv1 dot_S100x65536_S65536x60_S100x60_1_0_0_1_n_n 65536 rfl rfl).symm k) = ridx_main_v63 i k := funext fun a => Fin.ext (by
    match a with
    | ⟨0, _⟩ => exact (rhs_main_v63_0 _ _).trans hk
    | ⟨1, _⟩ => exact rhs_main_v63_1 _ _)
  rw [el, er]
def val_main_v64 (x5 : (⟨S3x65536x60, .f32⟩ : BufTy).Contents (Elt F)) : (⟨S1x65536x60, .f32⟩ : BufTy).Contents (Elt F) :=
  extractStridedSlice S1x65536x60 ![1, 0, 0] (x5) slices_S3x65536x60_S1x65536x60_1_0_0
abbrev idx_main_v64 (i : S1x65536x60.Idx) : S3x65536x60.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
  | ⟨2, _⟩ => ⟨(i 2).val, (i 2).isLt⟩
theorem val_main_v64_apply (x5 : (⟨S3x65536x60, .f32⟩ : BufTy).Contents (Elt F)) (i : S1x65536x60.Idx) :
    val_main_v64 (F := F) x5 i = x5 (idx_main_v64 i) := by
  unfold val_main_v64
  exact extractStridedSlice_apply ![1, 0, 0] x5 slices_S3x65536x60_S1x65536x60_1_0_0 i (idx_main_v64 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)
def val_main_v65 (x5 : (⟨S3x65536x60, .f32⟩ : BufTy).Contents (Elt F)) : (⟨S65536x60, .f32⟩ : BufTy).Contents (Elt F) :=
  shapeCast _ (val_main_v64 (F := F) x5) shapeCasts_S1x65536x60_S65536x60
abbrev idx_main_v65 (i : S65536x60.Idx) : S1x65536x60.Idx := fun a => match a with
  | ⟨0, _⟩ => ⟨0, Nat.one_pos⟩
  | ⟨1, _⟩ => ⟨((i 0).val * 60 + (i 1).val) / 60 % 65536, by have h0 : (i 0).val < 65536 := (i 0).isLt; have h1 : (i 1).val < 60 := (i 1).isLt; show ((i 0).val * 60 + (i 1).val) / 60 % 65536 < 65536; omega⟩
  | ⟨2, _⟩ => ⟨((i 0).val * 60 + (i 1).val) % 60, by have h0 : (i 0).val < 65536 := (i 0).isLt; have h1 : (i 1).val < 60 := (i 1).isLt; show ((i 0).val * 60 + (i 1).val) % 60 < 60; omega⟩
theorem val_main_v65_apply (x5 : (⟨S3x65536x60, .f32⟩ : BufTy).Contents (Elt F)) (i : S65536x60.Idx) :
    val_main_v65 (F := F) x5 i = val_main_v64 (F := F) x5 (idx_main_v65 i) := by
  unfold val_main_v65
  generalize val_main_v64 (F := F) x5 = y
  exact shapeCast_apply y shapeCasts_S1x65536x60_S65536x60 i (idx_main_v65 i)
    (by rewrite [Shape.rowMajor_val_three, Shape.rowMajor_val_two]; have h0 : (i 0).val < 65536 := (i 0).isLt; have h1 : (i 1).val < 60 := (i 1).isLt; show (0 * 65536 + ((i 0).val * 60 + (i 1).val) / 60 % 65536) * 60 + ((i 0).val * 60 + (i 1).val) % 60 = (i 0).val * 60 + (i 1).val; omega)
def val_main_v66 (x0 : (⟨S1x100x65536, .f32⟩ : BufTy).Contents (Elt F)) (x1 : (⟨S2x2000, .i32⟩ : BufTy).Contents (Elt F)) (x5 : (⟨S3x65536x60, .f32⟩ : BufTy).Contents (Elt F)) : (⟨S100x60, .f32⟩ : BufTy).Contents (Elt F) :=
  Host.dotGeneral dot_S100x65536_S65536x60_S100x60_1_0_0_1_n_n none (val_main_v44 (F := F) x0 x1) (val_main_v65 (F := F) x5)
theorem lhs_main_v66_0 (i : S100x60.Idx) (q : dot_S100x65536_S65536x60_S100x60_1_0_0_1_n_n.contr.Idx) :
    (dot_S100x65536_S65536x60_S100x60_1_0_0_1_n_n.lhsIdx i q 0).val = (i 0).val := by
  unfold DotDims.lhsIdx
  rw [dif_neg (show ¬(0 : Fin S100x65536.rank) ∈ dot_S100x65536_S65536x60_S100x60_1_0_0_1_n_n.lhsBatch by decide), dif_pos (show (0 : Fin S100x65536.rank) ∈ dot_S100x65536_S65536x60_S100x60_1_0_0_1_n_n.lhsNonContracting by decide)]
  rfl
theorem lhs_main_v66_1 (i : S100x60.Idx) (q : dot_S100x65536_S65536x60_S100x60_1_0_0_1_n_n.contr.Idx) :
    (dot_S100x65536_S65536x60_S100x60_1_0_0_1_n_n.lhsIdx i q 1).val = (q ⟨0, by decide⟩).val :=
  dot_S100x65536_S65536x60_S100x60_1_0_0_1_n_n.lhsIdx_val_of_single rfl i q
theorem rhs_main_v66_0 (i : S100x60.Idx) (q : dot_S100x65536_S65536x60_S100x60_1_0_0_1_n_n.contr.Idx) :
    (dot_S100x65536_S65536x60_S100x60_1_0_0_1_n_n.rhsIdx i q 0).val = (q ⟨0, by decide⟩).val :=
  dot_S100x65536_S65536x60_S100x60_1_0_0_1_n_n.rhsIdx_val_of_single rfl i q
theorem rhs_main_v66_1 (i : S100x60.Idx) (q : dot_S100x65536_S65536x60_S100x60_1_0_0_1_n_n.contr.Idx) :
    (dot_S100x65536_S65536x60_S100x60_1_0_0_1_n_n.rhsIdx i q 1).val = (i 1).val := by
  unfold DotDims.rhsIdx
  rw [dif_neg (show ¬(1 : Fin S65536x60.rank) ∈ dot_S100x65536_S65536x60_S100x60_1_0_0_1_n_n.rhsBatch by decide), dif_pos (show (1 : Fin S65536x60.rank) ∈ dot_S100x65536_S65536x60_S100x60_1_0_0_1_n_n.rhsNonContracting by decide)]
  rfl
abbrev lidx_main_v66 (i : S100x60.Idx) (k : Fin 65536) : S100x65536.Idx := fun a => match a with
  | ⟨0, _⟩ => ⟨(i 0).val, (i 0).isLt⟩
  | ⟨1, _⟩ => ⟨k.val, k.isLt⟩
abbrev ridx_main_v66 (i : S100x60.Idx) (k : Fin 65536) : S65536x60.Idx := fun a => match a with
  | ⟨0, _⟩ => ⟨k.val, k.isLt⟩
  | ⟨1, _⟩ => ⟨(i 1).val, (i 1).isLt⟩
theorem val_main_v66_apply (x0 : (⟨S1x100x65536, .f32⟩ : BufTy).Contents (Elt Ideal)) (x1 : (⟨S2x2000, .i32⟩ : BufTy).Contents (Elt Ideal)) (x5 : (⟨S3x65536x60, .f32⟩ : BufTy).Contents (Elt Ideal)) (i : S100x60.Idx) :
    val_main_v66 (F := Ideal) x0 x1 x5 i = ∑ k : Fin 65536, (val_main_v44 (F := Ideal) x0 x1) (lidx_main_v66 i k) * (val_main_v65 (F := Ideal) x5) (ridx_main_v66 i k) := by
  unfold val_main_v66
  generalize val_main_v44 (F := Ideal) x0 x1 = y0
  generalize val_main_v65 (F := Ideal) x5 = y1
  simp only [Host.dotGeneral]
  rw [Ideal.dotGeneral_apply, ← Equiv.sum_comp (ValueIdx.contrEquiv1 dot_S100x65536_S65536x60_S100x60_1_0_0_1_n_n 65536 rfl rfl).symm]
  refine Finset.sum_congr rfl fun k _ => ?_
  have hk := ValueIdx.contrEquiv1_symm_val dot_S100x65536_S65536x60_S100x60_1_0_0_1_n_n 65536 rfl rfl k
  have el : dot_S100x65536_S65536x60_S100x60_1_0_0_1_n_n.lhsIdx i ((ValueIdx.contrEquiv1 dot_S100x65536_S65536x60_S100x60_1_0_0_1_n_n 65536 rfl rfl).symm k) = lidx_main_v66 i k := funext fun a => Fin.ext (by
    match a with
    | ⟨0, _⟩ => exact lhs_main_v66_0 _ _
    | ⟨1, _⟩ => exact (lhs_main_v66_1 _ _).trans hk)
  have er : dot_S100x65536_S65536x60_S100x60_1_0_0_1_n_n.rhsIdx i ((ValueIdx.contrEquiv1 dot_S100x65536_S65536x60_S100x60_1_0_0_1_n_n 65536 rfl rfl).symm k) = ridx_main_v66 i k := funext fun a => Fin.ext (by
    match a with
    | ⟨0, _⟩ => exact (rhs_main_v66_0 _ _).trans hk
    | ⟨1, _⟩ => exact rhs_main_v66_1 _ _)
  rw [el, er]
def val_main_v67 (x0 : (⟨S1x100x65536, .f32⟩ : BufTy).Contents (Elt F)) (x1 : (⟨S2x2000, .i32⟩ : BufTy).Contents (Elt F)) (x5 : (⟨S3x65536x60, .f32⟩ : BufTy).Contents (Elt F)) : (⟨S100x60, .f32⟩ : BufTy).Contents (Elt F) :=
  addf (val_main_v63 (F := F) x0 x5) (val_main_v66 (F := F) x0 x1 x5)
theorem val_main_v67_apply (x0 : (⟨S1x100x65536, .f32⟩ : BufTy).Contents (Elt F)) (x1 : (⟨S2x2000, .i32⟩ : BufTy).Contents (Elt F)) (x5 : (⟨S3x65536x60, .f32⟩ : BufTy).Contents (Elt F)) (i : S100x60.Idx) :
    val_main_v67 (F := F) x0 x1 x5 i = FloatOps.addf (val_main_v63 (F := F) x0 x5 i) (val_main_v66 (F := F) x0 x1 x5 i) := rfl
def val_main_v68 (x5 : (⟨S3x65536x60, .f32⟩ : BufTy).Contents (Elt F)) : (⟨S1x65536x60, .f32⟩ : BufTy).Contents (Elt F) :=
  extractStridedSlice S1x65536x60 ![2, 0, 0] (x5) slices_S3x65536x60_S1x65536x60_2_0_0
abbrev idx_main_v68 (i : S1x65536x60.Idx) : S3x65536x60.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
  | ⟨2, _⟩ => ⟨(i 2).val, (i 2).isLt⟩
theorem val_main_v68_apply (x5 : (⟨S3x65536x60, .f32⟩ : BufTy).Contents (Elt F)) (i : S1x65536x60.Idx) :
    val_main_v68 (F := F) x5 i = x5 (idx_main_v68 i) := by
  unfold val_main_v68
  exact extractStridedSlice_apply ![2, 0, 0] x5 slices_S3x65536x60_S1x65536x60_2_0_0 i (idx_main_v68 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)
def val_main_v69 (x5 : (⟨S3x65536x60, .f32⟩ : BufTy).Contents (Elt F)) : (⟨S65536x60, .f32⟩ : BufTy).Contents (Elt F) :=
  shapeCast _ (val_main_v68 (F := F) x5) shapeCasts_S1x65536x60_S65536x60
abbrev idx_main_v69 (i : S65536x60.Idx) : S1x65536x60.Idx := fun a => match a with
  | ⟨0, _⟩ => ⟨0, Nat.one_pos⟩
  | ⟨1, _⟩ => ⟨((i 0).val * 60 + (i 1).val) / 60 % 65536, by have h0 : (i 0).val < 65536 := (i 0).isLt; have h1 : (i 1).val < 60 := (i 1).isLt; show ((i 0).val * 60 + (i 1).val) / 60 % 65536 < 65536; omega⟩
  | ⟨2, _⟩ => ⟨((i 0).val * 60 + (i 1).val) % 60, by have h0 : (i 0).val < 65536 := (i 0).isLt; have h1 : (i 1).val < 60 := (i 1).isLt; show ((i 0).val * 60 + (i 1).val) % 60 < 60; omega⟩
theorem val_main_v69_apply (x5 : (⟨S3x65536x60, .f32⟩ : BufTy).Contents (Elt F)) (i : S65536x60.Idx) :
    val_main_v69 (F := F) x5 i = val_main_v68 (F := F) x5 (idx_main_v69 i) := by
  unfold val_main_v69
  generalize val_main_v68 (F := F) x5 = y
  exact shapeCast_apply y shapeCasts_S1x65536x60_S65536x60 i (idx_main_v69 i)
    (by rewrite [Shape.rowMajor_val_three, Shape.rowMajor_val_two]; have h0 : (i 0).val < 65536 := (i 0).isLt; have h1 : (i 1).val < 60 := (i 1).isLt; show (0 * 65536 + ((i 0).val * 60 + (i 1).val) / 60 % 65536) * 60 + ((i 0).val * 60 + (i 1).val) % 60 = (i 0).val * 60 + (i 1).val; omega)
def val_main_v70 (x0 : (⟨S1x100x65536, .f32⟩ : BufTy).Contents (Elt F)) (x1 : (⟨S2x2000, .i32⟩ : BufTy).Contents (Elt F)) (x5 : (⟨S3x65536x60, .f32⟩ : BufTy).Contents (Elt F)) : (⟨S100x60, .f32⟩ : BufTy).Contents (Elt F) :=
  Host.dotGeneral dot_S100x65536_S65536x60_S100x60_1_0_0_1_n_n none (val_main_v60 (F := F) x0 x1) (val_main_v69 (F := F) x5)
theorem lhs_main_v70_0 (i : S100x60.Idx) (q : dot_S100x65536_S65536x60_S100x60_1_0_0_1_n_n.contr.Idx) :
    (dot_S100x65536_S65536x60_S100x60_1_0_0_1_n_n.lhsIdx i q 0).val = (i 0).val := by
  unfold DotDims.lhsIdx
  rw [dif_neg (show ¬(0 : Fin S100x65536.rank) ∈ dot_S100x65536_S65536x60_S100x60_1_0_0_1_n_n.lhsBatch by decide), dif_pos (show (0 : Fin S100x65536.rank) ∈ dot_S100x65536_S65536x60_S100x60_1_0_0_1_n_n.lhsNonContracting by decide)]
  rfl
theorem lhs_main_v70_1 (i : S100x60.Idx) (q : dot_S100x65536_S65536x60_S100x60_1_0_0_1_n_n.contr.Idx) :
    (dot_S100x65536_S65536x60_S100x60_1_0_0_1_n_n.lhsIdx i q 1).val = (q ⟨0, by decide⟩).val :=
  dot_S100x65536_S65536x60_S100x60_1_0_0_1_n_n.lhsIdx_val_of_single rfl i q
theorem rhs_main_v70_0 (i : S100x60.Idx) (q : dot_S100x65536_S65536x60_S100x60_1_0_0_1_n_n.contr.Idx) :
    (dot_S100x65536_S65536x60_S100x60_1_0_0_1_n_n.rhsIdx i q 0).val = (q ⟨0, by decide⟩).val :=
  dot_S100x65536_S65536x60_S100x60_1_0_0_1_n_n.rhsIdx_val_of_single rfl i q
theorem rhs_main_v70_1 (i : S100x60.Idx) (q : dot_S100x65536_S65536x60_S100x60_1_0_0_1_n_n.contr.Idx) :
    (dot_S100x65536_S65536x60_S100x60_1_0_0_1_n_n.rhsIdx i q 1).val = (i 1).val := by
  unfold DotDims.rhsIdx
  rw [dif_neg (show ¬(1 : Fin S65536x60.rank) ∈ dot_S100x65536_S65536x60_S100x60_1_0_0_1_n_n.rhsBatch by decide), dif_pos (show (1 : Fin S65536x60.rank) ∈ dot_S100x65536_S65536x60_S100x60_1_0_0_1_n_n.rhsNonContracting by decide)]
  rfl
abbrev lidx_main_v70 (i : S100x60.Idx) (k : Fin 65536) : S100x65536.Idx := fun a => match a with
  | ⟨0, _⟩ => ⟨(i 0).val, (i 0).isLt⟩
  | ⟨1, _⟩ => ⟨k.val, k.isLt⟩
abbrev ridx_main_v70 (i : S100x60.Idx) (k : Fin 65536) : S65536x60.Idx := fun a => match a with
  | ⟨0, _⟩ => ⟨k.val, k.isLt⟩
  | ⟨1, _⟩ => ⟨(i 1).val, (i 1).isLt⟩
theorem val_main_v70_apply (x0 : (⟨S1x100x65536, .f32⟩ : BufTy).Contents (Elt Ideal)) (x1 : (⟨S2x2000, .i32⟩ : BufTy).Contents (Elt Ideal)) (x5 : (⟨S3x65536x60, .f32⟩ : BufTy).Contents (Elt Ideal)) (i : S100x60.Idx) :
    val_main_v70 (F := Ideal) x0 x1 x5 i = ∑ k : Fin 65536, (val_main_v60 (F := Ideal) x0 x1) (lidx_main_v70 i k) * (val_main_v69 (F := Ideal) x5) (ridx_main_v70 i k) := by
  unfold val_main_v70
  generalize val_main_v60 (F := Ideal) x0 x1 = y0
  generalize val_main_v69 (F := Ideal) x5 = y1
  simp only [Host.dotGeneral]
  rw [Ideal.dotGeneral_apply, ← Equiv.sum_comp (ValueIdx.contrEquiv1 dot_S100x65536_S65536x60_S100x60_1_0_0_1_n_n 65536 rfl rfl).symm]
  refine Finset.sum_congr rfl fun k _ => ?_
  have hk := ValueIdx.contrEquiv1_symm_val dot_S100x65536_S65536x60_S100x60_1_0_0_1_n_n 65536 rfl rfl k
  have el : dot_S100x65536_S65536x60_S100x60_1_0_0_1_n_n.lhsIdx i ((ValueIdx.contrEquiv1 dot_S100x65536_S65536x60_S100x60_1_0_0_1_n_n 65536 rfl rfl).symm k) = lidx_main_v70 i k := funext fun a => Fin.ext (by
    match a with
    | ⟨0, _⟩ => exact lhs_main_v70_0 _ _
    | ⟨1, _⟩ => exact (lhs_main_v70_1 _ _).trans hk)
  have er : dot_S100x65536_S65536x60_S100x60_1_0_0_1_n_n.rhsIdx i ((ValueIdx.contrEquiv1 dot_S100x65536_S65536x60_S100x60_1_0_0_1_n_n 65536 rfl rfl).symm k) = ridx_main_v70 i k := funext fun a => Fin.ext (by
    match a with
    | ⟨0, _⟩ => exact (rhs_main_v70_0 _ _).trans hk
    | ⟨1, _⟩ => exact rhs_main_v70_1 _ _)
  rw [el, er]
def val_main_v71 (x0 : (⟨S1x100x65536, .f32⟩ : BufTy).Contents (Elt F)) (x1 : (⟨S2x2000, .i32⟩ : BufTy).Contents (Elt F)) (x5 : (⟨S3x65536x60, .f32⟩ : BufTy).Contents (Elt F)) : (⟨S100x60, .f32⟩ : BufTy).Contents (Elt F) :=
  addf (val_main_v67 (F := F) x0 x1 x5) (val_main_v70 (F := F) x0 x1 x5)
theorem val_main_v71_apply (x0 : (⟨S1x100x65536, .f32⟩ : BufTy).Contents (Elt F)) (x1 : (⟨S2x2000, .i32⟩ : BufTy).Contents (Elt F)) (x5 : (⟨S3x65536x60, .f32⟩ : BufTy).Contents (Elt F)) (i : S100x60.Idx) :
    val_main_v71 (F := F) x0 x1 x5 i = FloatOps.addf (val_main_v67 (F := F) x0 x1 x5 i) (val_main_v70 (F := F) x0 x1 x5 i) := rfl
def val_main_v72 (x6 : (⟨S60, .f32⟩ : BufTy).Contents (Elt F)) : (⟨S1x60, .f32⟩ : BufTy).Contents (Elt F) :=
  broadcastInDim S1x60 ![1] bcast_S60_S1x60_1 (x6)
abbrev idx_main_v72 (i : S1x60.Idx) : S60.Idx := fun a => match a with
  | ⟨0, _⟩ => ⟨(i 1).val, (i 1).isLt⟩
theorem val_main_v72_apply (x6 : (⟨S60, .f32⟩ : BufTy).Contents (Elt F)) (i : S1x60.Idx) :
    val_main_v72 (F := F) x6 i = x6 (idx_main_v72 i) := by
  unfold val_main_v72
  exact broadcastInDim_apply _ bcast_S60_S1x60_1 x6 i (idx_main_v72 i) (fun a => match a with
    | ⟨0, _⟩ => by show (i 1).val = if (60 : Nat) = 1 then 0 else (i 1).val; rw [if_neg (by decide)])
def val_main_v73 (x6 : (⟨S60, .f32⟩ : BufTy).Contents (Elt F)) : (⟨S100x60, .f32⟩ : BufTy).Contents (Elt F) :=
  broadcastInDim S100x60 ![0, 1] bcast_S1x60_S100x60_0_1 (val_main_v72 (F := F) x6)
abbrev idx_main_v73 (i : S100x60.Idx) : S1x60.Idx := fun a => match a with
  | ⟨0, _⟩ => ⟨0, Nat.one_pos⟩
  | ⟨1, _⟩ => ⟨(i 1).val, (i 1).isLt⟩
theorem val_main_v73_apply (x6 : (⟨S60, .f32⟩ : BufTy).Contents (Elt F)) (i : S100x60.Idx) :
    val_main_v73 (F := F) x6 i = val_main_v72 (F := F) x6 (idx_main_v73 i) := by
  unfold val_main_v73
  generalize val_main_v72 (F := F) x6 = y
  exact broadcastInDim_apply _ bcast_S1x60_S100x60_0_1 y i (idx_main_v73 i) (fun a => match a with
    | ⟨0, _⟩ => by show 0 = if (1 : Nat) = 1 then 0 else (i 0).val; rw [if_pos rfl]
    | ⟨1, _⟩ => by show (i 1).val = if (60 : Nat) = 1 then 0 else (i 1).val; rw [if_neg (by decide)])
def val_main_v74 (x0 : (⟨S1x100x65536, .f32⟩ : BufTy).Contents (Elt F)) (x1 : (⟨S2x2000, .i32⟩ : BufTy).Contents (Elt F)) (x5 : (⟨S3x65536x60, .f32⟩ : BufTy).Contents (Elt F)) (x6 : (⟨S60, .f32⟩ : BufTy).Contents (Elt F)) : (⟨S100x60, .f32⟩ : BufTy).Contents (Elt F) :=
  addf (val_main_v71 (F := F) x0 x1 x5) (val_main_v73 (F := F) x6)
theorem val_main_v74_apply (x0 : (⟨S1x100x65536, .f32⟩ : BufTy).Contents (Elt F)) (x1 : (⟨S2x2000, .i32⟩ : BufTy).Contents (Elt F)) (x5 : (⟨S3x65536x60, .f32⟩ : BufTy).Contents (Elt F)) (x6 : (⟨S60, .f32⟩ : BufTy).Contents (Elt F)) (i : S100x60.Idx) :
    val_main_v74 (F := F) x0 x1 x5 x6 i = FloatOps.addf (val_main_v71 (F := F) x0 x1 x5 i) (val_main_v73 (F := F) x6 i) := rfl
def val_main_v75 (x0 : (⟨S1x100x65536, .f32⟩ : BufTy).Contents (Elt F)) (x1 : (⟨S2x2000, .i32⟩ : BufTy).Contents (Elt F)) (x5 : (⟨S3x65536x60, .f32⟩ : BufTy).Contents (Elt F)) (x6 : (⟨S60, .f32⟩ : BufTy).Contents (Elt F)) : (⟨S1x100x60, .f32⟩ : BufTy).Contents (Elt F) :=
  broadcastInDim S1x100x60 ![1, 2] bcast_S100x60_S1x100x60_1_2 (val_main_v74 (F := F) x0 x1 x5 x6)
abbrev idx_main_v75 (i : S1x100x60.Idx) : S100x60.Idx := fun a => match a with
  | ⟨0, _⟩ => ⟨(i 1).val, (i 1).isLt⟩
  | ⟨1, _⟩ => ⟨(i 2).val, (i 2).isLt⟩
theorem val_main_v75_apply (x0 : (⟨S1x100x65536, .f32⟩ : BufTy).Contents (Elt F)) (x1 : (⟨S2x2000, .i32⟩ : BufTy).Contents (Elt F)) (x5 : (⟨S3x65536x60, .f32⟩ : BufTy).Contents (Elt F)) (x6 : (⟨S60, .f32⟩ : BufTy).Contents (Elt F)) (i : S1x100x60.Idx) :
    val_main_v75 (F := F) x0 x1 x5 x6 i = val_main_v74 (F := F) x0 x1 x5 x6 (idx_main_v75 i) := by
  unfold val_main_v75
  generalize val_main_v74 (F := F) x0 x1 x5 x6 = y
  exact broadcastInDim_apply _ bcast_S100x60_S1x100x60_1_2 y i (idx_main_v75 i) (fun a => match a with
    | ⟨0, _⟩ => by show (i 1).val = if (100 : Nat) = 1 then 0 else (i 1).val; rw [if_neg (by decide)]
    | ⟨1, _⟩ => by show (i 2).val = if (60 : Nat) = 1 then 0 else (i 2).val; rw [if_neg (by decide)])
def val_main_v76 (x0 : (⟨S1x100x65536, .f32⟩ : BufTy).Contents (Elt F)) (x1 : (⟨S2x2000, .i32⟩ : BufTy).Contents (Elt F)) (x5 : (⟨S3x65536x60, .f32⟩ : BufTy).Contents (Elt F)) (x6 : (⟨S60, .f32⟩ : BufTy).Contents (Elt F)) : (⟨S1x100x60, .f32⟩ : BufTy).Contents (Elt F) :=
  Host.tanh (val_main_v75 (F := F) x0 x1 x5 x6)
theorem val_main_v76_apply (x0 : (⟨S1x100x65536, .f32⟩ : BufTy).Contents (Elt F)) (x1 : (⟨S2x2000, .i32⟩ : BufTy).Contents (Elt F)) (x5 : (⟨S3x65536x60, .f32⟩ : BufTy).Contents (Elt F)) (x6 : (⟨S60, .f32⟩ : BufTy).Contents (Elt F)) (i : S1x100x60.Idx) :
    val_main_v76 (F := F) x0 x1 x5 x6 i = FloatOps.hostUnary .tanh (val_main_v75 (F := F) x0 x1 x5 x6 i) := rfl
def val_main_v77 (x0 : (⟨S1x100x65536, .f32⟩ : BufTy).Contents (Elt F)) (x1 : (⟨S2x2000, .i32⟩ : BufTy).Contents (Elt F)) (x5 : (⟨S3x65536x60, .f32⟩ : BufTy).Contents (Elt F)) (x6 : (⟨S60, .f32⟩ : BufTy).Contents (Elt F)) : (⟨S1x6000, .f32⟩ : BufTy).Contents (Elt F) :=
  shapeCast _ (val_main_v76 (F := F) x0 x1 x5 x6) shapeCasts_S1x100x60_S1x6000
abbrev idx_main_v77 (i : S1x6000.Idx) : S1x100x60.Idx := fun a => match a with
  | ⟨0, _⟩ => ⟨0, Nat.one_pos⟩
  | ⟨1, _⟩ => ⟨((i 0).val * 6000 + (i 1).val) / 60 % 100, by have h0 : (i 0).val < 1 := (i 0).isLt; have h1 : (i 1).val < 6000 := (i 1).isLt; show ((i 0).val * 6000 + (i 1).val) / 60 % 100 < 100; omega⟩
  | ⟨2, _⟩ => ⟨((i 0).val * 6000 + (i 1).val) % 60, by have h0 : (i 0).val < 1 := (i 0).isLt; have h1 : (i 1).val < 6000 := (i 1).isLt; show ((i 0).val * 6000 + (i 1).val) % 60 < 60; omega⟩
theorem val_main_v77_apply (x0 : (⟨S1x100x65536, .f32⟩ : BufTy).Contents (Elt F)) (x1 : (⟨S2x2000, .i32⟩ : BufTy).Contents (Elt F)) (x5 : (⟨S3x65536x60, .f32⟩ : BufTy).Contents (Elt F)) (x6 : (⟨S60, .f32⟩ : BufTy).Contents (Elt F)) (i : S1x6000.Idx) :
    val_main_v77 (F := F) x0 x1 x5 x6 i = val_main_v76 (F := F) x0 x1 x5 x6 (idx_main_v77 i) := by
  unfold val_main_v77
  generalize val_main_v76 (F := F) x0 x1 x5 x6 = y
  exact shapeCast_apply y shapeCasts_S1x100x60_S1x6000 i (idx_main_v77 i)
    (by rewrite [Shape.rowMajor_val_three, Shape.rowMajor_val_two]; have h0 : (i 0).val < 1 := (i 0).isLt; have h1 : (i 1).val < 6000 := (i 1).isLt; show (0 * 100 + ((i 0).val * 6000 + (i 1).val) / 60 % 100) * 60 + ((i 0).val * 6000 + (i 1).val) % 60 = (i 0).val * 6000 + (i 1).val; omega)
def val_main_v156 (x2 : (⟨S1, .f32⟩ : BufTy).Contents (Elt F)) : (⟨S1x1, .f32⟩ : BufTy).Contents (Elt F) :=
  broadcastInDim S1x1 ![1] bcast_S1_S1x1_1 (x2)
def val_main_v157 (x3 : (⟨S1, .f32⟩ : BufTy).Contents (Elt F)) : (⟨S1x1, .f32⟩ : BufTy).Contents (Elt F) :=
  broadcastInDim S1x1 ![1] bcast_S1_S1x1_1 (x3)
def val_main_v158 (x4 : (⟨S1, .f32⟩ : BufTy).Contents (Elt F)) : (⟨S1x1, .f32⟩ : BufTy).Contents (Elt F) :=
  broadcastInDim S1x1 ![1] bcast_S1_S1x1_1 (x4)
def val_main_v159 (x0 : (⟨S1x100x65536, .f32⟩ : BufTy).Contents (Elt F)) (x1 : (⟨S2x2000, .i32⟩ : BufTy).Contents (Elt F)) (x2 x3 x4 : (⟨S1, .f32⟩ : BufTy).Contents (Elt F)) (x5 : (⟨S3x65536x60, .f32⟩ : BufTy).Contents (Elt F)) (x6 : (⟨S60, .f32⟩ : BufTy).Contents (Elt F)) : (⟨S1x6003, .f32⟩ : BufTy).Contents (Elt F) :=
  concatenate S1x6003 1 [⟨S1x6000, (val_main_v77 (F := F) x0 x1 x5 x6)⟩, ⟨S1x1, (val_main_v156 (F := F) x2)⟩, ⟨S1x1, (val_main_v157 (F := F) x3)⟩, ⟨S1x1, (val_main_v158 (F := F) x4)⟩] concatenates_S1x6000_S1x1_S1x1_S1x1_S1x6003_d1
def val_main_v160 (x0 : (⟨S1x100x65536, .f32⟩ : BufTy).Contents (Elt F)) (x1 : (⟨S2x2000, .i32⟩ : BufTy).Contents (Elt F)) (x2 x3 x4 : (⟨S1, .f32⟩ : BufTy).Contents (Elt F)) (x7 : (⟨S3x65536x60, .f32⟩ : BufTy).Contents (Elt F)) (x8 : (⟨S60, .f32⟩ : BufTy).Contents (Elt F)) : (⟨S1x6003, .f32⟩ : BufTy).Contents (Elt F) :=
  concatenate S1x6003 1 [⟨S1x6000, (val_main_v77 (F := F) x0 x1 x7 x8)⟩, ⟨S1x1, (val_main_v156 (F := F) x2)⟩, ⟨S1x1, (val_main_v157 (F := F) x3)⟩, ⟨S1x1, (val_main_v158 (F := F) x4)⟩] concatenates_S1x6000_S1x1_S1x1_S1x1_S1x6003_d1
def val_main_v161 (x0 : (⟨S1x100x65536, .f32⟩ : BufTy).Contents (Elt F)) (x1 : (⟨S2x2000, .i32⟩ : BufTy).Contents (Elt F)) (x2 x3 x4 : (⟨S1, .f32⟩ : BufTy).Contents (Elt F)) (x5 : (⟨S3x65536x60, .f32⟩ : BufTy).Contents (Elt F)) (x6 : (⟨S60, .f32⟩ : BufTy).Contents (Elt F)) (x9 : (⟨S6003x100, .f32⟩ : BufTy).Contents (Elt F)) : (⟨S1x100, .f32⟩ : BufTy).Contents (Elt F) :=
  Host.dotGeneral dot_S1x6003_S6003x100_S1x100_1_0_0_1_n_n none (val_main_v159 (F := F) x0 x1 x2 x3 x4 x5 x6) (x9)
def val_main_v162 (x10 : (⟨S100, .f32⟩ : BufTy).Contents (Elt F)) : (⟨S1x100, .f32⟩ : BufTy).Contents (Elt F) :=
  broadcastInDim S1x100 ![1] bcast_S100_S1x100_1 (x10)
def val_main_v163 (x0 : (⟨S1x100x65536, .f32⟩ : BufTy).Contents (Elt F)) (x1 : (⟨S2x2000, .i32⟩ : BufTy).Contents (Elt F)) (x2 x3 x4 : (⟨S1, .f32⟩ : BufTy).Contents (Elt F)) (x5 : (⟨S3x65536x60, .f32⟩ : BufTy).Contents (Elt F)) (x6 : (⟨S60, .f32⟩ : BufTy).Contents (Elt F)) (x9 : (⟨S6003x100, .f32⟩ : BufTy).Contents (Elt F)) (x10 : (⟨S100, .f32⟩ : BufTy).Contents (Elt F)) : (⟨S1x100, .f32⟩ : BufTy).Contents (Elt F) :=
  addf (val_main_v161 (F := F) x0 x1 x2 x3 x4 x5 x6 x9) (val_main_v162 (F := F) x10)
def val_main_v164 (x0 : (⟨S1x100x65536, .f32⟩ : BufTy).Contents (Elt F)) (x1 : (⟨S2x2000, .i32⟩ : BufTy).Contents (Elt F)) (x2 x3 x4 : (⟨S1, .f32⟩ : BufTy).Contents (Elt F)) (x7 : (⟨S3x65536x60, .f32⟩ : BufTy).Contents (Elt F)) (x8 : (⟨S60, .f32⟩ : BufTy).Contents (Elt F)) (x11 : (⟨S6003x1, .f32⟩ : BufTy).Contents (Elt F)) : (⟨S1x1, .f32⟩ : BufTy).Contents (Elt F) :=
  Host.dotGeneral dot_S1x6003_S6003x1_S1x1_1_0_0_1_n_n none (val_main_v160 (F := F) x0 x1 x2 x3 x4 x7 x8) (x11)
def val_main_v165 (x12 : (⟨S1, .f32⟩ : BufTy).Contents (Elt F)) : (⟨S1x1, .f32⟩ : BufTy).Contents (Elt F) :=
  broadcastInDim S1x1 ![1] bcast_S1_S1x1_1 (x12)
def val_main_v166 (x0 : (⟨S1x100x65536, .f32⟩ : BufTy).Contents (Elt F)) (x1 : (⟨S2x2000, .i32⟩ : BufTy).Contents (Elt F)) (x2 x3 x4 : (⟨S1, .f32⟩ : BufTy).Contents (Elt F)) (x7 : (⟨S3x65536x60, .f32⟩ : BufTy).Contents (Elt F)) (x8 : (⟨S60, .f32⟩ : BufTy).Contents (Elt F)) (x11 : (⟨S6003x1, .f32⟩ : BufTy).Contents (Elt F)) (x12 : (⟨S1, .f32⟩ : BufTy).Contents (Elt F)) : (⟨S1x1, .f32⟩ : BufTy).Contents (Elt F) :=
  addf (val_main_v164 (F := F) x0 x1 x2 x3 x4 x7 x8 x11) (val_main_v165 (F := F) x12)

end Cert.ReferenceIdeal.Read

end
-- ==== Proof.RVal.lean ====
import proofs.«171431_j27848567947758_1_alg».proof.Proof.RefRead
import proofs.«171431_j27848567947758_1_alg».proof.Proof.SGFacts
import proofs.«171431_j27848567947758_1_alg».proof.Proof.ChebAlgebra
import proofs.«171431_j27848567947758_1_alg».proof.Proof.LibReal
import proofs.«171431_j27848567947758_1_alg».proof.Proof.Glue
import proofs.«171431_j27848567947758_1_alg».proof.Proof.HostSpec
import proofs.«171431_j27848567947758_1_alg».proof.Proof.HeadSpec

open scoped BigOperators

noncomputable section

namespace Cert.RefVal

open Cert.ReferenceIdeal Cert.ReferenceIdeal.Read Idealize.ShloMosaic Idealize.ShloMosaic.ValueIdx
open Cert.LibReal Cert.SG Cert.Glue Cert.HostSpec

def srcR (a1 : IVec S2x2000 32) (e : Fin 2000) : Fin 100 := node (a1 (ix2 (0 : Fin 2) e))
def dstR (a1 : IVec S2x2000 32) (e : Fin 2000) : Fin 100 := node (a1 (ix2 (1 : Fin 2) e))

theorem select_slt_zero (w y : BitVec 32) (h : 0 ≤ w.toInt) :
    Scalar.select (IntOp.cmpi .slt w 0#32) y w = w := by
  have hb : w.slt 0#32 = false := by
    unfold BitVec.slt
    exact decide_eq_false (by rw [show (0#32 : BitVec 32).toInt = 0 from rfl]; omega)
  show (if BitVec.ofBool (w.slt 0#32) = 1 then y else w) = w
  rw [hb]
  exact if_neg (by decide)

def nrmA (a1 : IVec S2x2000 32) (e : Fin 2000) : EReal := val_main_v30 (F := Ideal) a1 (ix1 e)

theorem srcWordA (a1 : IVec S2x2000 32) (e : Fin 2000) :
    val_main_v1 (F := Ideal) a1 (ix1 e) = a1 (ix2 (0 : Fin 2) e) := by
  rw [val_main_v1_apply, val_main_v0_apply]
  refine congrArg a1 ?_
  funext a
  refine Fin.ext ?_
  match a with
  | ⟨0, _⟩ => rfl
  | ⟨1, _⟩ => exact Nat.mod_eq_of_lt e.isLt

theorem dstWordA (a1 : IVec S2x2000 32) (e : Fin 2000) :
    val_main_v3 (F := Ideal) a1 (ix1 e) = a1 (ix2 (1 : Fin 2) e) := by
  rw [val_main_v3_apply, val_main_v2_apply]
  refine congrArg a1 ?_
  funext a
  refine Fin.ext ?_
  match a with
  | ⟨0, _⟩ => rfl
  | ⟨1, _⟩ => exact Nat.mod_eq_of_lt e.isLt

theorem wrap1A (a1 : IVec S2x2000 32) (hidx : ∀ i, InRange (a1 i)) (e : Fin 2000) :
    val_main_v37 (F := Ideal) a1 (ix2 e (0 : Fin 1)) = a1 (ix2 (0 : Fin 2) e) := by
  rw [val_main_v37_apply, show idx_main_v37 (ix2 e (0 : Fin 1)) = ix1 e from funext fun a => match a with | ⟨0, _⟩ => rfl,
    val_main_v36_apply, val_main_v33_apply, val_main_v32_apply, val_main_c_8_apply, srcWordA]
  exact select_slt_zero _ _ (hidx _).1

theorem wrap2A (a1 : IVec S2x2000 32) (hidx : ∀ i, InRange (a1 i)) (e : Fin 2000) :
    val_main_v50 (F := Ideal) a1 (ix2 e (0 : Fin 1)) = a1 (ix2 (0 : Fin 2) e) := by
  rw [val_main_v50_apply, show idx_main_v50 (ix2 e (0 : Fin 1)) = ix1 e from funext fun a => match a with | ⟨0, _⟩ => rfl,
    val_main_v49_apply, val_main_v46_apply, val_main_v45_apply, val_main_c_11_apply, srcWordA]
  exact select_slt_zero _ _ (hidx _).1

theorem dstIdx1A (a1 : IVec S2x2000 32) (e : Fin 2000) :
    val_main_v43 (F := Ideal) a1 (ix2 e (0 : Fin 1)) = a1 (ix2 (1 : Fin 2) e) := by
  rw [val_main_v43_apply, show idx_main_v43 (ix2 e (0 : Fin 1)) = ix1 e from funext fun a => match a with | ⟨0, _⟩ => rfl]
  exact dstWordA a1 e

theorem dstIdx2A (a1 : IVec S2x2000 32) (e : Fin 2000) :
    val_main_v56 (F := Ideal) a1 (ix2 e (0 : Fin 1)) = a1 (ix2 (1 : Fin 2) e) := by
  rw [val_main_v56_apply, show idx_main_v56 (ix2 e (0 : Fin 1)) = ix1 e from funext fun a => match a with | ⟨0, _⟩ => rfl]
  exact dstWordA a1 e

theorem nrmRow1A (a1 : IVec S2x2000 32) (e : Fin 2000) (f : Fin 65536) :
    val_main_v40 (F := Ideal) a1 (ix2 e f) = nrmA a1 e := by
  rw [val_main_v40_apply, val_main_v39_apply]
  refine congrArg (val_main_v30 (F := Ideal) a1) ?_
  funext a
  match a with
  | ⟨0, _⟩ => rfl

theorem nrmRow2A (a1 : IVec S2x2000 32) (e : Fin 2000) (f : Fin 65536) :
    val_main_v53 (F := Ideal) a1 (ix2 e f) = nrmA a1 e := by
  rw [val_main_v53_apply, val_main_v52_apply]
  refine congrArg (val_main_v30 (F := Ideal) a1) ?_
  funext a
  match a with
  | ⟨0, _⟩ => rfl

theorem featA (a0 : FVec Ideal S1x100x65536 .f32) (d : Fin 100) (f : Fin 65536) :
    val_main_v31 (F := Ideal) a0 (ix2 d f) = Xf a0 d f := by
  rw [val_main_v31_apply]
  show a0 (idx_main_v31 (ix2 d f)) = a0 (ix3 (0 : Fin 1) d f)
  refine congrArg a0 ?_
  funext a
  refine Fin.ext ?_
  have hd := d.isLt
  have hf := f.isLt
  match a with
  | ⟨0, _⟩ => rfl
  | ⟨1, _⟩ =>
    show (d.val * 65536 + f.val) / 65536 % 100 = d.val
    omega
  | ⟨2, _⟩ =>
    show (d.val * 65536 + f.val) % 65536 = f.val
    omega

theorem gath1A (a0 : FVec Ideal S1x100x65536 .f32) (a1 : IVec S2x2000 32)
    (hidx : ∀ i, InRange (a1 i)) (e : Fin 2000) (f : Fin 65536) :
    val_main_v38 (F := Ideal) a0 a1 (ix2 e f) = Xf a0 (srcR a1 e) f := by
  unfold val_main_v38
  rw [gather_rows (val_main_v31 (F := Ideal) a0) (val_main_v37 (F := Ideal) a1)
    (fun e => by rw [wrap1A a1 hidx e]; exact hidx _) e f, wrap1A a1 hidx e]
  exact featA a0 _ f

theorem prop1A (a0 : FVec Ideal S1x100x65536 .f32) (a1 : IVec S2x2000 32)
    (hidx : ∀ i, InRange (a1 i)) (d : Fin 100) (f : Fin 65536) :
    val_main_v44 (F := Ideal) a0 a1 (ix2 d f)
      = Cert.Cheb.rT1 (srcR a1) (dstR a1) (nrmA a1) (Xf a0) d f := by
  unfold val_main_v44
  rw [scatter_rows (val_main_v42 (F := Ideal)) (val_main_v43 (F := Ideal) a1)
    (fun e => by rw [dstIdx1A a1 e]; exact hidx _) (val_main_v41 (F := Ideal) a0 a1) d f,
    val_main_v42_apply, val_main_cst_10_apply]
  show Ideal.ofBits .f32 0x00000000#32 + _ = _
  rw [Ideal.ofBits_zero_f32, zero_add]
  show _ = ∑ e ∈ Finset.univ.filter (fun e : Fin 2000 => dstR a1 e = d), Xf a0 (srcR a1 e) f * nrmA a1 e
  refine Finset.sum_congr (Finset.filter_congr fun e _ => by rw [dstIdx1A a1 e]; rfl) fun e _ => ?_
  show val_main_v38 (F := Ideal) a0 a1 (ix2 e f) * val_main_v40 (F := Ideal) a1 (ix2 e f) = _
  rw [gath1A a0 a1 hidx e f, nrmRow1A a1 e f]

theorem gath2A (a0 : FVec Ideal S1x100x65536 .f32) (a1 : IVec S2x2000 32)
    (hidx : ∀ i, InRange (a1 i)) (e : Fin 2000) (f : Fin 65536) :
    val_main_v51 (F := Ideal) a0 a1 (ix2 e f)
      = Cert.Cheb.rT1 (srcR a1) (dstR a1) (nrmA a1) (Xf a0) (srcR a1 e) f := by
  unfold val_main_v51
  rw [gather_rows (val_main_v44 (F := Ideal) a0 a1) (val_main_v50 (F := Ideal) a1)
    (fun e => by rw [wrap2A a1 hidx e]; exact hidx _) e f, wrap2A a1 hidx e]
  exact prop1A a0 a1 hidx _ f

theorem prop2A (a0 : FVec Ideal S1x100x65536 .f32) (a1 : IVec S2x2000 32)
    (hidx : ∀ i, InRange (a1 i)) (d : Fin 100) (f : Fin 65536) :
    val_main_v57 (F := Ideal) a0 a1 (ix2 d f)
      = Cert.Cheb.propE (srcR a1) (dstR a1) (nrmA a1)
          (fun s => Cert.Cheb.rT1 (srcR a1) (dstR a1) (nrmA a1) (Xf a0) s f) d := by
  unfold val_main_v57
  rw [scatter_rows (val_main_v55 (F := Ideal)) (val_main_v56 (F := Ideal) a1)
    (fun e => by rw [dstIdx2A a1 e]; exact hidx _) (val_main_v54 (F := Ideal) a0 a1) d f,
    val_main_v55_apply, val_main_cst_13_apply]
  show Ideal.ofBits .f32 0x00000000#32 + _ = _
  rw [Ideal.ofBits_zero_f32, zero_add]
  show _ = ∑ e ∈ Finset.univ.filter (fun e : Fin 2000 => dstR a1 e = d),
      Cert.Cheb.rT1 (srcR a1) (dstR a1) (nrmA a1) (Xf a0) (srcR a1 e) f * nrmA a1 e
  refine Finset.sum_congr (Finset.filter_congr fun e _ => by rw [dstIdx2A a1 e]; rfl) fun e _ => ?_
  show val_main_v51 (F := Ideal) a0 a1 (ix2 e f) * val_main_v53 (F := Ideal) a1 (ix2 e f) = _
  rw [gath2A a0 a1 hidx e f, nrmRow2A a1 e f]

theorem cheb2A (a0 : FVec Ideal S1x100x65536 .f32) (a1 : IVec S2x2000 32)
    (hidx : ∀ i, InRange (a1 i)) (d : Fin 100) (f : Fin 65536) :
    val_main_v60 (F := Ideal) a0 a1 (ix2 d f)
      = Cert.Cheb.rT2 (srcR a1) (dstR a1) (nrmA a1) (Xf a0) two d f := by
  show val_main_v58 (F := Ideal) (ix2 d f) * val_main_v57 (F := Ideal) a0 a1 (ix2 d f)
      - val_main_v31 (F := Ideal) a0 (ix2 d f) = _
  rw [val_main_v58_apply, val_main_cst_14_apply, prop2A a0 a1 hidx d f, featA a0 d f]
  rfl

theorem filt0A (a5 : FVec Ideal S3x65536x60 .f32) (f : Fin 65536) (c : Fin 60) :
    val_main_v62 (F := Ideal) a5 (ix2 f c) = Wf a5 0 f c := by
  rw [val_main_v62_apply, val_main_v61_apply]
  show a5 (idx_main_v61 (idx_main_v62 (ix2 f c))) = a5 (ix3 (0 : Fin 3) f c)
  refine congrArg a5 ?_
  funext a
  refine Fin.ext ?_
  have hf := f.isLt
  have hc := c.isLt
  match a with
  | ⟨0, _⟩ => rfl
  | ⟨1, _⟩ =>
    show (f.val * 60 + c.val) / 60 % 65536 = f.val
    omega
  | ⟨2, _⟩ =>
    show (f.val * 60 + c.val) % 60 = c.val
    omega

theorem filt1A (a5 : FVec Ideal S3x65536x60 .f32) (f : Fin 65536) (c : Fin 60) :
    val_main_v65 (F := Ideal) a5 (ix2 f c) = Wf a5 1 f c := by
  rw [val_main_v65_apply, val_main_v64_apply]
  show a5 (idx_main_v64 (idx_main_v65 (ix2 f c))) = a5 (ix3 (1 : Fin 3) f c)
  refine congrArg a5 ?_
  funext a
  refine Fin.ext ?_
  have hf := f.isLt
  have hc := c.isLt
  match a with
  | ⟨0, _⟩ => rfl
  | ⟨1, _⟩ =>
    show (f.val * 60 + c.val) / 60 % 65536 = f.val
    omega
  | ⟨2, _⟩ =>
    show (f.val * 60 + c.val) % 60 = c.val
    omega

theorem filt2A (a5 : FVec Ideal S3x65536x60 .f32) (f : Fin 65536) (c : Fin 60) :
    val_main_v69 (F := Ideal) a5 (ix2 f c) = Wf a5 2 f c := by
  rw [val_main_v69_apply, val_main_v68_apply]
  show a5 (idx_main_v68 (idx_main_v69 (ix2 f c))) = a5 (ix3 (2 : Fin 3) f c)
  refine congrArg a5 ?_
  funext a
  refine Fin.ext ?_
  have hf := f.isLt
  have hc := c.isLt
  match a with
  | ⟨0, _⟩ => rfl
  | ⟨1, _⟩ =>
    show (f.val * 60 + c.val) / 60 % 65536 = f.val
    omega
  | ⟨2, _⟩ =>
    show (f.val * 60 + c.val) % 60 = c.val
    omega

theorem dot0A (a0 : FVec Ideal S1x100x65536 .f32) (a5 : FVec Ideal S3x65536x60 .f32)
    (d : Fin 100) (c : Fin 60) :
    val_main_v63 (F := Ideal) a0 a5 (ix2 d c) = ∑ f : Fin 65536, Xf a0 d f * Wf a5 0 f c := by
  rw [val_main_v63_apply]
  refine Finset.sum_congr rfl fun k _ => ?_
  rw [show lidx_main_v63 (ix2 d c) k = ix2 d k from
      funext fun a => match a with | ⟨0, _⟩ => rfl | ⟨1, _⟩ => rfl,
    show ridx_main_v63 (ix2 d c) k = ix2 k c from
      funext fun a => match a with | ⟨0, _⟩ => rfl | ⟨1, _⟩ => rfl,
    featA a0 d k, filt0A a5 k c]

theorem dot1A (a0 : FVec Ideal S1x100x65536 .f32) (a1 : IVec S2x2000 32)
    (hidx : ∀ i, InRange (a1 i)) (a5 : FVec Ideal S3x65536x60 .f32) (d : Fin 100) (c : Fin 60) :
    val_main_v66 (F := Ideal) a0 a1 a5 (ix2 d c)
      = ∑ f : Fin 65536, Cert.Cheb.rT1 (srcR a1) (dstR a1) (nrmA a1) (Xf a0) d f * Wf a5 1 f c := by
  rw [val_main_v66_apply]
  refine Finset.sum_congr rfl fun k _ => ?_
  rw [show lidx_main_v66 (ix2 d c) k = ix2 d k from
      funext fun a => match a with | ⟨0, _⟩ => rfl | ⟨1, _⟩ => rfl,
    show ridx_main_v66 (ix2 d c) k = ix2 k c from
      funext fun a => match a with | ⟨0, _⟩ => rfl | ⟨1, _⟩ => rfl,
    prop1A a0 a1 hidx d k, filt1A a5 k c]

theorem dot2A (a0 : FVec Ideal S1x100x65536 .f32) (a1 : IVec S2x2000 32)
    (hidx : ∀ i, InRange (a1 i)) (a5 : FVec Ideal S3x65536x60 .f32) (d : Fin 100) (c : Fin 60) :
    val_main_v70 (F := Ideal) a0 a1 a5 (ix2 d c)
      = ∑ f : Fin 65536, Cert.Cheb.rT2 (srcR a1) (dstR a1) (nrmA a1) (Xf a0) two d f * Wf a5 2 f c := by
  rw [val_main_v70_apply]
  refine Finset.sum_congr rfl fun k _ => ?_
  rw [show lidx_main_v70 (ix2 d c) k = ix2 d k from
      funext fun a => match a with | ⟨0, _⟩ => rfl | ⟨1, _⟩ => rfl,
    show ridx_main_v70 (ix2 d c) k = ix2 k c from
      funext fun a => match a with | ⟨0, _⟩ => rfl | ⟨1, _⟩ => rfl,
    cheb2A a0 a1 hidx d k, filt2A a5 k c]

theorem biasA (a6 : FVec Ideal S60 .f32) (d : Fin 100) (c : Fin 60) :
    val_main_v73 (F := Ideal) a6 (ix2 d c) = a6 (ix1 c) := by
  rw [val_main_v73_apply, val_main_v72_apply]
  refine congrArg a6 ?_
  funext a
  match a with
  | ⟨0, _⟩ => rfl

theorem embA_raw (a0 : FVec Ideal S1x100x65536 .f32) (a1 : IVec S2x2000 32)
    (a5 : FVec Ideal S3x65536x60 .f32) (a6 : FVec Ideal S60 .f32)
    (hidx : ∀ i, InRange (a1 i)) (d : Fin 100) (c : Fin 60) :
    val_main_v76 (F := Ideal) a0 a1 a5 a6 (ix3 (0 : Fin 1) d c)
      = Ideal.tanh (Cert.Cheb.refPre (srcR a1) (dstR a1) (nrmA a1) (Xf a0)
          (Wf a5 0) (Wf a5 1) (Wf a5 2) two d c + a6 (ix1 c)) := by
  rw [val_main_v76_apply, val_main_v75_apply,
    show idx_main_v75 (ix3 (0 : Fin 1) d c) = ix2 d c from
      funext fun a => match a with | ⟨0, _⟩ => rfl | ⟨1, _⟩ => rfl,
    val_main_v74_apply, val_main_v71_apply, val_main_v67_apply,
    dot0A a0 a5 d c, dot1A a0 a1 hidx a5 d c, dot2A a0 a1 hidx a5 d c, biasA a6 d c,
    Ideal.hostUnary_tanh_def, Ideal.addf_def, Ideal.addf_def, Ideal.addf_def]
  unfold Cert.Cheb.refPre
  rfl

theorem emb77_apply (a0 : FVec Ideal S1x100x65536 .f32) (a1 : IVec S2x2000 32)
    (a5 : FVec Ideal S3x65536x60 .f32) (a6 : FVec Ideal S60 .f32) (d : Fin 100) (c : Fin 60) :
    val_main_v77 (F := Ideal) a0 a1 a5 a6 (ix2 (0 : Fin 1) ⟨60 * d.val + c.val, by omega⟩)
      = val_main_v76 (F := Ideal) a0 a1 a5 a6 (ix3 (0 : Fin 1) d c) := by
  rw [val_main_v77_apply]
  refine congrArg (val_main_v76 (F := Ideal) a0 a1 a5 a6) ?_
  funext a
  refine Fin.ext ?_
  have hd := d.isLt
  have hc := c.isLt
  match a with
  | ⟨0, _⟩ => rfl
  | ⟨1, _⟩ =>
    show (0 * 6000 + (60 * d.val + c.val)) / 60 % 100 = d.val
    omega
  | ⟨2, _⟩ =>
    show (0 * 6000 + (60 * d.val + c.val)) % 60 = c.val
    omega

theorem norm_eq (a1 : IVec S2x2000 32) : val_main_v30 (F := Ideal) a1 = normOf a1 := rfl

theorem embA_apply (a0 : FVec Ideal S1x100x65536 .f32) (a1 : IVec S2x2000 32)
    (a5 : FVec Ideal S3x65536x60 .f32) (a6 : FVec Ideal S60 .f32)
    (hX : ∀ i, IsReal (a0 i)) (hidx : ∀ i, InRange (a1 i)) (d : Fin 100) (c : Fin 60) :
    val_main_v76 (F := Ideal) a0 a1 a5 a6 (ix3 (0 : Fin 1) d c)
      = Ideal.tanh (Cert.Cheb.refPre (srcN a1) (dstN a1) (fun e => normOf a1 (ix1 e)) (Xf a0)
          (Wf a5 0) (Wf a5 1) (Wf a5 2) two d c + a6 (ix1 c)) := by
  have h := embA_raw a0 a1 a5 a6 hidx d c
  rw [show srcR a1 = srcN a1 from rfl, show dstR a1 = dstN a1 from rfl,
    show nrmA a1 = fun e => normOf a1 (ix1 e) from funext fun e => congrFun (norm_eq a1) (ix1 e)] at h
  exact h

theorem headA_eq (a0 : FVec Ideal S1x100x65536 .f32) (a1 : IVec S2x2000 32) (a2 a3 a4 : FVec Ideal S1 .f32)
    (a5 : FVec Ideal S3x65536x60 .f32) (a6 : FVec Ideal S60 .f32) (a9 : FVec Ideal S6003x100 .f32)
    (a10 : FVec Ideal S100 .f32) :
    val_main_v163 (F := Ideal) a0 a1 a2 a3 a4 a5 a6 a9 a10
      = Cert.Head.headA (F := Ideal) (val_main_v77 (F := Ideal) a0 a1 a5 a6) a2 a3 a4 a9 a10 := rfl

theorem headC_eq (a0 : FVec Ideal S1x100x65536 .f32) (a1 : IVec S2x2000 32) (a2 a3 a4 : FVec Ideal S1 .f32)
    (a7 : FVec Ideal S3x65536x60 .f32) (a8 : FVec Ideal S60 .f32) (a11 : FVec Ideal S6003x1 .f32)
    (a12 : FVec Ideal S1 .f32) :
    val_main_v166 (F := Ideal) a0 a1 a2 a3 a4 a7 a8 a11 a12
      = Cert.Head.headC (F := Ideal) (val_main_v77 (F := Ideal) a0 a1 a7 a8) a2 a3 a4 a11 a12 := rfl

end Cert.RefVal

end
-- ==== Proof.RefRes.lean ====
import proofs.«171431_j27848567947758_1_alg».proof.Proof.RefRead
import Idealize.ShloMosaic.Lib.Pipeline.Frame

noncomputable section

namespace Cert.ReferenceIdeal.Res

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F] (m : (ℓ : Loc nD τ sig) → Buf (Elt F) ℓ) (c : Dev nD)

set_option maxRecDepth 8192 in
set_option maxHeartbeats 40000000 in
theorem pre_v77 : StableHlo.after opsA (launchContents m c) (Proc.devRef .tc main_v77) = val_main_v77 (F := F) (m ((c.tc : Thread nD τ).loc main_arg0)) (m ((c.tc : Thread nD τ).loc main_arg1)) (m ((c.tc : Thread nD τ).loc main_arg5)) (m ((c.tc : Thread nD τ).loc main_arg6)) := by
  after_results_simp <;> rfl

set_option maxRecDepth 8192 in
set_option maxHeartbeats 40000000 in
theorem pre_v155 : StableHlo.after opsA (launchContents m c) (Proc.devRef .tc main_v155) = val_main_v77 (F := F) (m ((c.tc : Thread nD τ).loc main_arg0)) (m ((c.tc : Thread nD τ).loc main_arg1)) (m ((c.tc : Thread nD τ).loc main_arg7)) (m ((c.tc : Thread nD τ).loc main_arg8)) := by
  after_results_simp <;> rfl

set_option maxRecDepth 8192 in
set_option maxHeartbeats 40000000 in
theorem pre_v156 : StableHlo.after opsA (launchContents m c) (Proc.devRef .tc main_v156) = val_main_v156 (F := F) (m ((c.tc : Thread nD τ).loc main_arg2)) := by
  after_results_simp <;> rfl

set_option maxRecDepth 8192 in
set_option maxHeartbeats 40000000 in
theorem pre_v157 : StableHlo.after opsA (launchContents m c) (Proc.devRef .tc main_v157) = val_main_v157 (F := F) (m ((c.tc : Thread nD τ).loc main_arg3)) := by
  after_results_simp <;> rfl

set_option maxRecDepth 8192 in
set_option maxHeartbeats 40000000 in
theorem pre_v158 : StableHlo.after opsA (launchContents m c) (Proc.devRef .tc main_v158) = val_main_v158 (F := F) (m ((c.tc : Thread nD τ).loc main_arg4)) := by
  after_results_simp <;> rfl

set_option maxRecDepth 8192 in
set_option maxHeartbeats 40000000 in
theorem pre_arg9 : StableHlo.after opsA (launchContents m c) (Proc.devRef .tc main_arg9) = m ((c.tc : Thread nD τ).loc main_arg9) := by
  after_results_simp <;> rfl

set_option maxRecDepth 8192 in
set_option maxHeartbeats 40000000 in
theorem pre_arg10 : StableHlo.after opsA (launchContents m c) (Proc.devRef .tc main_arg10) = m ((c.tc : Thread nD τ).loc main_arg10) := by
  after_results_simp <;> rfl

set_option maxRecDepth 8192 in
set_option maxHeartbeats 40000000 in
theorem pre_arg11 : StableHlo.after opsA (launchContents m c) (Proc.devRef .tc main_arg11) = m ((c.tc : Thread nD τ).loc main_arg11) := by
  after_results_simp <;> rfl

set_option maxRecDepth 8192 in
set_option maxHeartbeats 40000000 in
theorem pre_arg12 : StableHlo.after opsA (launchContents m c) (Proc.devRef .tc main_arg12) = m ((c.tc : Thread nD τ).loc main_arg12) := by
  after_results_simp <;> rfl

set_option maxRecDepth 8192 in
set_option maxHeartbeats 40000000 in

theorem after_v163 : StableHlo.after ops (launchContents m c) (Proc.devRef .tc main_v163)
    = val_main_v163 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) := by
  rw [ops_split, StableHlo.after_append]
  generalize hW : StableHlo.after opsA (launchContents m c) = W
  after_results
  subst hW
  dsimp only [Matrix.cons_val_zero, Matrix.cons_val_one, Matrix.cons_val]
  repeat (first
    | (rw [StableHlo.nary_result_ne]; rotate_left; decide)
    | (rw [StableHlo.binary_result_ne]; rotate_left; decide)
    | (rw [StableHlo.unary_result_ne]; rotate_left; decide))
  rw [pre_v77 m c, pre_v156 m c, pre_v157 m c, pre_v158 m c, pre_arg9 m c, pre_arg10 m c]
  rfl

set_option maxRecDepth 8192 in
set_option maxHeartbeats 40000000 in

theorem after_v166 : StableHlo.after ops (launchContents m c) (Proc.devRef .tc main_v166)
    = val_main_v166 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg11)) (m ((c.tc : Thread nD τ).loc main_arg12)) := by
  rw [ops_split, StableHlo.after_append]
  generalize hW : StableHlo.after opsA (launchContents m c) = W
  after_results
  subst hW
  dsimp only [Matrix.cons_val_zero, Matrix.cons_val_one, Matrix.cons_val]
  repeat (first
    | (rw [StableHlo.nary_result_ne]; rotate_left; decide)
    | (rw [StableHlo.binary_result_ne]; rotate_left; decide)
    | (rw [StableHlo.unary_result_ne]; rotate_left; decide))
  rw [pre_v155 m c, pre_v156 m c, pre_v157 m c, pre_v158 m c, pre_arg11 m c, pre_arg12 m c]
  rfl

end Cert.ReferenceIdeal.Res

end
-- ==== Proof.FrameK.Base.lean ====
import proofs.«171431_j27848567947758_1_alg».proof.Proof.Gen.Kernel.Launch
import proofs.«171431_j27848567947758_1_alg».proof.Proof.Gen.Kernel.Skeleton
import proofs.«171431_j27848567947758_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) :=
  StableHlo.after (List.flatten [hostOps0, hostOps0_1, hostOps0_2, hostOps0_3, hostOps0_4]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No operation before the grid writes one of the thirteen arguments: the written buffers are read off the list once, for a general argument. -/
theorem pre_keeps : ∀ b ∈ ([main_arg0, main_arg1, main_arg2, main_arg3, main_arg4, main_arg5, main_arg6, main_arg7, main_arg8, main_arg9, main_arg10, main_arg11, main_arg12] : List (Ref sig .tc)),
    ∀ op ∈ List.flatten ([hostOps0, hostOps0_1, hostOps0_2, hostOps0_3, hostOps0_4] : List (List (HloOp τ sig (Elt F)))), Proc.devRef .tc b ∉ op.writes := by
  intro b hb
  refine List.forall_iff_forall_mem.mp ?_
  simp only [hostOps0, hostOps0_1, hostOps0_2, hostOps0_3, hostOps0_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  simp only [List.mem_cons, List.mem_nil_iff, _root_.or_false] at hb
  rcases hb with rfl | rfl | rfl | rfl | rfl | rfl | rfl | rfl | rfl | rfl | rfl | rfl | rfl
  all_goals
    repeat' apply And.intro
    all_goals exact StableHlo.devRef_ne_of_ne (by decide)

/-- So each argument is as launched when the grid starts. -/
theorem V_arg (c : Dev nD) (b : Ref sig .tc) (hb : b ∈ ([main_arg0, main_arg1, main_arg2, main_arg3, main_arg4, main_arg5, main_arg6, main_arg7, main_arg8, main_arg9, main_arg10, main_arg11, main_arg12] : List (Ref sig .tc))) : V m c b = m ((c : Thread nD τ).loc b) :=
  StableHlo.after_of_forall_not_mem _ _ (pre_keeps b hb)

theorem V_main_arg0 (c : Dev nD) : V m c main_arg0 = m ((c : Thread nD τ).loc main_arg0) := V_arg m c _ (by decide)
theorem V_main_arg1 (c : Dev nD) : V m c main_arg1 = m ((c : Thread nD τ).loc main_arg1) := V_arg m c _ (by decide)
theorem V_main_arg2 (c : Dev nD) : V m c main_arg2 = m ((c : Thread nD τ).loc main_arg2) := V_arg m c _ (by decide)
theorem V_main_arg3 (c : Dev nD) : V m c main_arg3 = m ((c : Thread nD τ).loc main_arg3) := V_arg m c _ (by decide)
theorem V_main_arg4 (c : Dev nD) : V m c main_arg4 = m ((c : Thread nD τ).loc main_arg4) := V_arg m c _ (by decide)
theorem V_main_arg5 (c : Dev nD) : V m c main_arg5 = m ((c : Thread nD τ).loc main_arg5) := V_arg m c _ (by decide)
theorem V_main_arg6 (c : Dev nD) : V m c main_arg6 = m ((c : Thread nD τ).loc main_arg6) := V_arg m c _ (by decide)
theorem V_main_arg7 (c : Dev nD) : V m c main_arg7 = m ((c : Thread nD τ).loc main_arg7) := V_arg m c _ (by decide)
theorem V_main_arg8 (c : Dev nD) : V m c main_arg8 = m ((c : Thread nD τ).loc main_arg8) := V_arg m c _ (by decide)
theorem V_main_arg9 (c : Dev nD) : V m c main_arg9 = m ((c : Thread nD τ).loc main_arg9) := V_arg m c _ (by decide)
theorem V_main_arg10 (c : Dev nD) : V m c main_arg10 = m ((c : Thread nD τ).loc main_arg10) := V_arg m c _ (by decide)
theorem V_main_arg11 (c : Dev nD) : V m c main_arg11 = m ((c : Thread nD τ).loc main_arg11) := V_arg m c _ (by decide)
theorem V_main_arg12 (c : Dev nD) : V m c main_arg12 = m ((c : Thread nD τ).loc main_arg12) := V_arg m c _ (by decide)

/-- The same for the operations after the grid; none of these eight arguments is an array of the grid, and each is one of the thirteen. -/
theorem post_keeps : ∀ b ∈ ([main_arg1, main_arg2, main_arg3, main_arg4, main_arg9, main_arg10, main_arg11, main_arg12] : List (Ref sig .tc)),
    (∀ op ∈ List.flatten ([hostOps1] : List (List (HloOp τ sig (Elt F)))), Proc.devRef .tc b ∉ op.writes) ∧ (∀ w, Pipeline.arrRef spec0 w ≠ b) ∧ b ∈ ([main_arg0, main_arg1, main_arg2, main_arg3, main_arg4, main_arg5, main_arg6, main_arg7, main_arg8, main_arg9, main_arg10, main_arg11, main_arg12] : List (Ref sig .tc)) := by
  intro b hb
  refine ⟨List.forall_iff_forall_mem.mp ?_, ?_, ?_⟩
  · simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    simp only [List.mem_cons, List.mem_nil_iff, _root_.or_false] at hb
    rcases hb with rfl | rfl | rfl | rfl | rfl | rfl | rfl | rfl
    all_goals
      repeat' apply And.intro
      all_goals exact StableHlo.devRef_ne_of_ne (by decide)
  all_goals
    simp only [List.mem_cons, List.mem_nil_iff, _root_.or_false] at hb
    rcases hb with rfl | rfl | rfl | rfl | rfl | rfl | rfl | rfl
    all_goals decide

/-- So each of them ends as launched. -/
theorem W_arg (dats : (p : Fin _) → (c : Dev nD) → Dat τ (Elt F) Unit ℕ (UR sig nD τ) ℕ (cfgs p) c) (c : Dev nD) (b : Ref sig .tc) (hb : b ∈ ([main_arg1, main_arg2, main_arg3, main_arg4, main_arg9, main_arg10, main_arg11, main_arg12] : List (Ref sig .tc))) :
    Pipeline.afterTail₀ cfgs dats 0 (V0 m) [hostOps1] c b = m ((c : Thread nD τ).loc b) := by
  obtain ⟨h1, h2, h3⟩ := post_keeps (F := F) b hb
  unfold Pipeline.afterTail₀
  exact (StableHlo.after_of_forall_not_mem _ _ h1).trans ((Pipeline.withArrays_of_ne _ c (V0 m c) _ b h2).trans (V_arg m c b h3))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := W_arg m dats c _ (by decide)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := W_arg m dats c _ (by decide)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := W_arg m dats c _ (by decide)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := W_arg m dats c _ (by decide)
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := W_arg m dats c _ (by decide)
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := W_arg m dats c _ (by decide)
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := W_arg m dats c _ (by decide)
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := W_arg m dats c _ (by decide)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Every argument array holds what it was launched with. -/
abbrev Kept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)

/-- The frame's post gives it: an array the grid reads is returned unchanged, the others are written by no operation. -/
theorem kept_of_post (dats : (p : Fin 1) → (c : Dev nD) → Dat τ (Elt F) Unit ℕ (UR sig nD τ) ℕ (cfgs p) c)
    (hA : ∀ c w, (dats 0 c).A w = V m c (Pipeline.arrRef spec0 w)) {r}
    (h : Pipeline.FramePost cfgs dats 0 (Pipeline.afterTail₀ cfgs dats 0 (V0 m) [hostOps1]) r) (c : Dev nD) : Kept m r.2.mem c :=
  ⟨((h c).1 1).trans (((dats 0 c).arrAt_in 1 rfl _).trans ((hA c 1).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).1 2).trans (((dats 0 c).arrAt_in 2 rfl _).trans ((hA c 2).trans (V_main_arg5 m c))),
    ((h c).1 4).trans (((dats 0 c).arrAt_in 4 rfl _).trans ((hA c 4).trans (V_main_arg6 m c))),
    ((h c).1 3).trans (((dats 0 c).arrAt_in 3 rfl _).trans ((hA c 3).trans (V_main_arg7 m c))),
    ((h c).1 5).trans (((dats 0 c).arrAt_in 5 rfl _).trans ((hA c 5).trans (V_main_arg8 m c))),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c)⟩

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD, Kept m r.2.mem c) :=
  (θ_run defs _ _).mono (fun _ h c => kept_of_post m dats hA h c) h

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

abbrev VO0_6 : View sig .tc .vmem S100x60 .f32 := (Memref.whole cc0_stg6_0 : Memref sig .tc .vmem S100x60 .f32).view
abbrev VO0_7 : View sig .tc .vmem S100x60 .f32 := (Memref.whole cc0_stg7_0 : Memref sig .tc .vmem S100x60 .f32).view
abbrev ms0_0 (t : Fin cfg0.N) : Memref sig .tc .vmem S100x100 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x100x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x4096x60 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x4096x60 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S60 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S60 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S100x60 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S100x60 .f32 := win0_7.stage (cfg0.slots t 7)
abbrev hs0_7 (t : Fin cfg0.N) : (ms0_7 t).IsWhole := hstage0_7 ((cfg0.slots t 7).cast nbuf0_7)

abbrev scM0_0 : Memref sig .tc .vmem S100x60 .f32 := Memref.whole cc0_scratch0
abbrev scM0_1 : Memref sig .tc .vmem S100x60 .f32 := Memref.whole cc0_scratch1
abbrev VS0_0 : View sig .tc .vmem S100x60 .f32 := scM0_0.view
abbrev VS0_1 : View sig .tc .vmem S100x60 .f32 := scM0_1.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Fr

end
-- ==== Proof.FrameK.RunA.lean ====
import proofs.«171431_j27848567947758_1_alg».proof.Proof.FrameK.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_A (c : Dev nD) (i : grid0.Coords) (arg1 : Memref sig .tc .vmem S100x100 .f32) (harg1 : arg1.IsWhole) (arg2 : Memref sig .tc .vmem S1x100x4096 .f32) (harg2 : arg2.IsWhole) (arg3 : Memref sig .tc .vmem S3x4096x60 .f32) (harg3 : arg3.IsWhole) (arg4 : Memref sig .tc .vmem S3x4096x60 .f32) (harg4 : arg4.IsWhole) (arg5 : Memref sig .tc .vmem S60 .f32) (harg5 : arg5.IsWhole) (arg6 : Memref sig .tc .vmem S60 .f32) (harg6 : arg6.IsWhole) (arg7 : Memref sig .tc .vmem S100x60 .f32) (harg7 : arg7.IsWhole) (arg8 : Memref sig .tc .vmem S100x60 .f32) (harg8 : arg8.IsWhole) (arg9 : Memref sig .tc .vmem S100x60 .f32) (harg9 : arg9.IsWhole) (arg10 : Memref sig .tc .vmem S100x60 .f32) (harg10 : arg10.IsWhole) (hc0 : cond0_0 i) (hc1 : ¬cond0_1 i)
    (x0 : Vec F S100x100 .f32) (x1 : Vec F S1x100x4096 .f32) (x2 : Vec F S3x4096x60 .f32) (x3 : Vec F S3x4096x60 .f32) (x4 : Vec F S60 .f32) (x5 : Vec F S60 .f32) :
    Σ' (L6 : List (View.Piece (Elt F) S100x60 .f32)) (L7 : List (View.Piece (Elt F) S100x60 .f32)) (LS0 : List (View.Piece (Elt F) S100x60 .f32)), { LS1 : List (View.Piece (Elt F) S100x60 .f32) //
      ∀ (xi6 : Vec F S100x60 .f32) (xi7 : Vec F S100x60 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__cheb_kernel i arg1 harg1 arg2 harg2 arg3 harg3 arg4 harg4 arg5 harg5 arg6 harg6 arg7 harg7 arg8 harg8 arg9 harg9 arg10 harg10) K } := by
  refine ⟨[], [], ?_, ?_, fun xi6 xi7 E K => ?run⟩
  case run =>
    simp only [cc0__cheb_kernel_eq_skeleton]; unfold cc0__cheb_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Fr

end
-- ==== Proof.FrameK.RunB.lean ====
import proofs.«171431_j27848567947758_1_alg».proof.Proof.FrameK.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_B (c : Dev nD) (i : grid0.Coords) (arg1 : Memref sig .tc .vmem S100x100 .f32) (harg1 : arg1.IsWhole) (arg2 : Memref sig .tc .vmem S1x100x4096 .f32) (harg2 : arg2.IsWhole) (arg3 : Memref sig .tc .vmem S3x4096x60 .f32) (harg3 : arg3.IsWhole) (arg4 : Memref sig .tc .vmem S3x4096x60 .f32) (harg4 : arg4.IsWhole) (arg5 : Memref sig .tc .vmem S60 .f32) (harg5 : arg5.IsWhole) (arg6 : Memref sig .tc .vmem S60 .f32) (harg6 : arg6.IsWhole) (arg7 : Memref sig .tc .vmem S100x60 .f32) (harg7 : arg7.IsWhole) (arg8 : Memref sig .tc .vmem S100x60 .f32) (harg8 : arg8.IsWhole) (arg9 : Memref sig .tc .vmem S100x60 .f32) (harg9 : arg9.IsWhole) (arg10 : Memref sig .tc .vmem S100x60 .f32) (harg10 : arg10.IsWhole) (hc0 : ¬cond0_0 i) (hc1 : ¬cond0_1 i)
    (x0 : Vec F S100x100 .f32) (x1 : Vec F S1x100x4096 .f32) (x2 : Vec F S3x4096x60 .f32) (x3 : Vec F S3x4096x60 .f32) (x4 : Vec F S60 .f32) (x5 : Vec F S60 .f32) (xs0 : Vec F S100x60 .f32) (xs1 : Vec F S100x60 .f32) :
    Σ' (L6 : List (View.Piece (Elt F) S100x60 .f32)) (L7 : List (View.Piece (Elt F) S100x60 .f32)) (LS0 : List (View.Piece (Elt F) S100x60 .f32)), { LS1 : List (View.Piece (Elt F) S100x60 .f32) //
      ∀ (xi6 : Vec F S100x60 .f32) (xi7 : Vec F S100x60 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__cheb_kernel i arg1 harg1 arg2 harg2 arg3 harg3 arg4 harg4 arg5 harg5 arg6 harg6 arg7 harg7 arg8 harg8 arg9 harg9 arg10 harg10) K } := by
  refine ⟨[], [], ?_, ?_, fun xi6 xi7 E K => ?run⟩
  case run =>
    simp only [cc0__cheb_kernel_eq_skeleton]; unfold cc0__cheb_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Fr

end
-- ==== Proof.FrameK.RunC.lean ====
import proofs.«171431_j27848567947758_1_alg».proof.Proof.FrameK.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_C (c : Dev nD) (i : grid0.Coords) (arg1 : Memref sig .tc .vmem S100x100 .f32) (harg1 : arg1.IsWhole) (arg2 : Memref sig .tc .vmem S1x100x4096 .f32) (harg2 : arg2.IsWhole) (arg3 : Memref sig .tc .vmem S3x4096x60 .f32) (harg3 : arg3.IsWhole) (arg4 : Memref sig .tc .vmem S3x4096x60 .f32) (harg4 : arg4.IsWhole) (arg5 : Memref sig .tc .vmem S60 .f32) (harg5 : arg5.IsWhole) (arg6 : Memref sig .tc .vmem S60 .f32) (harg6 : arg6.IsWhole) (arg7 : Memref sig .tc .vmem S100x60 .f32) (harg7 : arg7.IsWhole) (arg8 : Memref sig .tc .vmem S100x60 .f32) (harg8 : arg8.IsWhole) (arg9 : Memref sig .tc .vmem S100x60 .f32) (harg9 : arg9.IsWhole) (arg10 : Memref sig .tc .vmem S100x60 .f32) (harg10 : arg10.IsWhole) (hc0 : ¬cond0_0 i) (hc1 : cond0_1 i)
    (x0 : Vec F S100x100 .f32) (x1 : Vec F S1x100x4096 .f32) (x2 : Vec F S3x4096x60 .f32) (x3 : Vec F S3x4096x60 .f32) (x4 : Vec F S60 .f32) (x5 : Vec F S60 .f32) (xs0 : Vec F S100x60 .f32) (xs1 : Vec F S100x60 .f32) :
    Σ' (L6 : List (View.Piece (Elt F) S100x60 .f32)) (L7 : List (View.Piece (Elt F) S100x60 .f32)) (LS0 : List (View.Piece (Elt F) S100x60 .f32)), { LS1 : List (View.Piece (Elt F) S100x60 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__cheb_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__cheb_kernel_eq_skeleton]; unfold cc0__cheb_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]; · iexists _; iexact HS0
    iexists _; iexact HS1

end Cert.Kernel.Fr

end
-- ==== Proof.FrameK.Frame.lean ====
import proofs.«171431_j27848567947758_1_alg».proof.Proof.FrameK.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg1 : Memref sig .tc .vmem S100x100 .f32) (harg1 : arg1.IsWhole) (arg2 : Memref sig .tc .vmem S1x100x4096 .f32) (harg2 : arg2.IsWhole) (arg3 : Memref sig .tc .vmem S3x4096x60 .f32) (harg3 : arg3.IsWhole) (arg4 : Memref sig .tc .vmem S3x4096x60 .f32) (harg4 : arg4.IsWhole) (arg5 : Memref sig .tc .vmem S60 .f32) (harg5 : arg5.IsWhole) (arg6 : Memref sig .tc .vmem S60 .f32) (harg6 : arg6.IsWhole) (arg7 : Memref sig .tc .vmem S100x60 .f32) (harg7 : arg7.IsWhole) (arg8 : Memref sig .tc .vmem S100x60 .f32) (harg8 : arg8.IsWhole) (arg9 : Memref sig .tc .vmem S100x60 .f32) (harg9 : arg9.IsWhole) (arg10 : Memref sig .tc .vmem S100x60 .f32) (harg10 : arg10.IsWhole)

section
variable (hc0 : cond0_0 i) (hc1 : ¬cond0_1 i) (x0 : Vec F S100x100 .f32) (x1 : Vec F S1x100x4096 .f32) (x2 : Vec F S3x4096x60 .f32) (x3 : Vec F S3x4096x60 .f32) (x4 : Vec F S60 .f32) (x5 : Vec F S60 .f32) (y : S100x60.Idx)
def out0_A_6 : Vec F S100x60 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 hc1 x0 x1 x2 x3 x4 x5).1)
def out0_A_7 : Vec F S100x60 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 hc1 x0 x1 x2 x3 x4 x5).2.1)
theorem scover0_A_0 :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4 x5).2.2.1 S100x60.size (by sl_kernel_rfl) y
def sout0_A_0 : Vec F S100x60 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4 x5).2.2.1)
theorem scover0_A_1 :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4 x5).2.2.2.1 S100x60.size (by sl_kernel_rfl) y
def sout0_A_1 : Vec F S100x60 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4 x5).2.2.2.1)
end

section
variable (hc0 : ¬cond0_0 i) (hc1 : ¬cond0_1 i) (x0 : Vec F S100x100 .f32) (x1 : Vec F S1x100x4096 .f32) (x2 : Vec F S3x4096x60 .f32) (x3 : Vec F S3x4096x60 .f32) (x4 : Vec F S60 .f32) (x5 : Vec F S60 .f32) (xs0 : Vec F S100x60 .f32) (xs1 : Vec F S100x60 .f32) (y : S100x60.Idx)
def out0_B_6 : Vec F S100x60 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).1)
def out0_B_7 : Vec F S100x60 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.1)
theorem scover0_B_0 :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.1 S100x60.size (by sl_kernel_rfl) y
def sout0_B_0 : Vec F S100x60 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.1)
theorem scover0_B_1 :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1 S100x60.size (by sl_kernel_rfl) y
def sout0_B_1 : Vec F S100x60 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1)
end

section
variable (hc0 : ¬cond0_0 i) (hc1 : cond0_1 i) (x0 : Vec F S100x100 .f32) (x1 : Vec F S1x100x4096 .f32) (x2 : Vec F S3x4096x60 .f32) (x3 : Vec F S3x4096x60 .f32) (x4 : Vec F S60 .f32) (x5 : Vec F S60 .f32) (xs0 : Vec F S100x60 .f32) (xs1 : Vec F S100x60 .f32) (y : S100x60.Idx)
theorem cover0_C_6 :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).1 S100x60.size (by sl_kernel_rfl) y
def out0_C_6 : Vec F S100x60 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).1)
theorem cover0_C_7 :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.1 S100x60.size (by sl_kernel_rfl) y
def out0_C_7 : Vec F S100x60 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.1)
theorem scover0_C_0 :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.1 S100x60.size (by sl_kernel_rfl) y
def sout0_C_0 : Vec F S100x60 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.1)
theorem scover0_C_1 :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1 S100x60.size (by sl_kernel_rfl) y
def sout0_C_1 : Vec F S100x60 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1)
end
end

/-- What the first grid point leaves in the two outputs and the two accumulators. -/
def outs_A (c : Dev nD) (t : Fin cfg0.N) (h0 : t.val % 16 = 0) (h1 : ¬t.val % 16 = 15) : Vec F S100x60 .f32 × Vec F S100x60 .f32 × Vec F S100x60 .f32 × Vec F S100x60 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t))

/-- What a middle grid point leaves, from the accumulators `xs0`, `xs1` of the point before. -/
def outs_B (c : Dev nD) (t : Fin cfg0.N) (h0 : ¬t.val % 16 = 0) (h1 : ¬t.val % 16 = 15) (xs0 xs1 : Vec F S100x60 .f32) : Vec F S100x60 .f32 × Vec F S100x60 .f32 × Vec F S100x60 .f32 × Vec F S100x60 .f32 :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) xs0 xs1,
      out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) xs0 xs1,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) xs0 xs1,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) xs0 xs1)

/-- What the last grid point leaves, from the accumulators of the point before. -/
def outs_C (c : Dev nD) (t : Fin cfg0.N) (h0 : ¬t.val % 16 = 0) (h1 : t.val % 16 = 15) (xs0 xs1 : Vec F S100x60 .f32) : Vec F S100x60 .f32 × Vec F S100x60 .f32 × Vec F S100x60 .f32 × Vec F S100x60 .f32 :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1,
      out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1)

/-- The contents after point `n`: the case the point is in, over what the point before left. -/
def outsAt0 (c : Dev nD) : (n : ℕ) → n < cfg0.N → Vec F S100x60 .f32 × Vec F S100x60 .f32 × Vec F S100x60 .f32 × Vec F S100x60 .f32
  | 0, hn => outs_A m c ⟨0, hn⟩ (Nat.zero_mod _) (fun h => by (try dsimp only at h); omega)
  | n + 1, hn =>
    if h0 : (n + 1) % 16 = 0 then
      if h1 : (n + 1) % 16 = 15 then
        False.elim (by have hN : n + 1 < 16 := lt_of_lt_of_eq hn (show cfg0.N = 16 from N_0); omega)
      else outs_A m c ⟨n + 1, hn⟩ h0 h1
    else
      if h1 : (n + 1) % 16 = 15 then outs_C m c ⟨n + 1, hn⟩ h0 h1 (outsAt0 c n (Nat.lt_of_succ_lt hn)).2.2.1 (outsAt0 c n (Nat.lt_of_succ_lt hn)).2.2.2
      else outs_B m c ⟨n + 1, hn⟩ h0 h1 (outsAt0 c n (Nat.lt_of_succ_lt hn)).2.2.1 (outsAt0 c n (Nat.lt_of_succ_lt hn)).2.2.2

theorem outsAt0_A (c : Dev nD) (t : Fin cfg0.N) (h0 : t.val % 16 = 0) (h1 : ¬t.val % 16 = 15) :
    outsAt0 m c t.val t.isLt = outs_A m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = outs_B m c t h0 h1 (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = outs_C m c t h0 h1 (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨_ + 8, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN : t.val < 16 := lt_of_lt_of_eq t.isLt (show cfg0.N = 16 from N_0)
  by_cases h0 : t.val % 16 = 0
  · by_cases h1 : t.val % 16 = 15
    · exfalso; omega
    ·
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [outsAt0_A m c t h0 h1]
      unfold outs_A sout0_A_0 sout0_A_1; (try dsimp only)
      have hz : t.val = 0 := by omega
      rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · by_cases h1 : t.val % 16 = 15
    ·
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [outsAt0_C m c t h0 h1]
      unfold outs_C out0_C_6 out0_C_7 sout0_C_0 sout0_C_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _ _)
    ·
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B m c t h0 h1]
      unfold outs_B sout0_B_0 sout0_B_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD, Kept m r.2.mem c) :=
  frame_of m ρ (dats m) (A_eq m) (run_main m ρ)

end Cert.Kernel.Fr

end
-- ==== Proof.PreFacts.lean ====
import proofs.«171431_j27848567947758_1_alg».proof.Pre_finite_inputs
import proofs.«171431_j27848567947758_1_alg».proof.Proof.Gen.Pre_finite_inputs
import proofs.«171431_j27848567947758_1_alg».proof.Proof.LibReal
import Idealize.ShloMosaic.Lib.ReduceAll
import Idealize.ShloMosaic.Lib.StableHlo.Predicate
import Idealize.ShloMosaic.PureOps.Ideal

noncomputable section

namespace Cert.PreFacts

open Idealize.ShloMosaic Cert.LibReal

instance : Subsingleton Cert.Pre_finite_inputs.S_.Idx := ⟨fun a b => funext fun d => d.elim0⟩

theorem inf_bits : Ideal.ofBits .f32 0x7F800000#32 = (⊤ : EReal) := by
  simp [Ideal.ofBits, Ideal.ieee]

theorem isReal_of_abs_lt_top (x : EReal) (h : Ideal.cmp .olt (max x (-x)) (⊤ : EReal) = 1#1) : IsReal x := by
  induction x using EReal.rec with
  | bot => simp [Ideal.cmp] at h
  | coe r => exact ⟨r, rfl⟩
  | top => simp [Ideal.cmp] at h

variable [Cert.Pre_finite_inputs.Facts]

theorem x_real_and_idx_range
    (a0 : FVec Ideal Cert.Pre_finite_inputs.S1x100x65536 .f32) (a1 : IVec Cert.Pre_finite_inputs.S2x2000 32)
    (a2 a3 a4 : FVec Ideal Cert.Pre_finite_inputs.S1 .f32) (a5 : FVec Ideal Cert.Pre_finite_inputs.S3x65536x60 .f32) (a6 : FVec Ideal Cert.Pre_finite_inputs.S60 .f32)
    (a7 : FVec Ideal Cert.Pre_finite_inputs.S3x65536x60 .f32) (a8 : FVec Ideal Cert.Pre_finite_inputs.S60 .f32) (a9 : FVec Ideal Cert.Pre_finite_inputs.S6003x100 .f32)
    (a10 : FVec Ideal Cert.Pre_finite_inputs.S100 .f32) (a11 : FVec Ideal Cert.Pre_finite_inputs.S6003x1 .f32) (a12 : FVec Ideal Cert.Pre_finite_inputs.S1 .f32)
    (h : Cert.Pre_finite_inputs.fn (F := Ideal) a0 a1 a2 a3 a4 a5 a6 a7 a8 a9 a10 a11 a12 = fun _ => 1#1) :
    (∀ i, IsReal (a0 i)) ∧ (∀ i, 0 ≤ (a1 i).toInt ∧ (a1 i).toInt < 100) := by
  have e := congrFun h (fun d => d.elim0)
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨⟨⟨h0, -⟩, -⟩, -⟩, -⟩, -⟩, -⟩, -⟩, -⟩, -⟩, -⟩, -⟩, hidx⟩ := e
  refine ⟨fun i => ?_, fun i => ?_⟩
  · have hi := Host.reduce_andi_all _ _ _ _ _ h0 i
    have hi' : Ideal.cmp .olt (max (a0 i) (-(a0 i))) (Ideal.ofBits .f32 0x7F800000#32) = 1#1 := hi
    rw [inf_bits] at hi'
    exact isReal_of_abs_lt_top _ hi'
  · have hi := Host.reduce_andi_all _ _ _ _ _ hidx i
    have hi' : IntOp.andi (IntOp.cmpi .sge (a1 i) 0#32) (IntOp.cmpi .slt (a1 i) 100#32) = 1#1 := hi
    obtain ⟨hge, hlt⟩ := IntOp.andi_eq_one.1 hi'
    unfold IntOp.cmpi at hge hlt
    rw [StableHlo.Predicate.ofBool_eq_one_iff] at hge hlt
    simp only [BitVec.sle, BitVec.slt, decide_eq_true_eq] at hge hlt
    have z : (0#32 : BitVec 32).toInt = 0 := by decide
    have c : (100#32 : BitVec 32).toInt = 100 := by decide
    rw [z] at hge; rw [c] at hlt
    exact ⟨hge, hlt⟩

end Cert.PreFacts

end
-- ==== Proof.Final.lean ====
import proofs.«171431_j27848567947758_1_alg».proof.Defs
import proofs.«171431_j27848567947758_1_alg».proof.Proof.FrameKI.Pieces
import proofs.«171431_j27848567947758_1_alg».proof.Proof.KAccum
import proofs.«171431_j27848567947758_1_alg».proof.Proof.HeadSpec
import proofs.«171431_j27848567947758_1_alg».proof.Proof.RVal
import proofs.«171431_j27848567947758_1_alg».proof.Proof.RefRes
import proofs.«171431_j27848567947758_1_alg».proof.Proof.FrameK.Frame
import proofs.«171431_j27848567947758_1_alg».proof.Proof.PreFacts
import proofs.«171431_j27848567947758_1_alg».proof.Proof.Gen.Pre_finite_inputs

noncomputable section

namespace Cert.Final

open Cert.KernelIdeal Cert.KernelIdeal.Gen Cert.KernelIdeal.Fr Cert.KernelIdeal.Val
open Idealize.ShloMosaic Idealize.ShloMosaic.TcCoe Idealize.SL.Sem Idealize.ShloMosaic.ValueIdx
open Cert.LibReal Cert.Head Cert.Glue

theorem h15 : 15 < cfg0.N := by rw [show cfg0.N = 16 from N_0]; decide

variable (m : (ℓ : Loc nD τ sig) → Buf (Elt Ideal) ℓ) (ρ : Dev nD → PrngReg)

abbrev E6 (c : Dev nD) : FVec Ideal S100x60 .f32 := (outsAt0 (F := Ideal) m c 15 h15).1

abbrev E7 (c : Dev nD) : FVec Ideal S100x60 .f32 := (outsAt0 (F := Ideal) m c 15 h15).2.1

theorem kernel_run :
    θ_run (defs (F := Ideal)) (onTc (τ := τ) (main (F := Ideal))) ⟨m, fun _ => 0, ρ⟩ (fun r => ∀ c : Dev nD,
      r.2.mem ((c.tc : Thread nD τ).loc main_v56) = headA (F := Ideal) (embOf (E6 m c)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10))
      ∧ r.2.mem ((c.tc : Thread nD τ).loc main_v59) = headC (F := Ideal) (embOf (E7 m c)) (m ((c.tc : Thread nD τ).loc main_arg2)) (m ((c.tc : Thread nD τ).loc main_arg3)) (m ((c.tc : Thread nD τ).loc main_arg4)) (m ((c.tc : Thread nD τ).loc main_arg11)) (m ((c.tc : Thread nD τ).loc main_arg12))
      ∧ Kept m r.2.mem c) :=
  (θ_run defs _ _).mono (fun _ h c => ⟨
      (((h c).2 main_v56 (Pipeline.mem_restRefs_of main_v56 (by decide) (by decide))).trans (tail_v56 m (dats m) c)).trans (by rw [arr6_eq]),
      (((h c).2 main_v59 (Pipeline.mem_restRefs_of main_v59 (by decide) (by decide))).trans (tail_v59 m (dats m) c)).trans (by rw [arr7_eq]),
      kept_of_post m (dats m) (A_eq m) h c⟩) (run_main (F := Ideal) m ρ)

section Value

open Cert.HostSpec Cert.SG

theorem idx6000 (i : S1x6000.Idx) : ∃ (d : Fin 100) (o : Fin 60), i = ix2 (0 : Fin 1) (⟨60 * d.val + o.val, by have := d.isLt; have := o.isLt; omega⟩ : Fin 6000) := by
  have h1 : (i 1).val < 6000 := (i 1).isLt
  refine ⟨⟨(i 1).val / 60, by omega⟩, ⟨(i 1).val % 60, Nat.mod_lt _ (by decide)⟩, ?_⟩
  funext a
  match a with
  | ⟨0, _⟩ => exact Fin.ext (by have h0 : (i 0).val < 1 := (i 0).isLt; show (i 0).val = 0; omega)
  | ⟨1, _⟩ => exact Fin.ext (by show (i 1).val = 60 * ((i 1).val / 60) + (i 1).val % 60; omega)

variable (c : Dev nD)
  (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) = fun _ => 1#1)

include hpre in

theorem embA_eq :
    Cert.ReferenceIdeal.Read.val_main_v77 (F := Ideal) (m ((c.tc : Thread nD τ).loc main_arg0)) (m ((c.tc : Thread nD τ).loc main_arg1)) (m ((c.tc : Thread nD τ).loc main_arg5)) (m ((c.tc : Thread nD τ).loc main_arg6)) = embOf (E6 m c) := by
  obtain ⟨hX, hidx⟩ := Cert.PreFacts.x_real_and_idx_range _ _ _ _ _ _ _ _ _ _ _ _ _ hpre
  funext i
  obtain ⟨d, o, rfl⟩ := idx6000 i
  rw [Cert.RefVal.emb77_apply, Cert.RefVal.embA_apply _ _ _ _ hX hidx, embOf_apply]
  refine Eq.trans ?_ (out6_apply m c hidx 15 h15 rfl d o).symm
  have hk := Cert.Cheb.kernelPre_eq_refPre (srcN (m ((c.tc : Thread nD τ).loc main_arg1))) (dstN (m ((c.tc : Thread nD τ).loc main_arg1))) (fun e => normOf (m ((c.tc : Thread nD τ).loc main_arg1)) (ix1 e))
    (fun e => normOf_isReal _ hidx e) (Xf (m ((c.tc : Thread nD τ).loc main_arg0))) (fun d f => hX (ix3 (0 : Fin 1) d f))
    (Wf (m ((c.tc : Thread nD τ).loc main_arg5)) 0) (Wf (m ((c.tc : Thread nD τ).loc main_arg5)) 1) (Wf (m ((c.tc : Thread nD τ).loc main_arg5)) 2) Cert.Glue.two d o
  rw [hk]

include hpre in
theorem embC_eq :
    Cert.ReferenceIdeal.Read.val_main_v77 (F := Ideal) (m ((c.tc : Thread nD τ).loc main_arg0)) (m ((c.tc : Thread nD τ).loc main_arg1)) (m ((c.tc : Thread nD τ).loc main_arg7)) (m ((c.tc : Thread nD τ).loc main_arg8)) = embOf (E7 m c) := by
  obtain ⟨hX, hidx⟩ := Cert.PreFacts.x_real_and_idx_range _ _ _ _ _ _ _ _ _ _ _ _ _ hpre
  funext i
  obtain ⟨d, o, rfl⟩ := idx6000 i
  rw [Cert.RefVal.emb77_apply, Cert.RefVal.embA_apply _ _ _ _ hX hidx, embOf_apply]
  refine Eq.trans ?_ (out7_apply m c hidx 15 h15 rfl d o).symm
  have hk := Cert.Cheb.kernelPre_eq_refPre (srcN (m ((c.tc : Thread nD τ).loc main_arg1))) (dstN (m ((c.tc : Thread nD τ).loc main_arg1))) (fun e => normOf (m ((c.tc : Thread nD τ).loc main_arg1)) (ix1 e))
    (fun e => normOf_isReal _ hidx e) (Xf (m ((c.tc : Thread nD τ).loc main_arg0))) (fun d f => hX (ix3 (0 : Fin 1) d f))
    (Wf (m ((c.tc : Thread nD τ).loc main_arg7)) 0) (Wf (m ((c.tc : Thread nD τ).loc main_arg7)) 1) (Wf (m ((c.tc : Thread nD τ).loc main_arg7)) 2) Cert.Glue.two d o
  rw [hk]

end Value

end Cert.Final

namespace Cert.Proof.Claims

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem algebraic : Cert.algebraic_KernelIdeal_ReferenceIdeal := by
  intro m ρ m' ρ' hpre hagree
  refine ⟨_, _, Cert.Final.kernel_run m ρ, ?_⟩
  refine (θ_run Cert.ReferenceIdeal.defs _ _).mono (fun _ h c => ?_) (Cert.ReferenceIdeal.Value.run (F := Ideal) m' ρ')
  obtain ⟨h163, h166, hargs⟩ := h c
  obtain ⟨e0, e1, e2, e3, e4, e5, e6, e7, e8, e9, e10, e11, e12⟩ := hagree c
  refine ⟨?_, ?_, hargs⟩
  · rw [h163, Cert.ReferenceIdeal.Res.after_v163, Cert.RefVal.headA_eq, e0, e1, e2, e3, e4, e5, e6, e9, e10,
      Cert.Final.embA_eq m c (hpre c)]
  · rw [h166, Cert.ReferenceIdeal.Res.after_v166, Cert.RefVal.headC_eq, e0, e1, e2, e3, e4, e7, e8, e11, e12,
      Cert.Final.embC_eq m c (hpre c)]

end Cert.Proof.Claims

end
-- ==== Proof.lean ====
import proofs.«171431_j27848567947758_1_alg».proof.Defs
import proofs.«171431_j27848567947758_1_alg».proof.Proof.Gen.Kernel
import proofs.«171431_j27848567947758_1_alg».proof.Proof.Gen.KernelIdeal
import proofs.«171431_j27848567947758_1_alg».proof.Proof.Gen.ReferenceIdeal
import proofs.«171431_j27848567947758_1_alg».proof.Proof.Gen.Pre_finite_inputs
import proofs.«171431_j27848567947758_1_alg».proof.Proof.Final

noncomputable section

namespace Cert.Proof

/-- Two heads of an order-3 Chebyshev graph convolution, tanh(X W₀ + (L X) W₁ + (2 L (L X) − X) W₂ + b) then a dense layer: summed over 16 feature blocks by one program and edge by edge by the other, equal for finite features and edge endpoints below 100. -/
theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
